-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x32 : Shape := ⟨2, ![800000, 32]⟩
abbrev S2x800000 : Shape := ⟨2, ![2, 800000]⟩
abbrev S160x64 : Shape := ⟨2, ![160, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S64x50 : Shape := ⟨2, ![64, 50]⟩
abbrev S50 : Shape := ⟨1, ![50]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S64x50 : S_.BroadcastsInDim S64x50 (![] : Fin 0 → Fin S64x50.rank)
  reducesTo_S64x50_S_d0_1 : S64x50.ReducesTo [0, 1] S_
  bcast_S_S50 : S_.BroadcastsInDim S50 (![] : Fin 0 → Fin S50.rank)
  reducesTo_S50_S_d0 : S50.ReducesTo [0] S_
  bcast_S_S2x800000 : S_.BroadcastsInDim S2x800000 (![] : Fin 0 → Fin S2x800000.rank)
  reducesTo_S2x800000_S_d0_1 : S2x800000.ReducesTo [0, 1] S_

variable [Facts]

def fn_part6 {F : FTy → Type} [FloatOps F] (main_arg2 : IVec S2x800000 32) (main_arg22 : FVec F S50 .f32) (main_v98 : IVec S_ 1) (main_v101 : IVec S64x50 1) (main_c_39 : IVec S_ 1) : IVec S_ 1 :=
  let main_v102 : IVec S_ 1 := (fun x v => Host.reduce IntOp.andi x v reducesTo_S64x50_S_d0_1 h_S_) main_v101 main_c_39
  let main_v103 : IVec S_ 1 := andi main_v98 main_v102
  let main_v104 : FVec F S50 .f32 := Host.absf main_arg22
  let main_cst_40 : FVec F S_ .f32 := constant S_ .f32 0x7F800000#32
  let main_v105 : FVec F S50 .f32 := broadcastInDim S50 ![] bcast_S_S50 main_cst_40
  let main_v106 : IVec S50 1 := cmpf .olt main_v104 main_v105
  let main_c_41 : IVec S_ 1 := constantI S_ 1 1#1
  let main_v107 : IVec S_ 1 := (fun x v => Host.reduce IntOp.andi x v reducesTo_S50_S_d0 h_S_) main_v106 main_c_41
  let main_v108 : IVec S_ 1 := andi main_v103 main_v107
  let main_c_42 : IVec S_ 32 := constantI S_ 32 0#32
  let main_v109 : IVec S2x800000 32 := broadcastInDim S2x800000 ![] bcast_S_S2x800000 main_c_42
  let main_v110 : IVec S2x800000 1 := cmpi .sge main_arg2 main_v109
  let main_c_43 : IVec S_ 1 := constantI S_ 1 1#1
  let main_v111 : IVec S_ 1 := (fun x v => Host.reduce IntOp.andi x v reducesTo_S2x800000_S_d0_1 h_S_) main_v110 main_c_43
  let main_v112 : IVec S_ 1 := andi main_v108 main_v111
  let main_c_44 : IVec S_ 32 := constantI S_ 32 50000#32
  let main_v113 : IVec S2x800000 32 := broadcastInDim S2x800000 ![] bcast_S_S2x800000 main_c_44
  let main_v114 : IVec S2x800000 1 := cmpi .slt main_arg2 main_v113
  let main_c_45 : IVec S_ 1 := constantI S_ 1 1#1
  let main_v115 : IVec S_ 1 := (fun x v => Host.reduce IntOp.andi x v reducesTo_S2x800000_S_d0_1 h_S_) main_v114 main_c_45
  let main_v116 : IVec S_ 1 := andi main_v112 main_v115
  main_v116

def fn_part5 {F : FTy → Type} [FloatOps F] (main_arg2 : IVec S2x800000 32) (main_arg19 : FVec F S64x50 .f32) (main_arg20 : FVec F S50 .f32) (main_arg21 : FVec F S64x50 .f32) (main_arg22 : FVec F S50 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S64x50 .f32 := Host.absf main_arg19
  let main_cst_34 : FVec F S_ .f32 := constant S_ .f32 0x7F800000#32
  let main_v90 : FVec F S64x50 .f32 := broadcastInDim S64x50 ![] bcast_S_S64x50 main_cst_34
  let main_v91 : IVec S64x50 1 := cmpf .olt main_v89 main_v90
  let main_c_35 : IVec S_ 1 := constantI S_ 1 1#1
  let main_v92 : IVec S_ 1 := (fun x v => Host.reduce IntOp.andi x v reducesTo_S64x50_S_d0_1 h_S_) main_v91 main_c_35
  let main_v93 : IVec S_ 1 := andi main_v88 main_v92
  let main_v94 : FVec F S50 .f32 := Host.absf main_arg20
  let main_cst_36 : FVec F S_ .f32 := constant S_ .f32 0x7F800000#32
  let main_v95 : FVec F S50 .f32 := broadcastInDim S50 ![] bcast_S_S50 main_cst_36
  let main_v96 : IVec S50 1 := cmpf .olt main_v94 main_v95
  let main_c_37 : IVec S_ 1 := constantI S_ 1 1#1
  let main_v97 : IVec S_ 1 := (fun x v => Host.reduce IntOp.andi x v reducesTo_S50_S_d0 h_S_) main_v96 main_c_37
  let main_v98 : IVec S_ 1 := andi main_v93 main_v97
  let main_v99 : FVec F S64x50 .f32 := Host.absf main_arg21
  let main_cst_38 : FVec F S_ .f32 := constant S_ .f32 0x7F800000#32
  let main_v100 : FVec F S64x50 .f32 := broadcastInDim S64x50 ![] bcast_S_S64x50 main_cst_38
  let main_v101 : IVec S64x50 1 := cmpf .olt main_v99 main_v100
  let main_c_39 : IVec S_ 1 := constantI S_ 1 1#1
  fn_part6 (F := F) main_arg2 main_arg22 main_v98 main_v101 main_c_39

def fn_part4 {F : FTy → Type} [FloatOps F] (main_arg2 : IVec S2x800000 32) (main_arg15 : FVec F S64x256 .f32) (main_arg16 : FVec F S64x256 .f32) (main_arg17 : FVec F S256 .f32) (main_arg18 : FVec F S256 .f32) (main_arg19 : FVec F S64x50 .f32) (main_arg20 : FVec F S50 .f32) (main_arg21 : FVec F S64x50 .f32) (main_arg22 : FVec F S50 .f32) (main_v63 : IVec S_ 1) (main_v67 : IVec S_ 1) : IVec S_ 1 :=
  let main_v68 : IVec S_ 1 := andi main_v63 main_v67
  let main_v69 : FVec F S64x256 .f32 := Host.absf main_arg15
  let main_cst_26 : FVec F S_ .f32 := constant S_ .f32 0x7F800000#32
  let main_v70 : FVec F S64x256 .f32 := broadcastInDim S64x256 ![] bcast_S_S64x256 main_cst_26
  let main_v71 : IVec S64x256 1 := cmpf .olt main_v69 main_v70
  let main_c_27 : IVec S_ 1 := constantI S_ 1 1#1
  let main_v72 : IVec S_ 1 := (fun x v => Host.reduce IntOp.andi x v reducesTo_S64x256_S_d0_1 h_S_) main_v71 main_c_27
  let main_v73 : IVec S_ 1 := andi main_v68 main_v72
  let main_v74 : FVec F S64x256 .f32 := Host.absf main_arg16
  let main_cst_28 : FVec F S_ .f32 := constant S_ .f32 0x7F800000#32
  let main_v75 : FVec F S64x256 .f32 := broadcastInDim S64x256 ![] bcast_S_S64x256 main_cst_28
  let main_v76 : IVec S64x256 1 := cmpf .olt main_v74 main_v75
  let main_c_29 : IVec S_ 1 := constantI S_ 1 1#1
  let main_v77 : IVec S_ 1 := (fun x v => Host.reduce IntOp.andi x v reducesTo_S64x256_S_d0_1 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg2 main_arg19 main_arg20 main_arg21 main_arg22 main_v83 main_v84 main_cst_32

def fn_part3 {F : FTy → Type} [FloatOps F] (main_arg2 : IVec S2x800000 32) (main_arg12 : FVec F S64 .f32) (main_arg13 : FVec F S64x64 .f32) (main_arg14 : FVec F S64 .f32) (main_arg15 : FVec F S64x256 .f32) (main_arg16 : FVec F S64x256 .f32) (main_arg17 : FVec F S256 .f32) (main_arg18 : FVec F S256 .f32) (main_arg19 : FVec F S64x50 .f32) (main_arg20 : FVec F S50 .f32) (main_arg21 : FVec F S64x50 .f32) (main_arg22 : FVec F S50 .f32) (main_v48 : IVec S_ 1) (main_v49 : FVec F S160x64 .f32) (main_v50 : FVec F S160x64 .f32) : IVec S_ 1 :=
  let main_v51 : IVec S160x64 1 := cmpf .olt main_v49 main_v50
  let main_c_19 : IVec S_ 1 := constantI S_ 1 1#1
  let main_v52 : IVec S_ 1 := (fun x v => Host.reduce IntOp.andi x v reducesTo_S160x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg15 main_arg16 main_arg17 main_arg18 main_arg19 main_arg20 main_arg21 main_arg22 main_v63 main_v67

def fn_part2 {F : FTy → Type} [FloatOps F] (main_arg2 : IVec S2x800000 32) (main_arg8 : FVec F S64x256 .f32) (main_arg9 : FVec F S256 .f32) (main_arg10 : FVec F S256 .f32) (main_arg11 : FVec F S160x64 .f32) (main_arg12 : FVec F S64 .f32) (main_arg13 : FVec F S64x64 .f32) (main_arg14 : FVec F S64 .f32) (main_arg15 : FVec F S64x256 .f32) (main_arg16 : FVec F S64x256 .f32) (main_arg17 : FVec F S256 .f32) (main_arg18 : FVec F S256 .f32) (main_arg19 : FVec F S64x50 .f32) (main_arg20 : FVec F S50 .f32) (main_arg21 : FVec F S64x50 .f32) (main_arg22 : FVec F S50 .f32) (main_v33 : IVec S_ 1) : IVec S_ 1 :=
  let main_v34 : FVec F S64x256 .f32 := Host.absf main_arg8
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S160x64 .f32 := Host.absf main_arg11
  let main_cst_18 : FVec F S_ .f32 := constant S_ .f32 0x7F800000#32
  let main_v50 : FVec F S160x64 .f32 := broadcastInDim S160x64 ![] bcast_S_S160x64 main_cst_18
  fn_part3 (F := F) main_arg2 main_arg12 main_arg13 main_arg14 main_arg15 main_arg16 main_arg17 main_arg18 main_arg19 main_arg20 main_arg21 main_arg22 main_v48 main_v49 main_v50

def fn_part1 {F : FTy → Type} [FloatOps F] (main_arg2 : IVec S2x800000 32) (main_arg5 : FVec F S64x64 .f32) (main_arg6 : FVec F S64 .f32) (main_arg7 : FVec F S64x256 .f32) (main_arg8 : FVec F S64x256 .f32) (main_arg9 : FVec F S256 .f32) (main_arg10 : FVec F S256 .f32) (main_arg11 : FVec F S160x64 .f32) (main_arg12 : FVec F S64 .f32) (main_arg13 : FVec F S64x64 .f32) (main_arg14 : FVec F S64 .f32) (main_arg15 : FVec F S64x256 .f32) (main_arg16 : FVec F S64x256 .f32) (main_arg17 : FVec F S256 .f32) (main_arg18 : FVec F S256 .f32) (main_arg19 : FVec F S64x50 .f32) (main_arg20 : FVec F S50 .f32) (main_arg21 : FVec F S64x50 .f32) (main_arg22 : FVec F S50 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg7
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x64 .f32) (main_arg1 : FVec F S800000x32 .f32) (main_arg2 : IVec S2x800000 32) (main_arg3 : FVec F S160x64 .f32) (main_arg4 : FVec F S64 .f32) (main_arg5 : FVec F S64x64 .f32) (main_arg6 : FVec F S64 .f32) (main_arg7 : FVec F S64x256 .f32) (main_arg8 : FVec F S64x256 .f32) (main_arg9 : FVec F S256 .f32) (main_arg10 : FVec F S256 .f32) (main_arg11 : FVec F S160x64 .f32) (main_arg12 : FVec F S64 .f32) (main_arg13 : FVec F S64x64 .f32) (main_arg14 : FVec F S64 .f32) (main_arg15 : FVec F S64x256 .f32) (main_arg16 : FVec F S64x256 .f32) (main_arg17 : FVec F S256 .f32) (main_arg18 : FVec F S256 .f32) (main_arg19 : FVec F S64x50 .f32) (main_arg20 : FVec F S50 .f32) (main_arg21 : FVec F S64x50 .f32) (main_arg22 : FVec F S50 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S160x64 .f32 := Host.absf main_arg3
  let main_cst_2 : FVec F S_ .f32 := constant S_ .f32 0x7F800000#32
  let main_v10 : FVec F S160x64 .f32 := broadcastInDim S160x64 ![] bcast_S_S160x64 main_cst_2
  let main_v11 : IVec S160x64 1 := cmpf .olt main_v9 main_v10
  let main_c_3 : IVec S_ 1 := constantI S_ 1 1#1
  let main_v12 : IVec S_ 1 := (fun x v => Host.reduce IntOp.andi x v reducesTo_S160x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x64 : Shape := ⟨2, ![50000, 64]⟩
abbrev S800000x32 : Shape := ⟨2, ![800000, 32]⟩
abbrev S2x800000 : Shape := ⟨2, ![2, 800000]⟩
abbrev S160x64 : Shape := ⟨2, ![160, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S64x50 : Shape := ⟨2, ![64, 50]⟩
abbrev S50 : Shape := ⟨1, ![50]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S32x64 : Shape := ⟨2, ![32, 64]⟩
abbrev S1x64 : Shape := ⟨2, ![1, 64]⟩
abbrev S8000x64 : Shape := ⟨2, ![8000, 64]⟩
abbrev S8000x32 : Shape := ⟨2, ![8000, 32]⟩
abbrev S1x256 : Shape := ⟨2, ![1, 256]⟩
abbrev S5000x64 : Shape := ⟨2, ![5000, 64]⟩
abbrev S5000x256 : Shape := ⟨2, ![5000, 256]⟩
abbrev S1x50 : Shape := ⟨2, ![1, 50]⟩
abbrev S5000x50 : Shape := ⟨2, ![5000, 50]⟩

abbrev nBuf : Space → Nat
  | .hbm => 167
  | .vmem => 64
  | .smem => 0
  | _ => 0

abbrev hbmTy0_0 (i : Nat) : BufTy := match i % 128 with
  | 0 => ⟨S50000x64, .f32⟩
  | 1 => ⟨S800000x32, .f32⟩
  | 2 => ⟨S2x800000, .i32⟩
  | 3 => ⟨S160x64, .f32⟩
  | 4 => ⟨S64, .f32⟩
  | 5 => ⟨S64x64, .f32⟩
  | 6 => ⟨S64, .f32⟩
  | 7 => ⟨S64x256, .f32⟩
  | 8 => ⟨S64x256, .f32⟩
  | 9 => ⟨S256, .f32⟩
  | 10 => ⟨S256, .f32⟩
  | 11 => ⟨S160x64, .f32⟩
  | 12 => ⟨S64, .f32⟩
  | 13 => ⟨S64x64, .f32⟩
  | 14 => ⟨S64, .f32⟩
  | 15 => ⟨S64x256, .f32⟩
  | 16 => ⟨S64x256, .f32⟩
  | 17 => ⟨S256, .f32⟩
  | 18 => ⟨S256, .f32⟩
  | 19 => ⟨S64x50, .f32⟩
  | 20 => ⟨S50, .f32⟩
  | 21 => ⟨S64x50, .f32⟩
  | 22 => ⟨S50, .f32⟩
  | 23 => ⟨S1x800000, .i32⟩
  | 24 => ⟨S800000, .i32⟩
  | 25 => ⟨S1x800000, .i32⟩
  | 26 => ⟨S800000, .i32⟩
  | 27 => ⟨S_, .f32⟩
  | 28 => ⟨S50000x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S1, .i32⟩
  | 38 => ⟨S_, .i32⟩
  | 39 => ⟨S800000x1, .i32⟩
  | 40 => ⟨S800000x1, .i1⟩
  | 41 => ⟨S1x1, .i32⟩
  | 42 => ⟨S800000x1, .i32⟩
  | 43 => ⟨S800000x1, .i1⟩
  | 44 => ⟨S800000x1, .i1⟩
  | 45 => ⟨S_, .i1⟩
  | 46 => ⟨S800000, .i1⟩
  | 47 => ⟨S800000x64, .f32⟩
  | 48 => ⟨S800000x64, .i1⟩
  | 49 => ⟨S_, .f32⟩
  | 50 => ⟨S800000x64, .f32⟩
  | 51 => ⟨S800000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S1, .i32⟩
  | 61 => ⟨S_, .i32⟩
  | 62 => ⟨S800000x1, .i32⟩
  | 63 => ⟨S800000x1, .i1⟩
  | 64 => ⟨S1x1, .i32⟩
  | 65 => ⟨S800000x1, .i32⟩
  | 66 => ⟨S800000x1, .i1⟩
  | 67 => ⟨S800000x1, .i1⟩
  | 68 => ⟨S_, .i1⟩
  | 69 => ⟨S800000, .i1⟩
  | 70 => ⟨S800000x64, .f32⟩
  | 71 => ⟨S800000x64, .i1⟩
  | 72 => ⟨S_, .f32⟩
  | 73 => ⟨S800000x64, .f32⟩
  | 74 => ⟨S800000x64, .f32⟩
  | 75 => ⟨S64x64, .f32⟩
  | 76 => ⟨S64x64, .bf16⟩
  | 77 => ⟨S64x64, .f32⟩
  | 78 => ⟨S64x64, .bf16⟩
  | 79 => ⟨S32x64, .f32⟩
  | 80 => ⟨S32x64, .bf16⟩
  | 81 => ⟨S1x64, .f32⟩
  | 82 => ⟨S64x64, .bf16⟩
  | 83 => ⟨S1x64, .f32⟩
  | 84 => ⟨S800000x64, .f32⟩
  | 85 => ⟨S_, .f32⟩
  | 86 => ⟨S50000x64, .f32⟩
  | 87 => ⟨S800000x1, .i32⟩
  | 88 => ⟨S50000x64, .f32⟩
  | 89 => ⟨S64x256, .bf16⟩
  | 90 => ⟨S64x256, .bf16⟩
  | 91 => ⟨S1x256, .f32⟩
  | 92 => ⟨S1x256, .f32⟩
  | 93 => ⟨S50000x64, .f32⟩
  | 94 => ⟨S50000x64, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S1, .i32⟩
  | 104 => ⟨S_, .i32⟩
  | 105 => ⟨S800000x1, .i32⟩
  | 106 => ⟨S800000x1, .i1⟩
  | 107 => ⟨S1x1, .i32⟩
  | 108 => ⟨S800000x1, .i32⟩
  | 109 => ⟨S800000x1, .i1⟩
  | 110 => ⟨S800000x1, .i1⟩
  | 111 => ⟨S_, .i1⟩
  | 112 => ⟨S800000, .i1⟩
  | 113 => ⟨S800000x64, .f32⟩
  | 114 => ⟨S800000x64, .i1⟩
  | 115 => ⟨S_, .f32⟩
  | 116 => ⟨S800000x64, .f32⟩
  | 117 => ⟨S800000x64, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S1, .i32⟩
  | 127 => ⟨S_, .i32⟩
  | _ => ⟨S50000x64, .f32⟩

abbrev hbmTy0_1 (i : Nat) : BufTy := match i % 128 with
  | 0 => ⟨S800000x1, .i32⟩
  | 1 => ⟨S800000x1, .i1⟩
  | 2 => ⟨S1x1, .i32⟩
  | 3 => ⟨S800000x1, .i32⟩
  | 4 => ⟨S800000x1, .i1⟩
  | 5 => ⟨S800000x1, .i1⟩
  | 6 => ⟨S_, .i1⟩
  | 7 => ⟨S800000, .i1⟩
  | 8 => ⟨S800000x64, .f32⟩
  | 9 => ⟨S800000x64, .i1⟩
  | 10 => ⟨S_, .f32⟩
  | 11 => ⟨S800000x64, .f32⟩
  | 12 => ⟨S800000x64, .f32⟩
  | 13 => ⟨S64x64, .f32⟩
  | 14 => ⟨S64x64, .bf16⟩
  | 15 => ⟨S64x64, .f32⟩
  | 16 => ⟨S64x64, .bf16⟩
  | 17 => ⟨S32x64, .f32⟩
  | 18 => ⟨S32x64, .bf16⟩
  | 19 => ⟨S1x64, .f32⟩
  | 20 => ⟨S64x64, .bf16⟩
  | 21 => ⟨S1x64, .f32⟩
  | 22 => ⟨S800000x64, .f32⟩
  | 23 => ⟨S_, .f32⟩
  | 24 => ⟨S50000x64, .f32⟩
  | 25 => ⟨S800000x1, .i32⟩
  | 26 => ⟨S50000x64, .f32⟩
  | 27 => ⟨S64x256, .bf16⟩
  | 28 => ⟨S64x256, .bf16⟩
  | 29 => ⟨S1x256, .f32⟩
  | 30 => ⟨S1x256, .f32⟩
  | 31 => ⟨S50000x64, .f32⟩
  | 32 => ⟨S50000x64, .f32⟩
  | 33 => ⟨S64x50, .bf16⟩
  | 34 => ⟨S1x50, .f32⟩
  | 35 => ⟨S64x50, .bf16⟩
  | 36 => ⟨S1x50, .f32⟩
  | 37 => ⟨S1x50, .f32⟩
  | 38 => ⟨S50, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x32, .f32⟩
  | .local _ .vmem, ⟨5, _⟩ => ⟨S8000x32, .f32⟩
  | .local _ .vmem, ⟨6, _⟩ => ⟨S64x64, .bf16⟩
  | .local _ .vmem, ⟨7, _⟩ => ⟨S64x64, .bf16⟩
  | .local _ .vmem, ⟨8, _⟩ => ⟨S32x64, .bf16⟩
  | .local _ .vmem, ⟨9, _⟩ => ⟨S1x64, .f32⟩
  | .local _ .vmem, ⟨10, _⟩ => ⟨S64x64, .bf16⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x256, .bf16⟩
  | .local _ .vmem, ⟨21, _⟩ => ⟨S64x256, .bf16⟩
  | .local _ .vmem, ⟨22, _⟩ => ⟨S1x256, .f32⟩
  | .local _ .vmem, ⟨23, _⟩ => ⟨S1x256, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S8000x64, .f32⟩
  | .local _ .vmem, ⟨29, _⟩ => ⟨S8000x64, .f32⟩
  | .local _ .vmem, ⟨30, _⟩ => ⟨S8000x64, .f32⟩
  | .local _ .vmem, ⟨31, _⟩ => ⟨S8000x64, .f32⟩
  | .local _ .vmem, ⟨32, _⟩ => ⟨S8000x32, .f32⟩
  | .local _ .vmem, ⟨33, _⟩ => ⟨S8000x32, .f32⟩
  | .local _ .vmem, ⟨34, _⟩ => ⟨S64x64, .bf16⟩
  | .local _ .vmem, ⟨35, _⟩ => ⟨S64x64, .bf16⟩
  | .local _ .vmem, ⟨36, _⟩ => ⟨S32x64, .bf16⟩
  | .local _ .vmem, ⟨37, _⟩ => ⟨S1x64, .f32⟩
  | .local _ .vmem, ⟨38, _⟩ => ⟨S64x64, .bf16⟩
  | .local _ .vmem, ⟨39, _⟩ => ⟨S1x64, .f32⟩
  | .local _ .vmem, ⟨40, _⟩ => ⟨S8000x64, .f32⟩
  | .local _ .vmem, ⟨41, _⟩ => ⟨S8000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x256, .bf16⟩
  | .local _ .vmem, ⟨49, _⟩ => ⟨S64x256, .bf16⟩
  | .local _ .vmem, ⟨50, _⟩ => ⟨S1x256, .f32⟩
  | .local _ .vmem, ⟨51, _⟩ => ⟨S1x256, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S64x50, .bf16⟩
  | .local _ .vmem, ⟨59, _⟩ => ⟨S1x50, .f32⟩
  | .local _ .vmem, ⟨60, _⟩ => ⟨S64x50, .bf16⟩
  | .local _ .vmem, ⟨61, _⟩ => ⟨S1x50, .f32⟩
  | .local _ .vmem, ⟨62, _⟩ => ⟨S1x50, .f32⟩
  | .local _ .vmem, ⟨63, _⟩ => ⟨S1x50, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v5 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_v13 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_cst_0 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24_0 : Ref sig .tc := ⟨.hbm, 93, rfl⟩
abbrev main_v24_1 : Ref sig .tc := ⟨.hbm, 94, rfl⟩
abbrev main_call2_c : Ref sig .tc := ⟨.hbm, 95, rfl⟩
abbrev main_call2_v0 : Ref sig .tc := ⟨.hbm, 96, rfl⟩
abbrev main_call2_v1 : Ref sig .tc := ⟨.hbm, 97, rfl⟩
abbrev main_call2_c_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_c_1 : Ref sig .tc := ⟨.hbm, 103, rfl⟩
abbrev main_call2_c_2 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_3 : Ref sig .tc := ⟨.hbm, 111, rfl⟩
abbrev main_call2_v12 : Ref sig .tc := ⟨.hbm, 112, rfl⟩
abbrev main_call2_v13 : Ref sig .tc := ⟨.hbm, 113, rfl⟩
abbrev main_call2_v14 : Ref sig .tc := ⟨.hbm, 114, rfl⟩
abbrev main_call2_cst : Ref sig .tc := ⟨.hbm, 115, rfl⟩
abbrev main_call2_v15 : Ref sig .tc := ⟨.hbm, 116, rfl⟩
abbrev main_v25 : Ref sig .tc := ⟨.hbm, 117, rfl⟩
abbrev main_call3_c : Ref sig .tc := ⟨.hbm, 118, rfl⟩
abbrev main_call3_v0 : Ref sig .tc := ⟨.hbm, 119, rfl⟩
abbrev main_call3_v1 : Ref sig .tc := ⟨.hbm, 120, rfl⟩
abbrev main_call3_c_0 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_c_1 : Ref sig .tc := ⟨.hbm, 126, rfl⟩
abbrev main_call3_c_2 : Ref sig .tc := ⟨.hbm, 127, rfl⟩
abbrev main_call3_v6 : Ref sig .tc := ⟨.hbm, 128, rfl⟩
abbrev main_call3_v7 : Ref sig .tc := ⟨.hbm, 129, rfl⟩
abbrev main_call3_v8 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_c_3 : Ref sig .tc := ⟨.hbm, 134, rfl⟩
abbrev main_call3_v12 : Ref sig .tc := ⟨.hbm, 135, rfl⟩
abbrev main_call3_v13 : Ref sig .tc := ⟨.hbm, 136, rfl⟩
abbrev main_call3_v14 : Ref sig .tc := ⟨.hbm, 137, rfl⟩
abbrev main_call3_cst : Ref sig .tc := ⟨.hbm, 138, rfl⟩
abbrev main_call3_v15 : Ref sig .tc := ⟨.hbm, 139, rfl⟩
abbrev main_v26 : Ref sig .tc := ⟨.hbm, 140, rfl⟩
abbrev main_v27 : Ref sig .tc := ⟨.hbm, 141, rfl⟩
abbrev main_v28 : Ref sig .tc := ⟨.hbm, 142, rfl⟩
abbrev main_v29 : Ref sig .tc := ⟨.hbm, 143, rfl⟩
abbrev main_v30 : Ref sig .tc := ⟨.hbm, 144, rfl⟩
abbrev main_v31 : Ref sig .tc := ⟨.hbm, 145, rfl⟩
abbrev main_v32 : Ref sig .tc := ⟨.hbm, 146, rfl⟩
abbrev main_v33 : Ref sig .tc := ⟨.hbm, 147, rfl⟩
abbrev main_v34 : Ref sig .tc := ⟨.hbm, 148, rfl⟩
abbrev main_v35 : Ref sig .tc := ⟨.hbm, 149, rfl⟩
abbrev main_v36 : Ref sig .tc := ⟨.hbm, 150, rfl⟩
abbrev main_cst_1 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44_0 : Ref sig .tc := ⟨.hbm, 159, rfl⟩
abbrev main_v44_1 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg9_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg7_1 : Ref sig .tc := ⟨.vmem, 53, rfl⟩
abbrev cc3_stg8_0 : Ref sig .tc := ⟨.vmem, 54, rfl⟩
abbrev cc3_stg8_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg2_0 : Ref sig .tc := ⟨.vmem, 59, rfl⟩
abbrev cc4_stg3_0 : Ref sig .tc := ⟨.vmem, 60, rfl⟩
abbrev cc4_stg4_0 : Ref sig .tc := ⟨.vmem, 61, rfl⟩
abbrev cc4_stg5_0 : Ref sig .tc := ⟨.vmem, 62, rfl⟩
abbrev cc4_scratch0 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem7_1 : DmaSem sig := 53
abbrev cc3_sem8_0 : DmaSem sig := 54
abbrev cc3_sem8_1 : DmaSem sig := 55
abbrev cc4_sem0_0 : DmaSem sig := 56
abbrev cc4_sem0_1 : DmaSem sig := 57
abbrev cc4_sem1_0 : DmaSem sig := 58
abbrev cc4_sem2_0 : DmaSem sig := 59
abbrev cc4_sem3_0 : DmaSem sig := 60
abbrev cc4_sem4_0 : DmaSem sig := 61
abbrev cc4_sem5_0 : DmaSem sig := 62

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v29 : BitVec 1 := Scalar.cmpi .eq arg0 c9_i32
  let v30 : BitVec 32 := Scalar.extui v29
  let c0_i32_16 : BitVec 32 := 0#32
  let v31 : BitVec 1 := Scalar.cmpi .ne v30 c0_i32_16
  v31

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x50 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x50 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x50 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x50 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x50 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S160x64_S64x64_0_0 : S160x64.Slices ![0, 0] S64x64
  bitsLt_bf16_f32 : FTy.bits .bf16 < FTy.bits .f32
  slices_S160x64_S64x64_64_0 : S160x64.Slices ![64, 0] S64x64
  slices_S160x64_S32x64_128_0 : S160x64.Slices ![128, 0] S32x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x32_S8000x32_0_0 : ∀ a, (![0, 0] : Fin 2 → Nat) a + S8000x32.size a ≤ S8000x32.size a
  h_S8000x32 : 0 < S8000x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  shapeCasts_S256_S1x256 : S256.ShapeCasts S1x256
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S5000x256_o0_0_S5000x64 : S5000x256.Slices ![0, 0] S5000x64
  slices_S5000x256_o0_64_S5000x64 : S5000x256.Slices ![0, 64] S5000x64
  slices_S5000x256_o0_128_S5000x64 : S5000x256.Slices ![0, 128] S5000x64
  slices_S5000x256_o0_192_S5000x64 : S5000x256.Slices ![0, 192] S5000x64
  shapeCasts_S50_S1x50 : S50.ShapeCasts S1x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  inb_S64x50_S64x50_0_0 : ∀ a, (![0, 0] : Fin 2 → Nat) a + S64x50.size a ≤ S64x50.size a
  h_S64x50 : 0 < S64x50.numel
  shapeCasts_S64x50_S64x50 : S64x50.ShapeCasts S64x50
  broadcasts_S1x50_S5000x50 : S1x50.Broadcasts S5000x50
  reduces_S5000x50_S50 : S5000x50.Reduces [0] S50
  shapeCasts_S1x50_S50 : S1x50.ShapeCasts S50
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  dot_S8000x32_S32x64_S8000x64_1_0_0_1_n_n_wf : DotDims.WF S8000x32 S32x64 S8000x64 [1] [0] [0] [1] [] []
  scatter_S50000x64_S800000x1_S800000x64_1_0_0_1_wf : ScatterDims.WF S50000x64 S800000x1 S800000x64 [1] [0] [0] 1
  dot_S5000x64_S64x256_S5000x256_1_0_0_1_n_n_wf : DotDims.WF S5000x64 S64x256 S5000x256 [1] [0] [0] [1] [] []
  dot_S5000x64_S64x50_S5000x50_1_0_0_1_n_n_wf : DotDims.WF S5000x64 S64x50 S5000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S800000x32.size a
  hwx0_2 : ∀ i : grid0.Coords, EltTy.bits .f32 = 32 ∨ (Rect.block (s := S800000x32) S8000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .bf16 = 32 ∨ (Rect.block (s := S32x64) S32x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x256.size a
  hwx1_3 : ∀ i : grid1.Coords, EltTy.bits .bf16 = 32 ∨ (Rect.block (s := S64x256) S64x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x256.size a ≤ S64x256.size a
  hwx1_4 : ∀ i : grid1.Coords, EltTy.bits .bf16 = 32 ∨ (Rect.block (s := S64x256) S64x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S800000x64.size a
  hwx2_0 : ∀ i : grid2.Coords, EltTy.bits .f32 = 32 ∨ (Rect.block (s := S800000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S800000x64.size a
  hwx2_1 : ∀ i : grid2.Coords, EltTy.bits .f32 = 32 ∨ (Rect.block (s := S800000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S800000x32.size a
  hwx2_2 : ∀ i : grid2.Coords, EltTy.bits .f32 = 32 ∨ (Rect.block (s := S800000x32) S8000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .bf16 = 32 ∨ (Rect.block (s := S64x64) S64x64.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x64.size a ≤ S32x64.size a
  hwx2_5 : ∀ i : grid2.Coords, EltTy.bits .bf16 = 32 ∨ (Rect.block (s := S32x64) S32x64.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .bf16 = 32 ∨ (Rect.block (s := S64x64) S64x64.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8000x64.size a ≤ S800000x64.size a
  hwx2_9 : ∀ i : grid2.Coords, EltTy.bits .f32 = 32 ∨ (Rect.block (s := S800000x64) S8000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x256.size a ≤ S64x256.size a
  hwx3_3 : ∀ i : grid3.Coords, EltTy.bits .bf16 = 32 ∨ (Rect.block (s := S64x256) S64x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x256.size a ≤ S64x256.size a
  hwx3_4 : ∀ i : grid3.Coords, EltTy.bits .bf16 = 32 ∨ (Rect.block (s := S64x256) S64x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S50000x64.size a
  hwx3_7 : ∀ i : grid3.Coords, EltTy.bits .f32 = 32 ∨ (Rect.block (s := S50000x64) S5000x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x64.size a ≤ S50000x64.size a
  hwx3_8 : ∀ i : grid3.Coords, EltTy.bits .f32 = 32 ∨ (Rect.block (s := S50000x64) S5000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x50.size a ≤ S64x50.size a
  hwx4_1 : ∀ i : grid4.Coords, EltTy.bits .bf16 = 32 ∨ (Rect.block (s := S64x50) S64x50.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x50.size a ≤ S1x50.size a
  hwx4_2 : ∀ i : grid4.Coords, EltTy.bits .f32 = 32 ∨ (Rect.block (s := S1x50) S1x50.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x50.size a ≤ S64x50.size a
  hwx4_3 : ∀ i : grid4.Coords, EltTy.bits .bf16 = 32 ∨ (Rect.block (s := S64x50) S64x50.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x50.size a ≤ S1x50.size a
  hwx4_4 : ∀ i : grid4.Coords, EltTy.bits .f32 = 32 ∨ (Rect.block (s := S1x50) S1x50.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x50.size a ≤ S1x50.size a
  hwx4_5 : ∀ i : grid4.Coords, EltTy.bits .f32 = 32 ∨ (Rect.block (s := S1x50) S1x50.size (cc4_transform_5 i) (hinb4_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x64_S64x50_S5000x50_1_0_0_1_n_n : DotDims S5000x64 S64x50 S5000x50 where
  lhsContracting := [1]
  rhsContracting := [0]
  lhsNonContracting := [0]
  rhsNonContracting := [1]
  lhsBatch := []
  rhsBatch := []
  wf := dot_S5000x64_S64x50_S5000x50_1_0_0_1_n_n_wf

abbrev win0_0 : Pipeline.Window sig grid0 :=
  Pipeline.Window.ofSpec (Memref.whole main_v5) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S64x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S64x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v24_1) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v25) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S8000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S32x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v33) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v34) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v35) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v36) S8000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v24_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24_1) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v40) S64x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S64x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v43) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v44_0) S5000x64.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v44_1) S5000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v44_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S64x50.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S1x50.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v47) S64x50.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v48) S1x50.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v49) S1x50.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

class Facts : Prop extends Facts₀ where

variable [Facts]
-- ==== ReferenceIdeal.lean ====
abbrev S50000x64 : Shape := ⟨2, ![50000, 64]⟩
abbrev S800000x32 : Shape := ⟨2, ![800000, 32]⟩
abbrev S2x800000 : Shape := ⟨2, ![2, 800000]⟩
abbrev S160x64 : Shape := ⟨2, ![160, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S64x50 : Shape := ⟨2, ![64, 50]⟩
abbrev S50 : Shape := ⟨1, ![50]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S1x64 : Shape := ⟨2, ![1, 64]⟩
abbrev S50000x256 : Shape := ⟨2, ![50000, 256]⟩
abbrev S1x256 : Shape := ⟨2, ![1, 256]⟩
abbrev S50000x50 : Shape := ⟨2, ![50000, 50]⟩
abbrev S1x50 : Shape := ⟨2, ![1, 50]⟩

abbrev nBuf : Space → Nat
  | .hbm => 198
  | .vmem => 0
  | .smem => 0
  | _ => 0

abbrev hbmTy0_0 (i : Nat) : BufTy := match i % 128 with
  | 0 => ⟨S50000x64, .f32⟩
  | 1 => ⟨S800000x32, .f32⟩
  | 2 => ⟨S2x800000, .i32⟩
  | 3 => ⟨S160x64, .f32⟩
  | 4 => ⟨S64, .f32⟩
  | 5 => ⟨S64x64, .f32⟩
  | 6 => ⟨S64, .f32⟩
  | 7 => ⟨S64x256, .f32⟩
  | 8 => ⟨S64x256, .f32⟩
  | 9 => ⟨S256, .f32⟩
  | 10 => ⟨S256, .f32⟩
  | 11 => ⟨S160x64, .f32⟩
  | 12 => ⟨S64, .f32⟩
  | 13 => ⟨S64x64, .f32⟩
  | 14 => ⟨S64, .f32⟩
  | 15 => ⟨S64x256, .f32⟩
  | 16 => ⟨S64x256, .f32⟩
  | 17 => ⟨S256, .f32⟩
  | 18 => ⟨S256, .f32⟩
  | 19 => ⟨S64x50, .f32⟩
  | 20 => ⟨S50, .f32⟩
  | 21 => ⟨S64x50, .f32⟩
  | 22 => ⟨S50, .f32⟩
  | 23 => ⟨S1x800000, .i32⟩
  | 24 => ⟨S800000, .i32⟩
  | 25 => ⟨S1x800000, .i32⟩
  | 26 => ⟨S800000, .i32⟩
  | 27 => ⟨S_, .f32⟩
  | 28 => ⟨S50000x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S800000x160, .f32⟩
  | 48 => ⟨S800000x64, .f32⟩
  | 49 => ⟨S1x64, .f32⟩
  | 50 => ⟨S800000x64, .f32⟩
  | 51 => ⟨S800000x64, .f32⟩
  | 52 => ⟨S_, .f32⟩
  | 53 => ⟨S800000x64, .f32⟩
  | 54 => ⟨S800000x64, .f32⟩
  | 55 => ⟨S800000x64, .f32⟩
  | 56 => ⟨S1x64, .f32⟩
  | 57 => ⟨S800000x64, .f32⟩
  | 58 => ⟨S800000x64, .f32⟩
  | 59 => ⟨S_, .f32⟩
  | 60 => ⟨S50000x64, .f32⟩
  | 61 => ⟨S800000x1, .i32⟩
  | 62 => ⟨S50000x64, .f32⟩
  | 63 => ⟨S50000x256, .f32⟩
  | 64 => ⟨S50000x256, .f32⟩
  | 65 => ⟨S50000x256, .f32⟩
  | 66 => ⟨S256, .f32⟩
  | 67 => ⟨S1x256, .f32⟩
  | 68 => ⟨S50000x256, .f32⟩
  | 69 => ⟨S50000x256, .f32⟩
  | 70 => ⟨S50000x64, .f32⟩
  | 71 => ⟨S50000x64, .f32⟩
  | 72 => ⟨S50000x64, .f32⟩
  | 73 => ⟨S50000x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S50000x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S50000x64, .f32⟩
  | 93 => ⟨S50000x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S_, .f32⟩
  | 100 => ⟨S50000x64, .f32⟩
  | 101 => ⟨S50000x64, .f32⟩
  | 102 => ⟨S50000x64, .f32⟩
  | 103 => ⟨S50000x64, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x64, .f32⟩
  | 122 => ⟨S800000x160, .f32⟩
  | 123 => ⟨S800000x64, .f32⟩
  | 124 => ⟨S1x64, .f32⟩
  | 125 => ⟨S800000x64, .f32⟩
  | 126 => ⟨S800000x64, .f32⟩
  | 127 => ⟨S_, .f32⟩
  | _ => ⟨S50000x64, .f32⟩

abbrev hbmTy0_1 (i : Nat) : BufTy := match i % 128 with
  | 0 => ⟨S800000x64, .f32⟩
  | 1 => ⟨S800000x64, .f32⟩
  | 2 => ⟨S800000x64, .f32⟩
  | 3 => ⟨S1x64, .f32⟩
  | 4 => ⟨S800000x64, .f32⟩
  | 5 => ⟨S800000x64, .f32⟩
  | 6 => ⟨S_, .f32⟩
  | 7 => ⟨S50000x64, .f32⟩
  | 8 => ⟨S800000x1, .i32⟩
  | 9 => ⟨S50000x64, .f32⟩
  | 10 => ⟨S50000x256, .f32⟩
  | 11 => ⟨S50000x256, .f32⟩
  | 12 => ⟨S50000x256, .f32⟩
  | 13 => ⟨S256, .f32⟩
  | 14 => ⟨S1x256, .f32⟩
  | 15 => ⟨S50000x256, .f32⟩
  | 16 => ⟨S50000x256, .f32⟩
  | 17 => ⟨S50000x64, .f32⟩
  | 18 => ⟨S50000x64, .f32⟩
  | 19 => ⟨S50000x64, .f32⟩
  | 20 => ⟨S50000x64, .f32⟩
  | 21 => ⟨S50000x64, .f32⟩
  | 22 => ⟨S50000x64, .f32⟩
  | 23 => ⟨S_, .f32⟩
  | 24 => ⟨S50000x64, .f32⟩
  | 25 => ⟨S50000x64, .f32⟩
  | 26 => ⟨S_, .f32⟩
  | 27 => ⟨S50000x64, .f32⟩
  | 28 => ⟨S50000x64, .f32⟩
  | 29 => ⟨S50000x64, .f32⟩
  | 30 => ⟨S50000x64, .f32⟩
  | 31 => ⟨S50000x64, .f32⟩
  | 32 => ⟨S_, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S50000x64, .f32⟩
  | 39 => ⟨S50000x64, .f32⟩
  | 40 => ⟨S50000x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S_, .f32⟩
  | 47 => ⟨S50000x64, .f32⟩
  | 48 => ⟨S50000x64, .f32⟩
  | 49 => ⟨S50000x64, .f32⟩
  | 50 => ⟨S50000x64, .f32⟩
  | 51 => ⟨S50000x50, .f32⟩
  | 52 => ⟨S1x50, .f32⟩
  | 53 => ⟨S50000x50, .f32⟩
  | 54 => ⟨S50000x50, .f32⟩
  | 55 => ⟨S50000x50, .f32⟩
  | 56 => ⟨S50000x50, .f32⟩
  | 57 => ⟨S_, .f32⟩
  | 58 => ⟨S50000x50, .f32⟩
  | 59 => ⟨S50000x50, .f32⟩
  | 60 => ⟨S_, .f32⟩
  | 61 => ⟨S50000x50, .f32⟩
  | 62 => ⟨S50000x50, .f32⟩
  | 63 => ⟨S50000x50, .f32⟩
  | 64 => ⟨S1x50, .f32⟩
  | 65 => ⟨S50000x50, .f32⟩
  | 66 => ⟨S50000x50, .f32⟩
  | 67 => ⟨S50000x50, .f32⟩
  | 68 => ⟨S_, .f32⟩
  | 69 => ⟨S50, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_c : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_1 : Ref sig .tc := ⟨.hbm, 38, rfl⟩
abbrev main_v12 : Ref sig .tc := ⟨.hbm, 39, rfl⟩
abbrev main_v13 : Ref sig .tc := ⟨.hbm, 40, rfl⟩
abbrev main_c_2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call0_cst : Ref sig .tc := ⟨.hbm, 52, rfl⟩
abbrev main_call0_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_3 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_4 : Ref sig .tc := ⟨.hbm, 76, rfl⟩
abbrev main_v45 : Ref sig .tc := ⟨.hbm, 77, rfl⟩
abbrev main_v46 : Ref sig .tc := ⟨.hbm, 78, rfl⟩
abbrev main_cst_5 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_6 : Ref sig .tc := ⟨.hbm, 85, rfl⟩
abbrev main_v52 : Ref sig .tc := ⟨.hbm, 86, rfl⟩
abbrev main_v53 : Ref sig .tc := ⟨.hbm, 87, rfl⟩
abbrev main_cst_7 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_8 : Ref sig .tc := ⟨.hbm, 96, rfl⟩
abbrev main_v61 : Ref sig .tc := ⟨.hbm, 97, rfl⟩
abbrev main_v62 : Ref sig .tc := ⟨.hbm, 98, rfl⟩
abbrev main_cst_9 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_10 : Ref sig .tc := ⟨.hbm, 104, rfl⟩
abbrev main_v67 : Ref sig .tc := ⟨.hbm, 105, rfl⟩
abbrev main_v68 : Ref sig .tc := ⟨.hbm, 106, rfl⟩
abbrev main_c_11 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_12 : Ref sig .tc := ⟨.hbm, 113, rfl⟩
abbrev main_v74 : Ref sig .tc := ⟨.hbm, 114, rfl⟩
abbrev main_v75 : Ref sig .tc := ⟨.hbm, 115, rfl⟩
abbrev main_c_13 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_call1_cst : Ref sig .tc := ⟨.hbm, 127, rfl⟩
abbrev main_call1_v0 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_14 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_15 : Ref sig .tc := ⟨.hbm, 151, rfl⟩
abbrev main_v107 : Ref sig .tc := ⟨.hbm, 152, rfl⟩
abbrev main_v108 : Ref sig .tc := ⟨.hbm, 153, rfl⟩
abbrev main_cst_16 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_17 : Ref sig .tc := ⟨.hbm, 160, rfl⟩
abbrev main_v114 : Ref sig .tc := ⟨.hbm, 161, rfl⟩
abbrev main_v115 : Ref sig .tc := ⟨.hbm, 162, rfl⟩
abbrev main_cst_18 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_19 : Ref sig .tc := ⟨.hbm, 171, rfl⟩
abbrev main_v123 : Ref sig .tc := ⟨.hbm, 172, rfl⟩
abbrev main_v124 : Ref sig .tc := ⟨.hbm, 173, rfl⟩
abbrev main_cst_20 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_cst_21 : Ref sig .tc := ⟨.hbm, 185, rfl⟩
abbrev main_v135 : Ref sig .tc := ⟨.hbm, 186, rfl⟩
abbrev main_v136 : Ref sig .tc := ⟨.hbm, 187, rfl⟩
abbrev main_cst_22 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_23 : Ref sig .tc := ⟨.hbm, 196, rfl⟩
abbrev main_v144 : Ref sig .tc := ⟨.hbm, 197, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x160_d1 : Shape.Concatenates [S800000x64, S800000x64, S800000x32] S800000x160 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S50000x256_S50000x64_0_0 : S50000x256.Slices ![0, 0] S50000x64
  slices_S50000x256_S50000x64_0_64 : S50000x256.Slices ![0, 64] S50000x64
  slices_S50000x256_S50000x64_0_128 : S50000x256.Slices ![0, 128] S50000x64
  slices_S50000x256_S50000x64_0_192 : S50000x256.Slices ![0, 192] S50000x64
  bcast_S50_S1x50_1 : S50.BroadcastsInDim S1x50 (![1] : Fin 1 → Fin S1x50.rank)
  bcast_S1x50_S50000x50_0_1 : S1x50.BroadcastsInDim S50000x50 (![0, 1] : Fin 2 → Fin S50000x50.rank)
  bcast_S_S50000x50 : S_.BroadcastsInDim S50000x50 (![] : Fin 0 → Fin S50000x50.rank)
  reducesTo_S50000x50_S50_d0 : S50000x50.ReducesTo [0] S50
  h_S_ : 0 < S_.numel
  gather_S50000x64_S800000x1_S800000x64_1_0_n_n_0_1_164_wf : GatherDims.WF S50000x64 S800000x1 S800000x64 [1] [0] [] [0] [] 1 ![1, 64]
  dot_S800000x160_S160x64_S800000x64_1_0_0_1_n_n_wf : DotDims.WF S800000x160 S160x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x256_S50000x256_1_0_0_1_n_n_wf : DotDims.WF S50000x64 S64x256 S50000x256 [1] [0] [0] [1] [] []
  dot_S50000x64_S64x50_S50000x50_1_0_0_1_n_n_wf : DotDims.WF S50000x64 S64x50 S50000x50 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x64_S800000x64_1_0_0_1_n_n : DotDims S800000x160 S160x64 S800000x64 where
  lhsContracting := [1]
  rhsContracting := [0]
  lhsNonContracting := [0]
  rhsNonContracting := [1]
  lhsBatch := []
  rhsBatch := []
  wf := dot_S800000x160_S160x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x64_S64x50_S50000x50_1_0_0_1_n_n : DotDims S50000x64 S64x50 S50000x50 where
  lhsContracting := [1]
  rhsContracting := [0]
  lhsNonContracting := [0]
  rhsNonContracting := [1]
  lhsBatch := []
  rhsBatch := []
  wf := dot_S50000x64_S64x50_S50000x50_1_0_0_1_n_n_wf

class Facts : Prop extends Facts₀ where

variable [Facts]
-- ==== Proof.EdgeA.lean ====
import proofs.«420294_j24077586661648_2_alg».proof.Proof.Gen.KernelIdeal.Launch
import proofs.«420294_j24077586661648_2_alg».proof.Proof.Gen.KernelIdeal.Skeleton
import proofs.«420294_j24077586661648_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S8000x64 := Rect.unit (s := S8000x64) ![0, 0] S8000x64.size inb_S8000x64_S8000x64_0_0
abbrev r0_1 : Rect S8000x32 := Rect.unit (s := S8000x32) ![0, 0] S8000x32.size inb_S8000x32_S8000x32_0_0
abbrev r0_2 : Rect S64x64 := Rect.unit (s := S64x64) ![0, 0] S64x64.size inb_S64x64_S64x64_0_0
abbrev r0_3 : Rect S32x64 := Rect.unit (s := S32x64) ![0, 0] S32x64.size inb_S32x64_S32x64_0_0
abbrev r0_4 : Rect S1x64 := Rect.unit (s := S1x64) ![0, 0] S1x64.size inb_S1x64_S1x64_0_0

def out0_9 (x0 : Vec F S8000x64 .f32) (x1 : Vec F S8000x64 .f32) (x2 : Vec F S8000x32 .f32) (x3 : Vec F S64x64 .bf16) (x4 : Vec F S64x64 .bf16) (x5 : Vec F S32x64 .bf16) (x6 : Vec F S1x64 .f32) (x7 : Vec F S64x64 .bf16) (x8 : Vec F S1x64 .f32) : Vec F S8000x64 .f32 :=
  View.canon [⟨r0_0, k0_pay1 (View.ld x0 r0_0) (View.ld x1 r0_0) (View.ld x2 r0_1) (View.ld x3 r0_2) (View.ld x4 r0_2) (View.ld x5 r0_3) (View.ld x7 r0_2) (View.ld x6 r0_4) (View.ld x8 r0_4)⟩]

theorem cover0_9 (p0 : Vec F S8000x64 .f32) (y : S8000x64.Idx) :
    ∃ pc ∈ ([⟨r0_0, p0⟩] : List (View.Piece (Elt F) S8000x64 .f32)), y ∈ pc.1.set :=
  View.cover_of_tiled [⟨r0_0, p0⟩] S8000x64.size (by rfl) y

set_option maxHeartbeats 1000000 in

theorem sound_kernel0 (c : Dev nD) (E : Set ℕ) (i : grid0.Coords) (arg1 : Memref sig .tc .vmem S8000x64 .f32) (harg1 : arg1.IsWhole) (arg2 : Memref sig .tc .vmem S8000x64 .f32) (harg2 : arg2.IsWhole) (arg3 : Memref sig .tc .vmem S8000x32 .f32) (harg3 : arg3.IsWhole) (arg4 : Memref sig .tc .vmem S64x64 .bf16) (harg4 : arg4.IsWhole) (arg5 : Memref sig .tc .vmem S64x64 .bf16) (harg5 : arg5.IsWhole) (arg6 : Memref sig .tc .vmem S32x64 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S1x64 .f32) (harg9 : arg9.IsWhole) (arg10 : Memref sig .tc .vmem S8000x64 .f32) (harg10 : arg10.IsWhole)
    (x0 : Vec F S8000x64 .f32) (x1 : Vec F S8000x64 .f32) (x2 : Vec F S8000x32 .f32) (x3 : Vec F S64x64 .bf16) (x4 : Vec F S64x64 .bf16) (x5 : Vec F S32x64 .bf16) (x6 : Vec F S1x64 .f32) (x7 : Vec F S64x64 .bf16) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
      (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
      (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
      (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
      (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
      (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
      (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
      (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
      (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
      (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.EdgeB.lean ====
import proofs.«420294_j24077586661648_2_alg».proof.Proof.Gen.KernelIdeal.Launch
import proofs.«420294_j24077586661648_2_alg».proof.Proof.Gen.KernelIdeal.Skeleton
import proofs.«420294_j24077586661648_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S8000x64 := Rect.unit (s := S8000x64) ![0, 0] S8000x64.size inb_S8000x64_S8000x64_0_0
abbrev r2_1 : Rect S8000x32 := Rect.unit (s := S8000x32) ![0, 0] S8000x32.size inb_S8000x32_S8000x32_0_0
abbrev r2_2 : Rect S64x64 := Rect.unit (s := S64x64) ![0, 0] S64x64.size inb_S64x64_S64x64_0_0
abbrev r2_3 : Rect S32x64 := Rect.unit (s := S32x64) ![0, 0] S32x64.size inb_S32x64_S32x64_0_0
abbrev r2_4 : Rect S1x64 := Rect.unit (s := S1x64) ![0, 0] S1x64.size inb_S1x64_S1x64_0_0

def out2_9 (x0 : Vec F S8000x64 .f32) (x1 : Vec F S8000x64 .f32) (x2 : Vec F S8000x32 .f32) (x3 : Vec F S64x64 .bf16) (x4 : Vec F S64x64 .bf16) (x5 : Vec F S32x64 .bf16) (x6 : Vec F S1x64 .f32) (x7 : Vec F S64x64 .bf16) (x8 : Vec F S1x64 .f32) : Vec F S8000x64 .f32 :=
  View.canon [⟨r2_0, k2_pay1 (View.ld x0 r2_0) (View.ld x1 r2_0) (View.ld x2 r2_1) (View.ld x3 r2_2) (View.ld x4 r2_2) (View.ld x5 r2_3) (View.ld x7 r2_2) (View.ld x6 r2_4) (View.ld x8 r2_4)⟩]

theorem cover2_9 (p0 : Vec F S8000x64 .f32) (y : S8000x64.Idx) :
    ∃ pc ∈ ([⟨r2_0, p0⟩] : List (View.Piece (Elt F) S8000x64 .f32)), y ∈ pc.1.set :=
  View.cover_of_tiled [⟨r2_0, p0⟩] S8000x64.size (by rfl) y

set_option maxHeartbeats 1000000 in

theorem sound_kernel2 (c : Dev nD) (E : Set ℕ) (i : grid2.Coords) (arg1 : Memref sig .tc .vmem S8000x64 .f32) (harg1 : arg1.IsWhole) (arg2 : Memref sig .tc .vmem S8000x64 .f32) (harg2 : arg2.IsWhole) (arg3 : Memref sig .tc .vmem S8000x32 .f32) (harg3 : arg3.IsWhole) (arg4 : Memref sig .tc .vmem S64x64 .bf16) (harg4 : arg4.IsWhole) (arg5 : Memref sig .tc .vmem S64x64 .bf16) (harg5 : arg5.IsWhole) (arg6 : Memref sig .tc .vmem S32x64 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S1x64 .f32) (harg9 : arg9.IsWhole) (arg10 : Memref sig .tc .vmem S8000x64 .f32) (harg10 : arg10.IsWhole)
    (x0 : Vec F S8000x64 .f32) (x1 : Vec F S8000x64 .f32) (x2 : Vec F S8000x32 .f32) (x3 : Vec F S64x64 .bf16) (x4 : Vec F S64x64 .bf16) (x5 : Vec F S32x64 .bf16) (x6 : Vec F S1x64 .f32) (x7 : Vec F S64x64 .bf16) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__edge_mlp_kernel i arg1 harg1 arg2 harg2 arg3 harg3 arg4 harg4 arg5 harg5 arg6 harg6 arg7 harg7 arg8 harg8 arg9 harg9 arg10 harg10) K := by
  simp only [cc2__edge_mlp_kernel_eq_skeleton]; unfold cc2__edge_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
      (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
      (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
      (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
      (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
      (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
      (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
      (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [A_eq2]; try rfl) t d).trans
      (by unfold Dat.fetched Dat.blockOf iblk2; rw [A_eq2]; try rfl)
theorem before2_8 (c : Dev nD) (t : Fin cfg2.N) (d) : (dat2 V c).before 8 t d = iblk2 V c 8 t :=
  ((dat2 V c).before_in_eq_fetched 8 rfl (fun _ => rfl) (fun _ _ _ => rfl)
    (fun t => by rw [after2_8]; unfold Dat.blockOf iblk2; rw [A_eq2]; try rfl) t d).trans
      (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.LstmA.lean ====
import proofs.«420294_j24077586661648_2_alg».proof.Proof.Gen.KernelIdeal.Launch
import proofs.«420294_j24077586661648_2_alg».proof.Proof.Gen.KernelIdeal.Skeleton
import proofs.«420294_j24077586661648_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S64x256 := Rect.unit (s := S64x256) ![0, 0] S64x256.size inb_S64x256_S64x256_0_0
abbrev r1_2 : Rect S1x256 := Rect.unit (s := S1x256) ![0, 0] S1x256.size inb_S1x256_S1x256_0_0

def out1_7 (x0 : Vec F S5000x64 .f32) (x1 : Vec F S5000x64 .f32) (x2 : Vec F S5000x64 .f32) (x3 : Vec F S64x256 .bf16) (x4 : Vec F S64x256 .bf16) (x5 : Vec F S1x256 .f32) (x6 : Vec F S1x256 .f32) : Vec F S5000x64 .f32 :=
  View.canon [⟨r1_0, k1_pay3 (View.ld x0 r1_0) (View.ld x1 r1_0) (View.ld x3 r1_1) (View.ld x4 r1_1) (View.ld x5 r1_2) (View.ld x6 r1_2) (View.ld x2 r1_0)⟩]

def out1_8 (x0 : Vec F S5000x64 .f32) (x1 : Vec F S5000x64 .f32) (x2 : Vec F S5000x64 .f32) (x3 : Vec F S64x256 .bf16) (x4 : Vec F S64x256 .bf16) (x5 : Vec F S1x256 .f32) (x6 : Vec F S1x256 .f32) : Vec F S5000x64 .f32 :=
  View.canon [⟨r1_0, k1_pay2 (View.ld x0 r1_0) (View.ld x1 r1_0) (View.ld x3 r1_1) (View.ld x4 r1_1) (View.ld x5 r1_2) (View.ld x6 r1_2) (View.ld x2 r1_0)⟩]

theorem cover1_7 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y
theorem cover1_8 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 1000000 in

theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S5000x64 .f32) (harg8 : arg8.IsWhole) (arg9 : Memref sig .tc .vmem S5000x64 .f32) (harg9 : arg9.IsWhole)
    (x0 : Vec F S5000x64 .f32) (x1 : Vec F S5000x64 .f32) (x2 : Vec F S5000x64 .f32) (x3 : Vec F S64x256 .bf16) (x4 : Vec F S64x256 .bf16) (x5 : Vec F S1x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6) ∗ owns (c : Thread nD τ) arg9 fullShare (out1_8 x0 x1 x2 x3 x4 x5 x6)) -∗ K ⟨⟩))
      ⊢ wp frame (wpE (defs₀ (F := F)) Variants.none c none) E (cc1__lstm_kernel i arg1 harg1 arg2 harg2 arg3 harg3 arg4 harg4 arg5 harg5 arg6 harg6 arg7 harg7 arg8 harg8 arg9 harg9) K := by
  simp only [cc1__lstm_kernel_eq_skeleton]; unfold cc1__lstm_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1_7 _)
  iexists _; isplitr
  swap; · iexact H8
  ipureintro
  try dsimp only
  exact View.read_writes_eq_canon _ _ _ (cover1_8 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
      (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
      (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
      (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
      (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
      (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
      (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
      (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.LstmB.lean ====
import proofs.«420294_j24077586661648_2_alg».proof.Proof.Gen.KernelIdeal.Launch
import proofs.«420294_j24077586661648_2_alg».proof.Proof.Gen.KernelIdeal.Skeleton
import proofs.«420294_j24077586661648_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0
abbrev r3_1 : Rect S64x256 := Rect.unit (s := S64x256) ![0, 0] S64x256.size inb_S64x256_S64x256_0_0
abbrev r3_2 : Rect S1x256 := Rect.unit (s := S1x256) ![0, 0] S1x256.size inb_S1x256_S1x256_0_0

def out3_7 (x0 : Vec F S5000x64 .f32) (x1 : Vec F S5000x64 .f32) (x2 : Vec F S5000x64 .f32) (x3 : Vec F S64x256 .bf16) (x4 : Vec F S64x256 .bf16) (x5 : Vec F S1x256 .f32) (x6 : Vec F S1x256 .f32) : Vec F S5000x64 .f32 :=
  View.canon [⟨r3_0, k3_pay3 (View.ld x0 r3_0) (View.ld x1 r3_0) (View.ld x3 r3_1) (View.ld x4 r3_1) (View.ld x5 r3_2) (View.ld x6 r3_2) (View.ld x2 r3_0)⟩]

def out3_8 (x0 : Vec F S5000x64 .f32) (x1 : Vec F S5000x64 .f32) (x2 : Vec F S5000x64 .f32) (x3 : Vec F S64x256 .bf16) (x4 : Vec F S64x256 .bf16) (x5 : Vec F S1x256 .f32) (x6 : Vec F S1x256 .f32) : Vec F S5000x64 .f32 :=
  View.canon [⟨r3_0, k3_pay2 (View.ld x0 r3_0) (View.ld x1 r3_0) (View.ld x3 r3_1) (View.ld x4 r3_1) (View.ld x5 r3_2) (View.ld x6 r3_2) (View.ld x2 r3_0)⟩]

theorem cover3_7 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y
theorem cover3_8 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

set_option maxHeartbeats 1000000 in

theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S5000x64 .f32) (harg8 : arg8.IsWhole) (arg9 : Memref sig .tc .vmem S5000x64 .f32) (harg9 : arg9.IsWhole)
    (x0 : Vec F S5000x64 .f32) (x1 : Vec F S5000x64 .f32) (x2 : Vec F S5000x64 .f32) (x3 : Vec F S64x256 .bf16) (x4 : Vec F S64x256 .bf16) (x5 : Vec F S1x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6) ∗ owns (c : Thread nD τ) arg9 fullShare (out3_8 x0 x1 x2 x3 x4 x5 x6)) -∗ K ⟨⟩))
      ⊢ wp frame (wpE (defs₀ (F := F)) Variants.none c none) E (cc3__lstm_kernel i arg1 harg1 arg2 harg2 arg3 harg3 arg4 harg4 arg5 harg5 arg6 harg6 arg7 harg7 arg8 harg8 arg9 harg9) K := by
  simp only [cc3__lstm_kernel_eq_skeleton]; unfold cc3__lstm_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover3_7 _)
  iexists _; isplitr
  swap; · iexact H8
  ipureintro
  try dsimp only
  exact View.read_writes_eq_canon _ _ _ (cover3_8 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
    | ⟨8, _⟩ => out3_8 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
      (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
      (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
      (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
      (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
      (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
      (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
      (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ (grid3.coords t) _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Final.lean ====
import proofs.«420294_j24077586661648_2_alg».proof.Proof.Gen.KernelIdeal.Launch
import proofs.«420294_j24077586661648_2_alg».proof.Proof.Gen.KernelIdeal.Skeleton
import proofs.«420294_j24077586661648_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl

theorem idleAt4_5 : ∀ t : Fin cfg4.N, ¬cond4_1 (grid4.coords t) → cfg4.idle 5 (grid4.coords t) = true := by decide +kernel

theorem noFlush4_5 : ∀ t : Fin cfg4.N, ¬cond4_1 (grid4.coords t) → (cfg4.win 5).flush t = false := by decide +kernel

theorem liveAt4_5 : ∀ t : Fin cfg4.N, cond4_1 (grid4.coords t) → cfg4.idle 5 (grid4.coords t) = false := by decide +kernel

theorem hz4 : (![0, 0] : Fin 2 → Nat) = fun _ => 0 := funext fun a => by fin_cases a <;> rfl

set_option maxHeartbeats 1000000 in

theorem run4_first (c : Dev nD) (E : Set ℕ) (i : grid4.Coords) (arg1 : Memref sig .tc .vmem S5000x64 .f32) (harg1 : arg1.IsWhole) (arg2 : Memref sig .tc .vmem S64x50 .bf16) (harg2 : arg2.IsWhole) (arg3 : Memref sig .tc .vmem S1x50 .f32) (harg3 : arg3.IsWhole) (arg4 : Memref sig .tc .vmem S64x50 .bf16) (harg4 : arg4.IsWhole) (arg5 : Memref sig .tc .vmem S1x50 .f32) (harg5 : arg5.IsWhole) (arg6 : Memref sig .tc .vmem S1x50 .f32) (harg6 : arg6.IsWhole) (arg7 : Memref sig .tc .vmem S1x50 .f32) (harg7 : arg7.IsWhole)
    (hc0 : cond4_0 i) (hc1 : ¬cond4_1 i)
    (x0 : Vec F S5000x64 .f32) (x1 : Vec F S64x50 .bf16) (x2 : Vec F S1x50 .f32) (x3 : Vec F S64x50 .bf16) (x4 : Vec F S1x50 .f32)
    (x5 : Vec F S1x50 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k4_pay2 x0 x1 x3 x2 x4 (k4_pay1 (F := F)))) -∗ K ⟨⟩))
      ⊢ wp frame (wpE (defs₀ (F := F)) Variants.none c none) E (cc4__final_kernel i arg1 harg1 arg2 harg2 arg3 harg3 arg4 harg4 arg5 harg5 arg6 harg6 arg7 harg7) K := by
  simp only [cc4__final_kernel_eq_skeleton]; unfold cc4__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS
  ipureintro
  sl_unfold_words
  rw [View.read_writes_eq_canon _ _ _ (fun y => ⟨_, List.mem_cons.mpr (Or.inl rfl), View.mem_set_unit_zero hz4 inb_S1x50_S1x50_0_0 y⟩),
    View.canon_cons_unit_zero hz4, View.readCov_unit_zero _ hz4]
  simp only [View.readAt_eq_ld, harg1.read_unread, harg2.read_unread, harg3.read_unread, harg4.read_unread, harg5.read_unread,
    harg7.read_unread, View.ld_unit_zero (S := S5000x64) hz4, View.ld_unit_zero (S := S64x50) hz4, View.ld_unit_zero (S := S1x50) hz4]

set_option maxHeartbeats 1000000 in

theorem run4_mid (c : Dev nD) (E : Set ℕ) (i : grid4.Coords) (arg1 : Memref sig .tc .vmem S5000x64 .f32) (harg1 : arg1.IsWhole) (arg2 : Memref sig .tc .vmem S64x50 .bf16) (harg2 : arg2.IsWhole) (arg3 : Memref sig .tc .vmem S1x50 .f32) (harg3 : arg3.IsWhole) (arg4 : Memref sig .tc .vmem S64x50 .bf16) (harg4 : arg4.IsWhole) (arg5 : Memref sig .tc .vmem S1x50 .f32) (harg5 : arg5.IsWhole) (arg6 : Memref sig .tc .vmem S1x50 .f32) (harg6 : arg6.IsWhole) (arg7 : Memref sig .tc .vmem S1x50 .f32) (harg7 : arg7.IsWhole)
    (hc0 : ¬cond4_0 i) (hc1 : ¬cond4_1 i)
    (x0 : Vec F S5000x64 .f32) (x1 : Vec F S64x50 .bf16) (x2 : Vec F S1x50 .f32) (x3 : Vec F S64x50 .bf16) (x4 : Vec F S1x50 .f32)
    (x5 : Vec F S1x50 .f32) (xs : Vec F S1x50 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k4_pay2 x0 x1 x3 x2 x4 xs)) -∗ K ⟨⟩))
      ⊢ wp frame (wpE (defs₀ (F := F)) Variants.none c none) E (cc4__final_kernel i arg1 harg1 arg2 harg2 arg3 harg3 arg4 harg4 arg5 harg5 arg6 harg6 arg7 harg7) K := by
  simp only [cc4__final_kernel_eq_skeleton]; unfold cc4__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS
  ipureintro
  rw [View.read_writes_eq_canon _ _ _ (fun y => ⟨_, List.mem_singleton_self _, View.mem_set_unit_zero hz4 inb_S1x50_S1x50_0_0 y⟩),
    View.canon_unit_zero hz4]
  simp only [View.readAt_eq_ld, harg1.read_unread, harg2.read_unread, harg3.read_unread, harg4.read_unread, harg5.read_unread,
    harg7.read_unread, View.ld_unit_zero (S := S5000x64) hz4, View.ld_unit_zero (S := S64x50) hz4, View.ld_unit_zero (S := S1x50) hz4]

set_option maxHeartbeats 1000000 in

theorem run4_last (c : Dev nD) (E : Set ℕ) (i : grid4.Coords) (arg1 : Memref sig .tc .vmem S5000x64 .f32) (harg1 : arg1.IsWhole) (arg2 : Memref sig .tc .vmem S64x50 .bf16) (harg2 : arg2.IsWhole) (arg3 : Memref sig .tc .vmem S1x50 .f32) (harg3 : arg3.IsWhole) (arg4 : Memref sig .tc .vmem S64x50 .bf16) (harg4 : arg4.IsWhole) (arg5 : Memref sig .tc .vmem S1x50 .f32) (harg5 : arg5.IsWhole) (arg6 : Memref sig .tc .vmem S1x50 .f32) (harg6 : arg6.IsWhole) (arg7 : Memref sig .tc .vmem S1x50 .f32) (harg7 : arg7.IsWhole)
    (hc0 : ¬cond4_0 i) (hc1 : cond4_1 i)
    (x0 : Vec F S5000x64 .f32) (x1 : Vec F S64x50 .bf16) (x2 : Vec F S1x50 .f32) (x3 : Vec F S64x50 .bf16) (x4 : Vec F S1x50 .f32)
    (xs : Vec F S1x50 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (k4_pay2 x0 x1 x3 x2 x4 xs)
            ∗ owns (c : Thread nD τ) arg7 fullShare (k4_pay2 x0 x1 x3 x2 x4 xs)) -∗ K ⟨⟩))
      ⊢ wp frame (wpE (defs₀ (F := F)) Variants.none c none) E (cc4__final_kernel i arg1 harg1 arg2 harg2 arg3 harg3 arg4 harg4 arg5 harg5 arg6 harg6 arg7 harg7) K := by
  simp only [cc4__final_kernel_eq_skeleton]; unfold cc4__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    rw [View.read_writes_eq_canon _ _ _ (fun y => ⟨_, List.mem_singleton_self _, View.mem_set_unit_zero hz4 inb_S1x50_S1x50_0_0 y⟩),
      View.canon_unit_zero hz4, View.readCov_unit_zero _ hz4]
    simp only [View.readAt_eq_ld, harg1.read_unread, harg2.read_unread, harg3.read_unread, harg4.read_unread, harg5.read_unread,
    harg7.read_unread, View.ld_unit_zero (S := S5000x64) hz4, View.ld_unit_zero (S := S64x50) hz4, View.ld_unit_zero (S := S1x50) hz4]
  iexists _; isplitr
  swap; · iexact HS
  ipureintro
  sl_unfold_words
  rw [View.read_writes_eq_canon _ _ _ (fun y => ⟨_, List.mem_singleton_self _, View.mem_set_unit_zero hz4 inb_S1x50_S1x50_0_0 y⟩),
    View.canon_unit_zero hz4]
  simp only [View.readAt_eq_ld, harg1.read_unread, harg2.read_unread, harg3.read_unread, harg4.read_unread, harg5.read_unread,
    harg7.read_unread, View.ld_unit_zero (S := S5000x64) hz4, View.ld_unit_zero (S := S64x50) hz4, View.ld_unit_zero (S := S1x50) hz4]

def acc4 (c : Dev nD) : (n : ℕ) → n < cfg4.N → Vec F S1x50 .f32
  | 0, h => k4_pay2 (iblk4 V c 0 ⟨0, h⟩) (iblk4 V c 1 ⟨0, h⟩) (iblk4 V c 3 ⟨0, h⟩) (iblk4 V c 2 ⟨0, h⟩) (iblk4 V c 4 ⟨0, h⟩) (k4_pay1 (F := F))
  | n + 1, h => k4_pay2 (iblk4 V c 0 ⟨n + 1, h⟩) (iblk4 V c 1 ⟨n + 1, h⟩) (iblk4 V c 3 ⟨n + 1, h⟩) (iblk4 V c 2 ⟨n + 1, h⟩) (iblk4 V c 4 ⟨n + 1, h⟩) (acc4 c n (Nat.lt_of_succ_lt h))

theorem acc4_zero (c : Dev nD) (h : 0 < cfg4.N) :
    acc4 V c 0 h = k4_pay2 (iblk4 V c 0 ⟨0, h⟩) (iblk4 V c 1 ⟨0, h⟩) (iblk4 V c 3 ⟨0, h⟩) (iblk4 V c 2 ⟨0, h⟩) (iblk4 V c 4 ⟨0, h⟩) (k4_pay1 (F := F)) := rfl

theorem acc4_succ (c : Dev nD) (n : ℕ) (h : n + 1 < cfg4.N) :
    acc4 V c (n + 1) h = k4_pay2 (iblk4 V c 0 ⟨n + 1, h⟩) (iblk4 V c 1 ⟨n + 1, h⟩) (iblk4 V c 3 ⟨n + 1, h⟩) (iblk4 V c 2 ⟨n + 1, h⟩) (iblk4 V c 4 ⟨n + 1, h⟩) (acc4 V c n (Nat.lt_of_succ_lt h)) := rfl

theorem acc4_first (c : Dev nD) (t : Fin cfg4.N) (ht : t.val = 0) :
    acc4 V c t.val t.isLt = k4_pay2 (iblk4 V c 0 t) (iblk4 V c 1 t) (iblk4 V c 3 t) (iblk4 V c 2 t) (iblk4 V c 4 t) (k4_pay1 (F := F)) := by
  obtain ⟨n, hn⟩ := t
  cases n with
  | zero => rfl
  | succ n => exact absurd ht (Nat.succ_ne_zero n)

theorem acc4_pos (c : Dev nD) (t : Fin cfg4.N) (ht : t.val ≠ 0) :
    acc4 V c t.val t.isLt = k4_pay2 (iblk4 V c 0 t) (iblk4 V c 1 t) (iblk4 V c 3 t) (iblk4 V c 2 t) (iblk4 V c 4 t) (acc4 V c (t.val - 1) (Nat.lt_of_le_of_lt (Nat.sub_le _ _) t.isLt)) := by
  obtain ⟨n, hn⟩ := t
  cases n with
  | zero => exact absurd rfl ht
  | succ n => rfl

abbrev scM4 : Memref sig .tc .vmem S1x50 .f32 := Memref.whole cc4_scratch0

def Phi4 (c : Dev nD) : (n : ℕ) → n ≤ cfg4.N → sProp 𝕄
  | 0, _ => Pipeline.ΦA spec4 c
  | n + 1, hn => iprop(iprop(owns (c : Thread nD τ) scM4 fullShare (acc4 V c n hn) ∗ Pipeline.scopedRestBut (Ix := Unit) (Name := ℕ) (U := UR sig nD τ) (Lvl := ℕ) (Val := Elt F) spec4 c [cc4_scratch0]) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(owns (c : Thread nD τ) scM4 fullShare (acc4 V c n hn) ∗ Pipeline.scopedRestBut (Ix := Unit) (Name := ℕ) (U := UR sig nD τ) (Lvl := ℕ) (Val := Elt F) spec4 c [cc4_scratch0]) ∗ (∃ r, prngReg c r)) := rfl

theorem Phi4_pos (c : Dev nD) (n : ℕ) (h : n ≤ cfg4.N) (hz : n ≠ 0) :
    Phi4 V c n h = iprop(iprop(owns (c : Thread nD τ) scM4 fullShare (acc4 V c (n - 1) (by omega)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => acc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = acc4 V c t.val t.isLt := by dsimp only [dat4]

theorem after4_5_last (c : Dev nD) (t : Fin cfg4.N) (h : t.val = 9) : (dat4 V c).after 5 t = acc4 V c t.val t.isLt :=
  after4_5 V c t

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
      (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
      (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
      (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
      (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4]; try rfl) t d).trans
      (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  have hN : t.val < 10 := lt_of_lt_of_eq t.isLt (show cfg4.N = 10 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 5 t (idleAt4_5 t hc1) (noFlush4_5 t hc1)]
    rw [acc4_first V c t h0]
    rw [Phi4_castSucc V c t, Phi4_zero V c _ _ h0, PhiA4_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (run4_first c Set.univ (grid4.coords t) _ _ _ _ _ _ _ _ _ _ _ _ _ _ hc0 hc1 (iblk4 V c 0 t) (iblk4 V c 1 t) (iblk4 V c 2 t) (iblk4 V c 3 t) (iblk4 V c 4 t) ((dat4 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · have hc0 : ¬cond4_0 (grid4.coords t) := fun h => h0 ((hcond4_0 t).mp h)
      have hc1 : cond4_1 (grid4.coords t) := (hcond4_1 t).mpr h9
      rw [show (dat4 V c).leavesExact 5 t = owns (c : Thread nD τ) (st4_5 t) fullShare ((dat4 V c).after 5 t) from by
        unfold Dat.leavesExact; rw [liveAt4_5 t hc1], after4_5]
      rw [acc4_pos V c t h0]
      rw [Phi4_castSucc V c t, Phi4_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply (run4_last c Set.univ (grid4.coords t) _ _ _ _ _ _ _ _ _ _ _ _ _ _ hc0 hc1 (iblk4 V c 0 t) (iblk4 V c 1 t) (iblk4 V c 2 t) (iblk4 V c 3 t) (iblk4 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc0 : ¬cond4_0 (grid4.coords t) := fun h => h0 ((hcond4_0 t).mp h)
      have hc1 : ¬cond4_1 (grid4.coords t) := fun h => h9 ((hcond4_1 t).mp h)
      rw [Dat.leavesExact_idle (dat4 V c) 5 t (idleAt4_5 t hc1) (noFlush4_5 t hc1)]
      rw [acc4_pos V c t h0]
      rw [Phi4_castSucc V c t, Phi4_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply (run4_mid c Set.univ (grid4.coords t) _ _ _ _ _ _ _ _ _ _ _ _ _ _ hc0 hc1 (iblk4 V c 0 t) (iblk4 V c 1 t) (iblk4 V c 2 t) (iblk4 V c 3 t) (iblk4 V c 4 t) ((dat4 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨HS, Hrest⟩, Hg⟩
  isplitl [HS Hrest]
  · isplitl [HS]
    · iexists _; iexact HS
    iexact Hrest
  iexact Hg

theorem hout4 (c : Dev nD) : (dat4 V c).Φ (Fin.last cfg4.N) ⊢ Pipeline.ΦA spec4 c :=
  Phi4_out V c _ (by rw [Fin.val_last]; have : cfg4.N = 10 := N_4; omega)

end Cert.KernelIdeal.Hand

end
-- ==== Proof.Run.lean ====
import proofs.«420294_j24077586661648_2_alg».proof.Proof.EdgeA
import proofs.«420294_j24077586661648_2_alg».proof.Proof.EdgeB
import proofs.«420294_j24077586661648_2_alg».proof.Proof.LstmA
import proofs.«420294_j24077586661648_2_alg».proof.Proof.LstmB
import proofs.«420294_j24077586661648_2_alg».proof.Proof.Final
import proofs.«420294_j24077586661648_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)

abbrev W1 (c : Dev nD) : Valuation τ sig (Elt F) := StableHlo.after hostOps0 (W0 m c)

abbrev W2 (c : Dev nD) : Valuation τ sig (Elt F) := StableHlo.after hostOps0_1 (W1 m c)

abbrev W3 (c : Dev nD) : Valuation τ sig (Elt F) := StableHlo.after hostOps0_2 (W2 m c)

abbrev W4 (c : Dev nD) : Valuation τ sig (Elt F) := StableHlo.after hostOps0_3 (W3 m c)

abbrev V4 : (c : Dev nD) → (b : Ref sig .tc) → Buf (Elt F) ((c : Thread nD τ).loc b) := fun c b => W4 m c b

def W5 (c : Dev nD) : Valuation τ sig (Elt F) :=
  Pipeline.withArrays spec0 c (W4 m c) fun w => (dat0 (V4 m) c).arrAt w cfg0.N
theorem W5_arr (c : Dev nD) (w : Fin cfg0.W) :
    W5 m c (Proc.devRef .tc (Pipeline.arrRef spec0 w)) = (dat0 (V4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb

abbrev V5 : (c : Dev nD) → (b : Ref sig .tc) → Buf (Elt F) ((c : Thread nD τ).loc b) := fun c b => W5 m c b
theorem hF0 (c : Dev nD) (w : Fin cfg0.W) : (dat0 (V4 m) c).arrAt w cfg0.N = V5 m c (Pipeline.arrRef spec0 w) :=
  (W5_arr m c w).symm
theorem hrest0 (c : Dev nD) : ∀ b, b ∉ Finset.univ.image (Pipeline.arrRef spec0) → V5 m c b = V4 m c b :=
  fun b hb => W5_of_ne m c b fun w e => hb (Finset.mem_image.mpr ⟨w, Finset.mem_univ _, e⟩)

abbrev W6 (c : Dev nD) : Valuation τ sig (Elt F) := StableHlo.after hostOps1 (W5 m c)

abbrev V6 : (c : Dev nD) → (b : Ref sig .tc) → Buf (Elt F) ((c : Thread nD τ).loc b) := fun c b => W6 m c b

def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

abbrev V7 : (c : Dev nD) → (b : Ref sig .tc) → Buf (Elt F) ((c : Thread nD τ).loc b) := fun c b => W7 m c b
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)

abbrev W8 (c : Dev nD) : Valuation τ sig (Elt F) := StableHlo.after hostOps2 (W7 m c)

abbrev W9 (c : Dev nD) : Valuation τ sig (Elt F) := StableHlo.after hostOps2_1 (W8 m c)

abbrev W10 (c : Dev nD) : Valuation τ sig (Elt F) := StableHlo.after hostOps2_2 (W9 m c)

abbrev V10 : (c : Dev nD) → (b : Ref sig .tc) → Buf (Elt F) ((c : Thread nD τ).loc b) := fun c b => W10 m c b

def W11 (c : Dev nD) : Valuation τ sig (Elt F) :=
  Pipeline.withArrays spec2 c (W10 m c) fun w => (dat2 (V10 m) c).arrAt w cfg2.N
theorem W11_arr (c : Dev nD) (w : Fin cfg2.W) :
    W11 m c (Proc.devRef .tc (Pipeline.arrRef spec2 w)) = (dat2 (V10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb

abbrev V11 : (c : Dev nD) → (b : Ref sig .tc) → Buf (Elt F) ((c : Thread nD τ).loc b) := fun c b => W11 m c b
theorem hF2 (c : Dev nD) (w : Fin cfg2.W) : (dat2 (V10 m) c).arrAt w cfg2.N = V11 m c (Pipeline.arrRef spec2 w) :=
  (W11_arr m c w).symm
theorem hrest2 (c : Dev nD) : ∀ b, b ∉ Finset.univ.image (Pipeline.arrRef spec2) → V11 m c b = V10 m c b :=
  fun b hb => W11_of_ne m c b fun w e => hb (Finset.mem_image.mpr ⟨w, Finset.mem_univ _, e⟩)

abbrev W12 (c : Dev nD) : Valuation τ sig (Elt F) := StableHlo.after hostOps3 (W11 m c)

abbrev V12 : (c : Dev nD) → (b : Ref sig .tc) → Buf (Elt F) ((c : Thread nD τ).loc b) := fun c b => W12 m c b

def W13 (c : Dev nD) : Valuation τ sig (Elt F) :=
  Pipeline.withArrays spec3 c (W12 m c) fun w => (dat3 (V12 m) c).arrAt w cfg3.N
theorem W13_arr (c : Dev nD) (w : Fin cfg3.W) :
    W13 m c (Proc.devRef .tc (Pipeline.arrRef spec3 w)) = (dat3 (V12 m) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m c (Proc.devRef .tc b) = W12 m c (Proc.devRef .tc b) := by
  unfold W13; exact Pipeline.withArrays_of_ne spec3 c _ _ b hb

abbrev V13 : (c : Dev nD) → (b : Ref sig .tc) → Buf (Elt F) ((c : Thread nD τ).loc b) := fun c b => W13 m c b
theorem hF3 (c : Dev nD) (w : Fin cfg3.W) : (dat3 (V12 m) c).arrAt w cfg3.N = V13 m c (Pipeline.arrRef spec3 w) :=
  (W13_arr m c w).symm
theorem hrest3 (c : Dev nD) : ∀ b, b ∉ Finset.univ.image (Pipeline.arrRef spec3) → V13 m c b = V12 m c b :=
  fun b hb => W13_of_ne m c b fun w e => hb (Finset.mem_image.mpr ⟨w, Finset.mem_univ _, e⟩)

abbrev W14 (c : Dev nD) : Valuation τ sig (Elt F) := StableHlo.after hostOps4 (W13 m c)

abbrev V14 : (c : Dev nD) → (b : Ref sig .tc) → Buf (Elt F) ((c : Thread nD τ).loc b) := fun c b => W14 m c b

def W15 (c : Dev nD) : Valuation τ sig (Elt F) :=
  Pipeline.withArrays spec4 c (W14 m c) fun w => (dat4 (V14 m) c).arrAt w cfg4.N
theorem W15_arr (c : Dev nD) (w : Fin cfg4.W) :
    W15 m c (Proc.devRef .tc (Pipeline.arrRef spec4 w)) = (dat4 (V14 m) c).arrAt w cfg4.N := by
  unfold W15; exact Pipeline.withArrays_arr spec4 launch4.win.arr_inj c _ _ w
theorem W15_of_ne (c : Dev nD) (b : Ref sig .tc) (hb : ∀ w, Pipeline.arrRef spec4 w ≠ b) :
    W15 m c (Proc.devRef .tc b) = W14 m c (Proc.devRef .tc b) := by
  unfold W15; exact Pipeline.withArrays_of_ne spec4 c _ _ b hb

abbrev V15 : (c : Dev nD) → (b : Ref sig .tc) → Buf (Elt F) ((c : Thread nD τ).loc b) := fun c b => W15 m c b
theorem hF4 (c : Dev nD) (w : Fin cfg4.W) : (dat4 (V14 m) c).arrAt w cfg4.N = V15 m c (Pipeline.arrRef spec4 w) :=
  (W15_arr m c w).symm
theorem hrest4 (c : Dev nD) : ∀ b, b ∉ Finset.univ.image (Pipeline.arrRef spec4) → V15 m c b = V14 m c b :=
  fun b hb => W15_of_ne m c b fun w e => hb (Finset.mem_image.mpr ⟨w, Finset.mem_univ _, e⟩)

abbrev W16 (c : Dev nD) : Valuation τ sig (Elt F) := StableHlo.after hostOps5 (W15 m c)

def pdats : (p : Fin 5) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V6 m) c
  | ⟨2, _⟩ => fun c => dat2 (V10 m) c
  | ⟨3, _⟩ => fun c => dat3 (V12 m) c
  | ⟨4, _⟩ => fun c => dat4 (V14 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W16 m c) ∗ ∃ r, prngReg c r)

set_option backward.isDefEq.respectTransparency.types false in
/-- A kernel region as one item of the run: it takes every visible buffer from `Wi` to `Wo`, and `Wo` differs from `Wi` only at the region's own arrays. -/
def regSeg (p : Fin 5) (launch : Pipeline.LaunchFacts (nD := nD) (τ := τ) cfgs p) (Wi Wo : Dev nD → Valuation τ sig (Elt F))
    (hbody : ∀ c, BodyObligation (pdats m p c) (defs₀ (F := F)) Variants.none () Set.univ)
    (hq : ∀ c w, (pdats m p c).q w = fullShare)
    (hA : ∀ c w, (pdats m p c).A w = Wi c (Proc.devRef .tc (Pipeline.arrRef (pcfgs (F := F) p).spec w)))
    (howed : ∀ c t, (pdats m p c).owed t = 0)
    (hrec : ∀ c t, (pdats m p c).recorded t = Set.univ)
    (hΦin : ∀ c, Pipeline.ΦA (pcfgs (F := F) p).spec c ⊢ (pdats m p c).Φ 0)
    (hΦout : ∀ c, (pdats m p c).Φ (Fin.last _) ⊢ Pipeline.ΦA (pcfgs (F := F) p).spec c)
    (hF : ∀ c w, (pdats m p c).arrAt w (Pipeline.pin (pcfgs (F := F)) adm p).N = Wo c (Proc.devRef .tc (Pipeline.arrRef (pcfgs (F := F) p).spec w)))
    (hrest : ∀ c (b : Ref sig .tc), b ∉ Finset.univ.image (Pipeline.arrRef (pcfgs (F := F) p).spec) → Wo c (Proc.devRef .tc b) = Wi c (Proc.devRef .tc b)) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Wi c b)
  hentry c := by
    rw [Pipeline.ownSems0_none]
    have hsplit := Pipeline.arrays_of_unscopedBufs (p := p) (pcfgs (F := F)) adm (pdats m) launch.win launch.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%W, HO⟩; iexists W; isplitr; · ipureintro; exact fun _ _ => Or.inl (by rw [hrec]; trivial)
      iexact HO
    isplitl [Hp]; · iexact Hp
    iexact Hrest
  hin c := by
    refine .trans ?_ (hΦin c)
    unfold Pipeline.ΦA
    iintro ⟨Hp, -, Hr⟩
    isplitl [Hr]; · iexact Hr
    iexact Hp
  hout c := by
    refine (hΦout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => Wi c b) (fun b => Wo c b) _ (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

def reg0 := regSeg m 0 launch0 (W4 m) (W5 m) (body_obligation0 (V4 m)) (fun _ _ => rfl) (fun _ _ => rfl) (fun _ _ => rfl) (fun _ _ => rfl) (fun _ => .rfl) (fun _ => .rfl) (hF0 m) (hrest0 m)
def reg1 := regSeg m 1 launch1 (W6 m) (W7 m) (body_obligation1 (V6 m)) (fun _ _ => rfl) (fun _ _ => rfl) (fun _ _ => rfl) (fun _ _ => rfl) (fun _ => .rfl) (fun _ => .rfl) (hF1 m) (hrest1 m)
def reg2 := regSeg m 2 launch2 (W10 m) (W11 m) (body_obligation2 (V10 m)) (fun _ _ => rfl) (fun _ _ => rfl) (fun _ _ => rfl) (fun _ _ => rfl) (fun _ => .rfl) (fun _ => .rfl) (hF2 m) (hrest2 m)
def reg3 := regSeg m 3 launch3 (W12 m) (W13 m) (body_obligation3 (V12 m)) (fun _ _ => rfl) (fun _ _ => rfl) (fun _ _ => rfl) (fun _ _ => rfl) (fun _ => .rfl) (fun _ => .rfl) (hF3 m) (hrest3 m)
def reg4 := regSeg m 4 launch4 (W14 m) (W15 m) (body_obligation4 (V14 m)) (fun _ _ => rfl) (fun _ _ => rfl) (fun _ _ => rfl) (fun _ _ => rfl) (hin4 (V14 m)) (hout4 (V14 m)) (hF4 m) (hrest4 m)

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)),
    .region (reg1 m),
    .host (hseg hostOps2 hostOps2_sub hostOps2_fresh (W7 m)),
    .host (hseg hostOps2_1 hostOps2_1_sub hostOps2_1_fresh (W8 m)),
    .host (hseg hostOps2_2 hostOps2_2_sub hostOps2_2_fresh (W9 m)),
    .region (reg2 m),
    .host (hseg hostOps3 hostOps3_sub hostOps3_fresh (W11 m)),
    .region (reg3 m),
    .host (hseg hostOps4 hostOps4_sub hostOps4_fresh (W13 m)),
    .region (reg4 m),
    .host (hseg hostOps5 hostOps5_sub hostOps5_fresh (W15 m)) ]

variable (ρ : Dev nD → PrngReg)

set_option backward.isDefEq.respectTransparency.types false in

/-- The sixteen items composed in order: the program terminates, and every visible buffer ends at the last valuation `W16`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W16 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c => h c)

end Cert.KernelIdeal.Hand

end
-- ==== Proof.Frames.lean ====
import proofs.«420294_j24077586661648_2_alg».proof.Proof.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

theorem W5_keep (c : Dev nD) (b : Ref sig .tc) (hb : b ∉ ([main_v16] : List (Ref sig .tc))) :
    W5 m c (Proc.devRef .tc b) = W4 m c (Proc.devRef .tc b) := by
  by_cases h : ∃ w, Pipeline.arrRef spec0 w = b
  · obtain ⟨w, rfl⟩ := h
    have hw : (cfg0.win w).isOut = false :=
      (by decide : ∀ w : Fin cfg0.W, Pipeline.arrRef spec0 w ∉ ([main_v16] : List (Ref sig .tc)) → (cfg0.win w).isOut = false) w hb
    exact (W5_arr m c w).trans (((dat0 (V4 m) c).arrAt_in w hw _).trans (A_eq0 (V4 m) c w))
  · exact W5_of_ne m c b fun w e => h ⟨w, e⟩

theorem W7_keep (c : Dev nD) (b : Ref sig .tc) (hb : b ∉ ([main_v24_0, main_v24_1] : List (Ref sig .tc))) :
    W7 m c (Proc.devRef .tc b) = W6 m c (Proc.devRef .tc b) := by
  by_cases h : ∃ w, Pipeline.arrRef spec1 w = b
  · obtain ⟨w, rfl⟩ := h
    have hw : (cfg1.win w).isOut = false :=
      (by decide : ∀ w : Fin cfg1.W, Pipeline.arrRef spec1 w ∉ ([main_v24_0, main_v24_1] : List (Ref sig .tc)) → (cfg1.win w).isOut = false) w hb
    exact (W7_arr m c w).trans (((dat1 (V6 m) c).arrAt_in w hw _).trans (A_eq1 (V6 m) c w))
  · exact W7_of_ne m c b fun w e => h ⟨w, e⟩

theorem W11_keep (c : Dev nD) (b : Ref sig .tc) (hb : b ∉ ([main_v36] : List (Ref sig .tc))) :
    W11 m c (Proc.devRef .tc b) = W10 m c (Proc.devRef .tc b) := by
  by_cases h : ∃ w, Pipeline.arrRef spec2 w = b
  · obtain ⟨w, rfl⟩ := h
    have hw : (cfg2.win w).isOut = false :=
      (by decide : ∀ w : Fin cfg2.W, Pipeline.arrRef spec2 w ∉ ([main_v36] : List (Ref sig .tc)) → (cfg2.win w).isOut = false) w hb
    exact (W11_arr m c w).trans (((dat2 (V10 m) c).arrAt_in w hw _).trans (A_eq2 (V10 m) c w))
  · exact W11_of_ne m c b fun w e => h ⟨w, e⟩

theorem W13_keep (c : Dev nD) (b : Ref sig .tc) (hb : b ∉ ([main_v44_0, main_v44_1] : List (Ref sig .tc))) :
    W13 m c (Proc.devRef .tc b) = W12 m c (Proc.devRef .tc b) := by
  by_cases h : ∃ w, Pipeline.arrRef spec3 w = b
  · obtain ⟨w, rfl⟩ := h
    have hw : (cfg3.win w).isOut = false :=
      (by decide : ∀ w : Fin cfg3.W, Pipeline.arrRef spec3 w ∉ ([main_v44_0, main_v44_1] : List (Ref sig .tc)) → (cfg3.win w).isOut = false) w hb
    exact (W13_arr m c w).trans (((dat3 (V12 m) c).arrAt_in w hw _).trans (A_eq3 (V12 m) c w))
  · exact W13_of_ne m c b fun w e => h ⟨w, e⟩

theorem W15_keep (c : Dev nD) (b : Ref sig .tc) (hb : b ∉ ([main_v49] : List (Ref sig .tc))) :
    W15 m c (Proc.devRef .tc b) = W14 m c (Proc.devRef .tc b) := by
  by_cases h : ∃ w, Pipeline.arrRef spec4 w = b
  · obtain ⟨w, rfl⟩ := h
    have hw : (cfg4.win w).isOut = false :=
      (by decide : ∀ w : Fin cfg4.W, Pipeline.arrRef spec4 w ∉ ([main_v49] : List (Ref sig .tc)) → (cfg4.win w).isOut = false) w hb
    exact (W15_arr m c w).trans (((dat4 (V14 m) c).arrAt_in w hw _).trans (A_eq4 (V14 m) c w))
  · exact W15_of_ne m c b fun w e => h ⟨w, e⟩

theorem s1 (c : Dev nD) (b : Ref sig .tc) (h : b ∉ hostOps0_W) : W1 m c (Proc.devRef .tc b) = W0 m c (Proc.devRef .tc b) :=
  StableHlo.after_of_writes_sub hostOps0 _ hostOps0_writes h
theorem s2 (c : Dev nD) (b : Ref sig .tc) (h : b ∉ hostOps0_1_W) : W2 m c (Proc.devRef .tc b) = W1 m c (Proc.devRef .tc b) :=
  StableHlo.after_of_writes_sub hostOps0_1 _ hostOps0_1_writes h
theorem s3 (c : Dev nD) (b : Ref sig .tc) (h : b ∉ hostOps0_2_W) : W3 m c (Proc.devRef .tc b) = W2 m c (Proc.devRef .tc b) :=
  StableHlo.after_of_writes_sub hostOps0_2 _ hostOps0_2_writes h
theorem s4 (c : Dev nD) (b : Ref sig .tc) (h : b ∉ hostOps0_3_W) : W4 m c (Proc.devRef .tc b) = W3 m c (Proc.devRef .tc b) :=
  StableHlo.after_of_writes_sub hostOps0_3 _ hostOps0_3_writes h
theorem s5 (c : Dev nD) (b : Ref sig .tc) (h : b ∉ ([main_v16] : List (Ref sig .tc))) : W5 m c (Proc.devRef .tc b) = W4 m c (Proc.devRef .tc b) :=
  W5_keep m c b h
theorem s6 (c : Dev nD) (b : Ref sig .tc) (h : b ∉ hostOps1_W) : W6 m c (Proc.devRef .tc b) = W5 m c (Proc.devRef .tc b) :=
  StableHlo.after_of_writes_sub hostOps1 _ hostOps1_writes h
theorem s7 (c : Dev nD) (b : Ref sig .tc) (h : b ∉ ([main_v24_0, main_v24_1] : List (Ref sig .tc))) : W7 m c (Proc.devRef .tc b) = W6 m c (Proc.devRef .tc b) :=
  W7_keep m c b h
theorem s8 (c : Dev nD) (b : Ref sig .tc) (h : b ∉ hostOps2_W) : W8 m c (Proc.devRef .tc b) = W7 m c (Proc.devRef .tc b) :=
  StableHlo.after_of_writes_sub hostOps2 _ hostOps2_writes h
theorem s9 (c : Dev nD) (b : Ref sig .tc) (h : b ∉ hostOps2_1_W) : W9 m c (Proc.devRef .tc b) = W8 m c (Proc.devRef .tc b) :=
  StableHlo.after_of_writes_sub hostOps2_1 _ hostOps2_1_writes h
theorem s10 (c : Dev nD) (b : Ref sig .tc) (h : b ∉ hostOps2_2_W) : W10 m c (Proc.devRef .tc b) = W9 m c (Proc.devRef .tc b) :=
  StableHlo.after_of_writes_sub hostOps2_2 _ hostOps2_2_writes h
theorem s11 (c : Dev nD) (b : Ref sig .tc) (h : b ∉ ([main_v36] : List (Ref sig .tc))) : W11 m c (Proc.devRef .tc b) = W10 m c (Proc.devRef .tc b) :=
  W11_keep m c b h
theorem s12 (c : Dev nD) (b : Ref sig .tc) (h : b ∉ hostOps3_W) : W12 m c (Proc.devRef .tc b) = W11 m c (Proc.devRef .tc b) :=
  StableHlo.after_of_writes_sub hostOps3 _ hostOps3_writes h
theorem s13 (c : Dev nD) (b : Ref sig .tc) (h : b ∉ ([main_v44_0, main_v44_1] : List (Ref sig .tc))) : W13 m c (Proc.devRef .tc b) = W12 m c (Proc.devRef .tc b) :=
  W13_keep m c b h
theorem s14 (c : Dev nD) (b : Ref sig .tc) (h : b ∉ hostOps4_W) : W14 m c (Proc.devRef .tc b) = W13 m c (Proc.devRef .tc b) :=
  StableHlo.after_of_writes_sub hostOps4 _ hostOps4_writes h
theorem s15 (c : Dev nD) (b : Ref sig .tc) (h : b ∉ ([main_v49] : List (Ref sig .tc))) : W15 m c (Proc.devRef .tc b) = W14 m c (Proc.devRef .tc b) :=
  W15_keep m c b h
theorem s16 (c : Dev nD) (b : Ref sig .tc) (h : b ∉ hostOps5_W) : W16 m c (Proc.devRef .tc b) = W15 m c (Proc.devRef .tc b) :=
  StableHlo.after_of_writes_sub hostOps5 _ hostOps5_writes h

abbrev written : List (Ref sig .tc) :=
  hostOps0_W ++ hostOps0_1_W ++ hostOps0_2_W ++ hostOps0_3_W ++ [main_v16] ++ hostOps1_W ++ [main_v24_0, main_v24_1]
    ++ hostOps2_W ++ hostOps2_1_W ++ hostOps2_2_W ++ [main_v36] ++ hostOps3_W ++ [main_v44_0, main_v44_1] ++ hostOps4_W ++ [main_v49] ++ hostOps5_W

theorem nw1 {b : Ref sig .tc} (hb : b ∉ written) : b ∉ hostOps0_W :=
  fun h => hb (by simp only [written, List.mem_append]; tauto)
theorem nw2 {b : Ref sig .tc} (hb : b ∉ written) : b ∉ hostOps0_1_W :=
  fun h => hb (by simp only [written, List.mem_append]; tauto)
theorem nw3 {b : Ref sig .tc} (hb : b ∉ written) : b ∉ hostOps0_2_W :=
  fun h => hb (by simp only [written, List.mem_append]; tauto)
theorem nw4 {b : Ref sig .tc} (hb : b ∉ written) : b ∉ hostOps0_3_W :=
  fun h => hb (by simp only [written, List.mem_append]; tauto)
theorem nw5 {b : Ref sig .tc} (hb : b ∉ written) : b ∉ ([main_v16] : List (Ref sig .tc)) :=
  fun h => hb (by simp only [written, List.mem_append]; tauto)
theorem nw6 {b : Ref sig .tc} (hb : b ∉ written) : b ∉ hostOps1_W :=
  fun h => hb (by simp only [written, List.mem_append]; tauto)
theorem nw7 {b : Ref sig .tc} (hb : b ∉ written) : b ∉ ([main_v24_0, main_v24_1] : List (Ref sig .tc)) :=
  fun h => hb (by simp only [written, List.mem_append]; tauto)
theorem nw8 {b : Ref sig .tc} (hb : b ∉ written) : b ∉ hostOps2_W :=
  fun h => hb (by simp only [written, List.mem_append]; tauto)
theorem nw9 {b : Ref sig .tc} (hb : b ∉ written) : b ∉ hostOps2_1_W :=
  fun h => hb (by simp only [written, List.mem_append]; tauto)
theorem nw10 {b : Ref sig .tc} (hb : b ∉ written) : b ∉ hostOps2_2_W :=
  fun h => hb (by simp only [written, List.mem_append]; tauto)
theorem nw11 {b : Ref sig .tc} (hb : b ∉ written) : b ∉ ([main_v36] : List (Ref sig .tc)) :=
  fun h => hb (by simp only [written, List.mem_append]; tauto)
theorem nw12 {b : Ref sig .tc} (hb : b ∉ written) : b ∉ hostOps3_W :=
  fun h => hb (by simp only [written, List.mem_append]; tauto)
theorem nw13 {b : Ref sig .tc} (hb : b ∉ written) : b ∉ ([main_v44_0, main_v44_1] : List (Ref sig .tc)) :=
  fun h => hb (by simp only [written, List.mem_append]; tauto)
theorem nw14 {b : Ref sig .tc} (hb : b ∉ written) : b ∉ hostOps4_W :=
  fun h => hb (by simp only [written, List.mem_append]; tauto)
theorem nw15 {b : Ref sig .tc} (hb : b ∉ written) : b ∉ ([main_v49] : List (Ref sig .tc)) :=
  fun h => hb (by simp only [written, List.mem_append]; tauto)
theorem nw16 {b : Ref sig .tc} (hb : b ∉ written) : b ∉ hostOps5_W :=
  fun h => hb (by simp only [written, List.mem_append]; tauto)

theorem unw0 (c : Dev nD) (b : Ref sig .tc) (hb : b ∉ written) : W0 m c (Proc.devRef .tc b) = m ((c : Thread nD τ).loc b) := rfl
theorem unw1 (c : Dev nD) (b : Ref sig .tc) (hb : b ∉ written) : W1 m c (Proc.devRef .tc b) = m ((c : Thread nD τ).loc b) :=
  (s1 m c b (nw1 hb)).trans (unw0 m c b hb)
theorem unw2 (c : Dev nD) (b : Ref sig .tc) (hb : b ∉ written) : W2 m c (Proc.devRef .tc b) = m ((c : Thread nD τ).loc b) :=
  (s2 m c b (nw2 hb)).trans (unw1 m c b hb)
theorem unw3 (c : Dev nD) (b : Ref sig .tc) (hb : b ∉ written) : W3 m c (Proc.devRef .tc b) = m ((c : Thread nD τ).loc b) :=
  (s3 m c b (nw3 hb)).trans (unw2 m c b hb)
theorem unw4 (c : Dev nD) (b : Ref sig .tc) (hb : b ∉ written) : W4 m c (Proc.devRef .tc b) = m ((c : Thread nD τ).loc b) :=
  (s4 m c b (nw4 hb)).trans (unw3 m c b hb)
theorem unw5 (c : Dev nD) (b : Ref sig .tc) (hb : b ∉ written) : W5 m c (Proc.devRef .tc b) = m ((c : Thread nD τ).loc b) :=
  (s5 m c b (nw5 hb)).trans (unw4 m c b hb)
theorem unw6 (c : Dev nD) (b : Ref sig .tc) (hb : b ∉ written) : W6 m c (Proc.devRef .tc b) = m ((c : Thread nD τ).loc b) :=
  (s6 m c b (nw6 hb)).trans (unw5 m c b hb)
theorem unw7 (c : Dev nD) (b : Ref sig .tc) (hb : b ∉ written) : W7 m c (Proc.devRef .tc b) = m ((c : Thread nD τ).loc b) :=
  (s7 m c b (nw7 hb)).trans (unw6 m c b hb)
theorem unw8 (c : Dev nD) (b : Ref sig .tc) (hb : b ∉ written) : W8 m c (Proc.devRef .tc b) = m ((c : Thread nD τ).loc b) :=
  (s8 m c b (nw8 hb)).trans (unw7 m c b hb)
theorem unw9 (c : Dev nD) (b : Ref sig .tc) (hb : b ∉ written) : W9 m c (Proc.devRef .tc b) = m ((c : Thread nD τ).loc b) :=
  (s9 m c b (nw9 hb)).trans (unw8 m c b hb)
theorem unw10 (c : Dev nD) (b : Ref sig .tc) (hb : b ∉ written) : W10 m c (Proc.devRef .tc b) = m ((c : Thread nD τ).loc b) :=
  (s10 m c b (nw10 hb)).trans (unw9 m c b hb)
theorem unw11 (c : Dev nD) (b : Ref sig .tc) (hb : b ∉ written) : W11 m c (Proc.devRef .tc b) = m ((c : Thread nD τ).loc b) :=
  (s11 m c b (nw11 hb)).trans (unw10 m c b hb)
theorem unw12 (c : Dev nD) (b : Ref sig .tc) (hb : b ∉ written) : W12 m c (Proc.devRef .tc b) = m ((c : Thread nD τ).loc b) :=
  (s12 m c b (nw12 hb)).trans (unw11 m c b hb)
theorem unw13 (c : Dev nD) (b : Ref sig .tc) (hb : b ∉ written) : W13 m c (Proc.devRef .tc b) = m ((c : Thread nD τ).loc b) :=
  (s13 m c b (nw13 hb)).trans (unw12 m c b hb)
theorem unw14 (c : Dev nD) (b : Ref sig .tc) (hb : b ∉ written) : W14 m c (Proc.devRef .tc b) = m ((c : Thread nD τ).loc b) :=
  (s14 m c b (nw14 hb)).trans (unw13 m c b hb)
theorem unw15 (c : Dev nD) (b : Ref sig .tc) (hb : b ∉ written) : W15 m c (Proc.devRef .tc b) = m ((c : Thread nD τ).loc b) :=
  (s15 m c b (nw15 hb)).trans (unw14 m c b hb)
/-- A reference that no item writes reads, at the end, what the launch memory holds. -/
theorem unw16 (c : Dev nD) (b : Ref sig .tc) (hb : b ∉ written) : W16 m c (Proc.devRef .tc b) = m ((c : Thread nD τ).loc b) :=
  (s16 m c b (nw16 hb)).trans (unw15 m c b hb)

end Cert.KernelIdeal.Hand

end
-- ==== Proof.Same.lean ====
import proofs.«420294_j24077586661648_2_alg».proof.Defs
import proofs.«420294_j24077586661648_2_alg».proof.Proof.Gen.Kernel
import proofs.«420294_j24077586661648_2_alg».proof.Proof.Gen.KernelIdeal

set_option maxRecDepth 16384

noncomputable section

namespace Cert.Proof.Same

open Idealize.ShloMosaic Idealize.ShloMosaic.TcCoe Idealize.SL.Sem

/-! The program as printed and its idealization are one term: each kernel function is the same text, and the body table is compared label by label. -/

set_option maxHeartbeats 4000000 in
theorem defs₀_eq : Cert.Kernel.defs₀ (F := Bits) = Cert.KernelIdeal.defs₀ (F := Bits) := by
  unfold Cert.Kernel.defs₀ Cert.KernelIdeal.defs₀
  refine congrArg _ (funext fun ℓ => funext fun x => ?_)
  match ℓ, x with
  | 0, (t, s) => rfl
  | 1, (t, s) => rfl
  | 2, (t, s) => rfl
  | 3, (t, s) => rfl
  | 4, (t, s) => rfl
  | ⟨n + 5, h⟩, _ => exact absurd h (by omega)

set_option maxHeartbeats 1000000 in
theorem defs_eq : Cert.Kernel.defs (F := Bits) = Cert.KernelIdeal.defs (F := Bits) :=
  congrArg (Pipeline.defs (Cert.KernelIdeal.pcfgs (F := Bits))) defs₀_eq

set_option maxHeartbeats 8000000 in
theorem main_eq : Cert.Kernel.main (F := Bits) = Cert.KernelIdeal.main (F := Bits) := rfl

end Cert.Proof.Same

end
-- ==== Proof.FrameKI.lean ====
import proofs.«420294_j24077586661648_2_alg».proof.Defs
import proofs.«420294_j24077586661648_2_alg».proof.Proof.Frames
import proofs.«420294_j24077586661648_2_alg».proof.Proof.Same
import proofs.«420294_j24077586661648_2_alg».proof.Proof.Gen.Pre_finite_inputs

set_option maxRecDepth 16384

noncomputable section

namespace Cert.Proof.Frames

open Idealize.ShloMosaic Idealize.ShloMosaic.TcCoe Idealize.SL.Sem
open Cert.KernelIdeal Cert.KernelIdeal.Gen Cert.KernelIdeal.Hand

variable {F : FTy → Type} [FloatOps F]

/-- At any instance the program runs, and an unscoped reference that no item writes ends as the launch memory has it. -/
theorem kept (m : (ℓ : Loc nD τ sig) → Buf (Elt F) ℓ) (ρ : Dev nD → PrngReg) :
    θ_run defs (onTc (τ := τ) (main (F := F))) ⟨m, fun _ => 0, ρ⟩ (fun r => ∀ (c : Dev nD) (b : Ref sig .tc),
      ¬ (Proc.devRef .tc b : DevRef τ sig).isScoped → b ∉ written →
        r.2.mem ((c : Thread nD τ).loc b) = m ((c : Thread nD τ).loc b)) :=
  (θ_run defs _ _).mono (fun r h c b hs hw => (h c _ (mem_uc b hs)).trans (unw16 m c b hw)) (run_all m ρ)

theorem frame_pi : Cert.frame_KernelIdeal := by
  intro m ρ _
  refine (θ_run Cert.KernelIdeal.defs _ _).mono (fun r h c => ?_) (kept (F := Ideal) m ρ)
  repeat' apply And.intro
  all_goals exact h c _ (by decide) (by decide)

set_option maxHeartbeats 2000000 in
/-- The program as printed is the idealized program (`Same`), so its frame is `kept` at the other instance. -/
theorem frame_bits : Cert.frame_Kernel := by
  intro m ρ _
  have h := kept (F := Bits) m ρ
  rw [← Same.defs_eq, ← Same.main_eq] at h
  refine (θ_run Cert.Kernel.defs _ _).mono (fun r h' c => ?_) h
  repeat' apply And.intro
  all_goals exact h' c _ (by decide) (by decide)

end Cert.Proof.Frames

end
-- ==== Proof.Spec.lean ====
import Idealize.ShloMosaic.PureOps.Ideal
import Idealize.ShloMosaic.Lib.ValueIdx

noncomputable section

namespace GnnSpec

open Idealize.ShloMosaic Idealize.ShloMosaic.ValueIdx

abbrev Mat (r c : Nat) : Type := (⟨2, ![r, c]⟩ : Shape).Idx → EReal

abbrev Vc (n : Nat) : Type := (⟨1, ![n]⟩ : Shape).Idx → EReal

def sliceRows {R C : Nat} (r off : Nat) (h : off + r ≤ R) (W : Mat R C) : Mat r C :=
  fun i =>
    let a : Fin r := i 0
    W (ix2 (⟨off + a.val, by have := a.isLt; omega⟩ : Fin R) (i 1 : Fin C))

def asRow {n : Nat} (b : Vc n) : Mat 1 n := fun i => b (ix1 (i 1 : Fin n))

def edgeHidden {E : Nat} (xd xs : Mat E 64) (ea : Mat E 32) (w1d w1s : Mat 64 64) (w1e : Mat 32 64) (b1 : Mat 1 64)
    (e : Fin E) (k : Fin 64) : EReal :=
  (((∑ a : Fin 64, xd (ix2 e a) * w1d (ix2 a k)) + (∑ a : Fin 64, xs (ix2 e a) * w1s (ix2 a k)))
      + (∑ a : Fin 32, ea (ix2 e a) * w1e (ix2 a k))) + b1 (ix2 (0 : Fin 1) k)

/-- The edge message: the rectified sum of the three partial products and the first bias, times the second weights, plus the second bias. -/
def edgeK {E : Nat} (xd xs : Mat E 64) (ea : Mat E 32) (w1d w1s : Mat 64 64) (w1e : Mat 32 64) (b1 : Mat 1 64)
    (w2 : Mat 64 64) (b2 : Mat 1 64) : Mat E 64 :=
  fun i => (∑ k : Fin 64, max (edgeHidden xd xs ea w1d w1s w1e b1 (i 0 : Fin E) k) 0 * w2 (ix2 k (i 1 : Fin 64)))
    + b2 (ix2 (0 : Fin 1) (i 1 : Fin 64))

def gate {N : Nat} (x a : Mat N 64) (wih whh : Mat 64 256) (bih bhh : Mat 1 256) (n : Fin N) (q : Fin 256) : EReal :=
  (((∑ k : Fin 64, x (ix2 n k) * wih (ix2 k q)) + (∑ k : Fin 64, a (ix2 n k) * whh (ix2 k q)))
      + bih (ix2 (0 : Fin 1) q)) + bhh (ix2 (0 : Fin 1) q)

def band (b : Nat) (hb : b < 4) (j : Fin 64) : Fin 256 := ⟨64 * b + j.val, by have := j.isLt; omega⟩

/-- The new cell: forget gate times the old cell plus input gate times the candidate; the four gates are the 64-wide bands of one 256-wide pre-activation. -/
def cellK {N : Nat} (x a c : Mat N 64) (wih whh : Mat 64 256) (bih bhh : Mat 1 256) : Mat N 64 :=
  fun i =>
    let n : Fin N := i 0
    let j : Fin 64 := i 1
    Ideal.logistic (gate x a wih whh bih bhh n (band 1 (by decide) j)) * c (ix2 n j)
      + Ideal.logistic (gate x a wih whh bih bhh n (band 0 (by decide) j)) * Ideal.tanh (gate x a wih whh bih bhh n (band 2 (by decide) j))

/-- The new node state: output gate times the hyperbolic tangent of the new cell. -/
def stateK {N : Nat} (x a c : Mat N 64) (wih whh : Mat 64 256) (bih bhh : Mat 1 256) : Mat N 64 :=
  fun i =>
    let n : Fin N := i 0
    let j : Fin 64 := i 1
    Ideal.logistic (gate x a wih whh bih bhh n (band 3 (by decide) j)) * Ideal.tanh (cellK x a c wih whh bih bhh (ix2 n j))

def readTerm {N : Nat} (x : Mat N 64) (gw : Mat 64 50) (gb : Mat 1 50) (fw : Mat 64 50) (fb : Mat 1 50) (n : Fin N) (j : Fin 50) : EReal :=
  Ideal.logistic ((∑ k : Fin 64, x (ix2 n k) * gw (ix2 k j)) + gb (ix2 (0 : Fin 1) j))
    * ((∑ k : Fin 64, x (ix2 n k) * fw (ix2 k j)) + fb (ix2 (0 : Fin 1) j))

/-- The read-out: the sum over all nodes of a logistic gate times a linear feature, one value per output channel. -/
def readK {N : Nat} (x : Mat N 64) (gw : Mat 64 50) (gb : Mat 1 50) (fw : Mat 64 50) (fb : Mat 1 50) : Mat 1 50 :=
  fun i => ∑ n : Fin N, readTerm x gw gb fw fb n (i 1 : Fin 50)

end GnnSpec

end
-- ==== Proof.RefSide.lean ====
import proofs.«420294_j24077586661648_2_alg».proof.Proof.ReadP
import proofs.«420294_j24077586661648_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefSide

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx
open scoped BigOperators

variable (x0 : (⟨S50000x64, .f32⟩ : BufTy).Contents (Elt Ideal)) (x1 : (⟨S800000x32, .f32⟩ : BufTy).Contents (Elt Ideal))
  (x2 : (⟨S2x800000, .i32⟩ : BufTy).Contents (Elt Ideal)) (x3 : (⟨S160x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 x8 : (⟨S64x256, .f32⟩ : BufTy).Contents (Elt Ideal))
  (x9 x10 : (⟨S256, .f32⟩ : BufTy).Contents (Elt Ideal)) (x11 : (⟨S160x64, .f32⟩ : BufTy).Contents (Elt Ideal))
  (x12 : (⟨S64, .f32⟩ : BufTy).Contents (Elt Ideal)) (x13 : (⟨S64x64, .f32⟩ : BufTy).Contents (Elt Ideal))
  (x14 : (⟨S64, .f32⟩ : BufTy).Contents (Elt Ideal)) (x15 x16 : (⟨S64x256, .f32⟩ : BufTy).Contents (Elt Ideal))
  (x17 x18 : (⟨S256, .f32⟩ : BufTy).Contents (Elt Ideal)) (x19 : (⟨S64x50, .f32⟩ : BufTy).Contents (Elt Ideal))
  (x20 : (⟨S50, .f32⟩ : BufTy).Contents (Elt Ideal)) (x21 : (⟨S64x50, .f32⟩ : BufTy).Contents (Elt Ideal))
  (x22 : (⟨S50, .f32⟩ : BufTy).Contents (Elt Ideal))

theorem idx2_eq {n0 n1 : Nat} (u v : (⟨2, ![n0, n1]⟩ : Shape).Idx) (h0 : u 0 = v 0) (h1 : u 1 = v 1) : u = v := by
  funext a; match a with | ⟨0, _⟩ => exact h0 | ⟨1, _⟩ => exact h1

theorem idx1_eq {n : Nat} (u v : (⟨1, ![n]⟩ : Shape).Idx) (h0 : u 0 = v 0) : u = v := by
  funext a; match a with | ⟨0, _⟩ => exact h0

theorem sum_fin160 {M : Type*} [AddCommMonoid M] (f : Fin 160 → M) :
    ∑ k, f k = ((∑ a : Fin 64, f ⟨a.val, by have := a.isLt; omega⟩) + ∑ a : Fin 64, f ⟨64 + a.val, by have := a.isLt; omega⟩)
      + ∑ a : Fin 32, f ⟨128 + a.val, by have := a.isLt; omega⟩ :=
  (Fin.sum_univ_add (a := 128) (b := 32) f).trans
    (congrArg (· + ∑ a : Fin 32, f (Fin.natAdd 128 a)) (Fin.sum_univ_add (a := 64) (b := 64) fun i => f (Fin.castAdd 32 i)))

open GnnSpec

theorem edge_of_reads {E : Nat} (m xd xs : Mat E 64) (ea : Mat E 32) (cat : Mat E 160) (W1 : Mat 160 64) (b1 : Vc 64)
    (W2 : Mat 64 64) (b2 : Vc 64)
    (hd : ∀ (e : Fin E) (a : Fin 64), cat (ix2 e ⟨a.val, by have := a.isLt; omega⟩) = xd (ix2 e a))
    (hs : ∀ (e : Fin E) (a : Fin 64), cat (ix2 e ⟨64 + a.val, by have := a.isLt; omega⟩) = xs (ix2 e a))
    (he : ∀ (e : Fin E) (a : Fin 32), cat (ix2 e ⟨128 + a.val, by have := a.isLt; omega⟩) = ea (ix2 e a))
    (hm : ∀ (e : Fin E) (j : Fin 64), m (ix2 e j)
        = (∑ k : Fin 64, max ((∑ q : Fin 160, cat (ix2 e q) * W1 (ix2 q k)) + b1 (ix1 k)) 0 * W2 (ix2 k j)) + b2 (ix1 j)) :
    m = edgeK xd xs ea (sliceRows (R := 160) (C := 64) 64 0 (by decide) W1) (sliceRows (R := 160) (C := 64) 64 64 (by decide) W1)
          (sliceRows (R := 160) (C := 64) 32 128 (by decide) W1) (asRow b1) W2 (asRow b2) := by
  funext i
  obtain ⟨e, j, rfl⟩ : ∃ e j, i = ix2 e j := ⟨i 0, i 1, eq_ix2 i⟩
  rw [hm e j]
  show _ = (∑ k : Fin 64, max (edgeHidden xd xs ea _ _ _ (asRow b1) e k) 0 * W2 (ix2 k j)) + b2 (ix1 j)
  refine congrArg (· + b2 (ix1 j)) (Finset.sum_congr rfl fun k _ => ?_)
  refine congrArg (fun t => max t 0 * W2 (ix2 k j)) ?_
  rw [sum_fin160]
  simp only [hd, hs, he]
  show _ = (((∑ a : Fin 64, xd (ix2 e a) * W1 (ix2 ⟨0 + a.val, _⟩ k)) + ∑ a : Fin 64, xs (ix2 e a) * W1 (ix2 ⟨64 + a.val, _⟩ k))
      + ∑ a : Fin 32, ea (ix2 e a) * W1 (ix2 ⟨128 + a.val, _⟩ k)) + b1 (ix1 k)
  simp only [Nat.zero_add]

theorem gate_of_reads {N : Nat} (g : Mat N 256) (x a : Mat N 64) (wih whh : Mat 64 256) (bih bhh : Vc 256)
    (hg : ∀ (n : Fin N) (q : Fin 256), g (ix2 n q)
        = ((∑ k : Fin 64, x (ix2 n k) * wih (ix2 k q)) + ∑ k : Fin 64, a (ix2 n k) * whh (ix2 k q)) + (bih (ix1 q) + bhh (ix1 q)))
    (n : Fin N) (q : Fin 256) : g (ix2 n q) = gate x a wih whh (asRow bih) (asRow bhh) n q := by
  rw [hg]; exact (add_assoc _ _ _).symm

theorem cell_of_reads {N : Nat} (cn c : Mat N 64) (g : Mat N 256) (x a : Mat N 64) (wih whh : Mat 64 256) (bih bhh : Mat 1 256)
    (hgate : ∀ (n : Fin N) (q : Fin 256), g (ix2 n q) = gate x a wih whh bih bhh n q)
    (hc : ∀ (n : Fin N) (j : Fin 64), cn (ix2 n j)
        = Ideal.div 1 (1 + Ideal.exp (-(g (ix2 n ⟨64 + j.val, by have := j.isLt; omega⟩)))) * c (ix2 n j)
          + Ideal.div 1 (1 + Ideal.exp (-(g (ix2 n ⟨j.val, by have := j.isLt; omega⟩))))
              * Ideal.tanh (g (ix2 n ⟨128 + j.val, by have := j.isLt; omega⟩))) :
    cn = cellK x a c wih whh bih bhh := by
  funext i
  obtain ⟨n, j, rfl⟩ : ∃ n j, i = ix2 n j := ⟨i 0, i 1, eq_ix2 i⟩
  have b0 : (⟨j.val, by have := j.isLt; omega⟩ : Fin 256) = band 0 (by decide) j := Fin.ext (by show j.val = 64 * 0 + j.val; omega)
  have b1 : (⟨64 + j.val, by have := j.isLt; omega⟩ : Fin 256) = band 1 (by decide) j := Fin.ext (by show 64 + j.val = 64 * 1 + j.val; omega)
  have b2 : (⟨128 + j.val, by have := j.isLt; omega⟩ : Fin 256) = band 2 (by decide) j := Fin.ext (by show 128 + j.val = 64 * 2 + j.val; omega)
  rw [hc n j, b0, b1, b2, hgate, hgate, hgate]
  rfl

theorem state_of_reads {N : Nat} (sn cn c : Mat N 64) (g : Mat N 256) (x a : Mat N 64) (wih whh : Mat 64 256) (bih bhh : Mat 1 256)
    (hgate : ∀ (n : Fin N) (q : Fin 256), g (ix2 n q) = gate x a wih whh bih bhh n q)
    (hcn : cn = cellK x a c wih whh bih bhh)
    (hs : ∀ (n : Fin N) (j : Fin 64), sn (ix2 n j)
        = Ideal.div 1 (1 + Ideal.exp (-(g (ix2 n ⟨192 + j.val, by have := j.isLt; omega⟩)))) * Ideal.tanh (cn (ix2 n j))) :
    sn = stateK x a c wih whh bih bhh := by
  funext i
  obtain ⟨n, j, rfl⟩ : ∃ n j, i = ix2 n j := ⟨i 0, i 1, eq_ix2 i⟩
  have b3 : (⟨192 + j.val, by have := j.isLt; omega⟩ : Fin 256) = band 3 (by decide) j := Fin.ext (by show 192 + j.val = 64 * 3 + j.val; omega)
  rw [hs n j, b3, hgate, hcn]
  rfl

theorem read_of_reads {N : Nat} (out : Vc 50) (x : Mat N 64) (gw fw : Mat 64 50) (gb fb : Vc 50)
    (ho : ∀ j : Fin 50, out (ix1 j) = 0 + ∑ n : Fin N,
        Ideal.div 1 (1 + Ideal.exp (-((∑ k : Fin 64, x (ix2 n k) * gw (ix2 k j)) + gb (ix1 j))))
          * ((∑ k : Fin 64, x (ix2 n k) * fw (ix2 k j)) + fb (ix1 j)))
    (i : (⟨1, ![50]⟩ : Shape).Idx) : out i = readK x gw (asRow gb) fw (asRow fb) (ix2 (0 : Fin 1) (i 0)) := by
  obtain ⟨j, rfl⟩ : ∃ j, i = ix1 j := ⟨i 0, eq_ix1 i⟩
  rw [ho j, zero_add]
  rfl

section Cat
variable (xd xs : (⟨S800000x64, .f32⟩ : BufTy).Contents (Elt Ideal)) (ea : (⟨S800000x32, .f32⟩ : BufTy).Contents (Elt Ideal))

theorem cat3_left (e : Fin 800000) (a : Fin 64) :
    concatenate S800000x160 1 [⟨S800000x64, xd⟩, ⟨S800000x64, xs⟩, ⟨S800000x32, ea⟩]
        concatenates_S800000x64_S800000x64_S800000x32_S800000x160_d1 (ix2 e ⟨a.val, by have := a.isLt; omega⟩) = xd (ix2 e a) := by
  refine concatenate_apply_piece (α := EReal) (t := S800000x160) (1 : Fin 2) [⟨S800000x64, xd⟩, ⟨S800000x64, xs⟩, ⟨S800000x32, ea⟩]
    concatenates_S800000x64_S800000x64_S800000x32_S800000x160_d1 _ 0 (show 0 < 3 by omega) S800000x64 xd rfl rfl 0 rfl (ix2 e a) ?_ ?_
  · intro b hb; match b with | ⟨0, _⟩ => rfl | ⟨1, _⟩ => exact absurd rfl hb
  · show 0 + a.val = a.val; omega

theorem cat3_mid (e : Fin 800000) (a : Fin 64) :
    concatenate S800000x160 1 [⟨S800000x64, xd⟩, ⟨S800000x64, xs⟩, ⟨S800000x32, ea⟩]
        concatenates_S800000x64_S800000x64_S800000x32_S800000x160_d1 (ix2 e ⟨64 + a.val, by have := a.isLt; omega⟩) = xs (ix2 e a) := by
  refine concatenate_apply_piece (α := EReal) (t := S800000x160) (1 : Fin 2) [⟨S800000x64, xd⟩, ⟨S800000x64, xs⟩, ⟨S800000x32, ea⟩]
    concatenates_S800000x64_S800000x64_S800000x32_S800000x160_d1 _ 1 (show 1 < 3 by omega) S800000x64 xs rfl rfl 64 rfl (ix2 e a) ?_ ?_
  · intro b hb; match b with | ⟨0, _⟩ => rfl | ⟨1, _⟩ => exact absurd rfl hb
  · rfl

theorem cat3_right (e : Fin 800000) (a : Fin 32) :
    concatenate S800000x160 1 [⟨S800000x64, xd⟩, ⟨S800000x64, xs⟩, ⟨S800000x32, ea⟩]
        concatenates_S800000x64_S800000x64_S800000x32_S800000x160_d1 (ix2 e ⟨128 + a.val, by have := a.isLt; omega⟩) = ea (ix2 e a) := by
  refine concatenate_apply_piece (α := EReal) (t := S800000x160) (1 : Fin 2) [⟨S800000x64, xd⟩, ⟨S800000x64, xs⟩, ⟨S800000x32, ea⟩]
    concatenates_S800000x64_S800000x64_S800000x32_S800000x160_d1 _ 2 (show 2 < 3 by omega) S800000x32 ea rfl rfl 128 rfl (ix2 e a) ?_ ?_
  · intro b hb; match b with | ⟨0, _⟩ => rfl | ⟨1, _⟩ => exact absurd rfl hb
  · rfl

end Cat

theorem lidx_v25 (e : Fin 800000) (j : Fin 64) (k : Fin 64) : lidx_main_v25 (ix2 e j) k = ix2 e k := idx2_eq _ _ rfl rfl
theorem ridx_v25 (e : Fin 800000) (j : Fin 64) (k : Fin 64) : ridx_main_v25 (ix2 e j) k = ix2 k j := idx2_eq _ _ rfl rfl
theorem lidx_v20 (e : Fin 800000) (j : Fin 64) (k : Fin 160) : lidx_main_v20 (ix2 e j) k = ix2 e k := idx2_eq _ _ rfl rfl
theorem ridx_v20 (e : Fin 800000) (j : Fin 64) (k : Fin 160) : ridx_main_v20 (ix2 e j) k = ix2 k j := idx2_eq _ _ rfl rfl
theorem lidx_v32 (e : Fin 50000) (j : Fin 256) (k : Fin 64) : lidx_main_v32 (ix2 e j) k = ix2 e k := idx2_eq _ _ rfl rfl
theorem ridx_v32 (e : Fin 50000) (j : Fin 256) (k : Fin 64) : ridx_main_v32 (ix2 e j) k = ix2 k j := idx2_eq _ _ rfl rfl
theorem lidx_v33 (e : Fin 50000) (j : Fin 256) (k : Fin 64) : lidx_main_v33 (ix2 e j) k = ix2 e k := idx2_eq _ _ rfl rfl
theorem ridx_v33 (e : Fin 50000) (j : Fin 256) (k : Fin 64) : ridx_main_v33 (ix2 e j) k = ix2 k j := idx2_eq _ _ rfl rfl
theorem lidx_v87 (e : Fin 800000) (j : Fin 64) (k : Fin 64) : lidx_main_v87 (ix2 e j) k = ix2 e k := idx2_eq _ _ rfl rfl
theorem ridx_v87 (e : Fin 800000) (j : Fin 64) (k : Fin 64) : ridx_main_v87 (ix2 e j) k = ix2 k j := idx2_eq _ _ rfl rfl
theorem lidx_v82 (e : Fin 800000) (j : Fin 64) (k : Fin 160) : lidx_main_v82 (ix2 e j) k = ix2 e k := idx2_eq _ _ rfl rfl
theorem ridx_v82 (e : Fin 800000) (j : Fin 64) (k : Fin 160) : ridx_main_v82 (ix2 e j) k = ix2 k j := idx2_eq _ _ rfl rfl
theorem lidx_v94 (e : Fin 50000) (j : Fin 256) (k : Fin 64) : lidx_main_v94 (ix2 e j) k = ix2 e k := idx2_eq _ _ rfl rfl
theorem ridx_v94 (e : Fin 50000) (j : Fin 256) (k : Fin 64) : ridx_main_v94 (ix2 e j) k = ix2 k j := idx2_eq _ _ rfl rfl
theorem lidx_v95 (e : Fin 50000) (j : Fin 256) (k : Fin 64) : lidx_main_v95 (ix2 e j) k = ix2 e k := idx2_eq _ _ rfl rfl
theorem ridx_v95 (e : Fin 50000) (j : Fin 256) (k : Fin 64) : ridx_main_v95 (ix2 e j) k = ix2 k j := idx2_eq _ _ rfl rfl
theorem lidx_v129 (e : Fin 50000) (j : Fin 50) (k : Fin 64) : lidx_main_v129 (ix2 e j) k = ix2 e k := idx2_eq _ _ rfl rfl
theorem ridx_v129 (e : Fin 50000) (j : Fin 50) (k : Fin 64) : ridx_main_v129 (ix2 e j) k = ix2 k j := idx2_eq _ _ rfl rfl
theorem lidx_v139 (e : Fin 50000) (j : Fin 50) (k : Fin 64) : lidx_main_v139 (ix2 e j) k = ix2 e k := idx2_eq _ _ rfl rfl
theorem ridx_v139 (e : Fin 50000) (j : Fin 50) (k : Fin 64) : ridx_main_v139 (ix2 e j) k = ix2 k j := idx2_eq _ _ rfl rfl
theorem idx_v22 (e : Fin 800000) (j : Fin 64) : idx_main_v22 (ix2 e j) = ix2 (0 : Fin 1) j := idx2_eq _ _ rfl rfl
theorem idx_v27 (e : Fin 800000) (j : Fin 64) : idx_main_v27 (ix2 e j) = ix2 (0 : Fin 1) j := idx2_eq _ _ rfl rfl
theorem idx_v37 (e : Fin 50000) (j : Fin 256) : idx_main_v37 (ix2 e j) = ix2 (0 : Fin 1) j := idx2_eq _ _ rfl rfl
theorem idx_v84 (e : Fin 800000) (j : Fin 64) : idx_main_v84 (ix2 e j) = ix2 (0 : Fin 1) j := idx2_eq _ _ rfl rfl
theorem idx_v89 (e : Fin 800000) (j : Fin 64) : idx_main_v89 (ix2 e j) = ix2 (0 : Fin 1) j := idx2_eq _ _ rfl rfl
theorem idx_v99 (e : Fin 50000) (j : Fin 256) : idx_main_v99 (ix2 e j) = ix2 (0 : Fin 1) j := idx2_eq _ _ rfl rfl
theorem idx_v131 (e : Fin 50000) (j : Fin 50) : idx_main_v131 (ix2 e j) = ix2 (0 : Fin 1) j := idx2_eq _ _ rfl rfl
theorem idx_v141 (e : Fin 50000) (j : Fin 50) : idx_main_v141 (ix2 e j) = ix2 (0 : Fin 1) j := idx2_eq _ _ rfl rfl
theorem idx_v21 (z : Fin 1) (j : Fin 64) : idx_main_v21 (ix2 z j) = ix1 j := idx1_eq _ _ rfl
theorem idx_v26 (z : Fin 1) (j : Fin 64) : idx_main_v26 (ix2 z j) = ix1 j := idx1_eq _ _ rfl
theorem idx_v36 (z : Fin 1) (j : Fin 256) : idx_main_v36 (ix2 z j) = ix1 j := idx1_eq _ _ rfl
theorem idx_v83 (z : Fin 1) (j : Fin 64) : idx_main_v83 (ix2 z j) = ix1 j := idx1_eq _ _ rfl
theorem idx_v88 (z : Fin 1) (j : Fin 64) : idx_main_v88 (ix2 z j) = ix1 j := idx1_eq _ _ rfl
theorem idx_v98 (z : Fin 1) (j : Fin 256) : idx_main_v98 (ix2 z j) = ix1 j := idx1_eq _ _ rfl
theorem idx_v130 (z : Fin 1) (j : Fin 50) : idx_main_v130 (ix2 z j) = ix1 j := idx1_eq _ _ rfl
theorem idx_v140 (z : Fin 1) (j : Fin 50) : idx_main_v140 (ix2 z j) = ix1 j := idx1_eq _ _ rfl
theorem idx_v39 (n : Fin 50000) (j : Fin 64) : idx_main_v39 (ix2 n j) = ix2 n ⟨j.val, by have := j.isLt; omega⟩ := idx2_eq _ _ rfl rfl
theorem idx_v40 (n : Fin 50000) (j : Fin 64) : idx_main_v40 (ix2 n j) = ix2 n ⟨64 + j.val, by have := j.isLt; omega⟩ := idx2_eq _ _ rfl rfl
theorem idx_v41 (n : Fin 50000) (j : Fin 64) : idx_main_v41 (ix2 n j) = ix2 n ⟨128 + j.val, by have := j.isLt; omega⟩ := idx2_eq _ _ rfl rfl
theorem idx_v42 (n : Fin 50000) (j : Fin 64) : idx_main_v42 (ix2 n j) = ix2 n ⟨192 + j.val, by have := j.isLt; omega⟩ := idx2_eq _ _ rfl rfl
theorem idx_v101 (n : Fin 50000) (j : Fin 64) : idx_main_v101 (ix2 n j) = ix2 n ⟨j.val, by have := j.isLt; omega⟩ := idx2_eq _ _ rfl rfl
theorem idx_v102 (n : Fin 50000) (j : Fin 64) : idx_main_v102 (ix2 n j) = ix2 n ⟨64 + j.val, by have := j.isLt; omega⟩ := idx2_eq _ _ rfl rfl
theorem idx_v103 (n : Fin 50000) (j : Fin 64) : idx_main_v103 (ix2 n j) = ix2 n ⟨128 + j.val, by have := j.isLt; omega⟩ := idx2_eq _ _ rfl rfl
theorem idx_v104 (n : Fin 50000) (j : Fin 64) : idx_main_v104 (ix2 n j) = ix2 n ⟨192 + j.val, by have := j.isLt; omega⟩ := idx2_eq _ _ rfl rfl
theorem idx_v144 (j : Fin 50) (k : Fin 50000) : idx_main_v144 (ix1 j) k = ix2 k j := idx2_eq _ _ rfl rfl

theorem ref_zero4 (i : S50000x64.Idx) : val_main_v4 (F := Ideal) i = 0 := by
  rw [val_main_v4_apply, val_main_cst_apply]; exact Ideal.ofBits_zero_f32

theorem ref_zero29 (i : S50000x64.Idx) : val_main_v29 (F := Ideal) i = 0 := by
  rw [val_main_v29_apply, val_main_cst_3_apply]; exact Ideal.ofBits_zero_f32

theorem ref_zero91 (i : S50000x64.Idx) : val_main_v91 (F := Ideal) i = 0 := by
  rw [val_main_v91_apply, val_main_cst_14_apply]; exact Ideal.ofBits_zero_f32

theorem ref_msg1 :
    val_main_v28 (F := Ideal) x0 x1 x2 x3 x4 x5 x6
      = GnnSpec.edgeK (E := 800000) (val_main_v11 (F := Ideal) x0 x2) (val_main_v18 (F := Ideal) x0 x2) x1
          (GnnSpec.sliceRows (R := 160) (C := 64) 64 0 (by decide) x3) (GnnSpec.sliceRows (R := 160) (C := 64) 64 64 (by decide) x3)
          (GnnSpec.sliceRows (R := 160) (C := 64) 32 128 (by decide) x3)
          (GnnSpec.asRow x4) x5 (GnnSpec.asRow x6) := by
  refine edge_of_reads (val_main_v28 (F := Ideal) x0 x1 x2 x3 x4 x5 x6) (val_main_v11 (F := Ideal) x0 x2) (val_main_v18 (F := Ideal) x0 x2) x1
    (val_main_v19 (F := Ideal) x0 x1 x2) x3 x4 x5 x6
    (fun e a => cat3_left _ _ _ e a) (fun e a => cat3_mid _ _ _ e a) (fun e a => cat3_right _ _ _ e a) (fun e j => ?_)
  simp only [val_main_v28_apply, val_main_v25_apply, val_main_v27_apply, val_main_v26_apply, val_main_v24_apply,
    val_main_v23_apply, val_main_v20_apply, val_main_v22_apply, val_main_v21_apply, val_main_call0_v0_apply,
    val_main_call0_cst_apply, lidx_v25, ridx_v25, lidx_v20, ridx_v20, idx_v22, idx_v21, idx_v27, idx_v26,
    Ideal.ofBits_def, Ideal.ofBits_zero_f32]
  rfl

theorem ref_gate1 (n : Fin 50000) (q : Fin 256) :
    val_main_v38 (F := Ideal) x0 x1 x2 x3 x4 x5 x6 x7 x8 x9 x10 (ix2 n q)
      = GnnSpec.gate x0 (val_main_v31 (F := Ideal) x0 x1 x2 x3 x4 x5 x6) x7 x8 (GnnSpec.asRow x9) (GnnSpec.asRow x10) n q := by
  refine gate_of_reads (val_main_v38 (F := Ideal) x0 x1 x2 x3 x4 x5 x6 x7 x8 x9 x10) x0 (val_main_v31 (F := Ideal) x0 x1 x2 x3 x4 x5 x6) x7 x8 x9 x10 (fun n q => ?_) n q
  simp only [val_main_v38_apply, val_main_v34_apply, val_main_v32_apply, val_main_v33_apply, val_main_v37_apply,
    val_main_v36_apply, val_main_v35_apply, lidx_v32, ridx_v32, lidx_v33, ridx_v33, idx_v37, idx_v36]
  rfl

theorem ref_cell1 :
    val_main_v58 (F := Ideal) x0 x1 x2 x3 x4 x5 x6 x7 x8 x9 x10
      = GnnSpec.cellK (N := 50000) x0 (val_main_v31 (F := Ideal) x0 x1 x2 x3 x4 x5 x6) (val_main_v4 (F := Ideal)) x7 x8
          (GnnSpec.asRow x9) (GnnSpec.asRow x10) := by
  refine cell_of_reads (val_main_v58 (F := Ideal) x0 x1 x2 x3 x4 x5 x6 x7 x8 x9 x10) (val_main_v4 (F := Ideal)) (val_main_v38 (F := Ideal) x0 x1 x2 x3 x4 x5 x6 x7 x8 x9 x10) x0 (val_main_v31 (F := Ideal) x0 x1 x2 x3 x4 x5 x6) x7 x8
    (GnnSpec.asRow x9) (GnnSpec.asRow x10) (ref_gate1 x0 x1 x2 x3 x4 x5 x6 x7 x8 x9 x10) (fun n j => ?_)
  simp only [val_main_v58_apply, val_main_v49_apply, val_main_v57_apply, val_main_v48_apply, val_main_v47_apply, val_main_cst_5_apply, val_main_v46_apply, val_main_v45_apply, val_main_cst_4_apply, val_main_v44_apply, val_main_v43_apply, val_main_v40_apply, val_main_v55_apply, val_main_v54_apply, val_main_cst_7_apply, val_main_v53_apply, val_main_v52_apply, val_main_cst_6_apply, val_main_v51_apply, val_main_v50_apply, val_main_v39_apply, val_main_v56_apply, val_main_v41_apply,
    idx_v39, idx_v40, idx_v41, Ideal.ofBits_def, Ideal.ofBits_one_f32]
  rfl

theorem ref_state1 :
    val_main_v66 (F := Ideal) x0 x1 x2 x3 x4 x5 x6 x7 x8 x9 x10
      = GnnSpec.stateK (N := 50000) x0 (val_main_v31 (F := Ideal) x0 x1 x2 x3 x4 x5 x6) (val_main_v4 (F := Ideal)) x7 x8
          (GnnSpec.asRow x9) (GnnSpec.asRow x10) := by
  refine state_of_reads (val_main_v66 (F := Ideal) x0 x1 x2 x3 x4 x5 x6 x7 x8 x9 x10) (val_main_v58 (F := Ideal) x0 x1 x2 x3 x4 x5 x6 x7 x8 x9 x10) (val_main_v4 (F := Ideal)) (val_main_v38 (F := Ideal) x0 x1 x2 x3 x4 x5 x6 x7 x8 x9 x10) x0 (val_main_v31 (F := Ideal) x0 x1 x2 x3 x4 x5 x6)
    x7 x8 (GnnSpec.asRow x9) (GnnSpec.asRow x10) (ref_gate1 x0 x1 x2 x3 x4 x5 x6 x7 x8 x9 x10) (ref_cell1 x0 x1 x2 x3 x4 x5 x6 x7 x8 x9 x10) (fun n j => ?_)
  simp only [val_main_v66_apply, val_main_v64_apply, val_main_v63_apply, val_main_cst_9_apply, val_main_v62_apply, val_main_v61_apply, val_main_cst_8_apply, val_main_v60_apply, val_main_v59_apply, val_main_v42_apply, val_main_v65_apply,
    idx_v42, Ideal.ofBits_def, Ideal.ofBits_one_f32]
  rfl

theorem ref_msg2 :
    val_main_v90 (F := Ideal) x0 x1 x2 x3 x4 x5 x6 x7 x8 x9 x10 x11 x12 x13 x14
      = GnnSpec.edgeK (E := 800000) (val_main_v73 (F := Ideal) x0 x1 x2 x3 x4 x5 x6 x7 x8 x9 x10) (val_main_v80 (F := Ideal) x0 x1 x2 x3 x4 x5 x6 x7 x8 x9 x10) x1
          (GnnSpec.sliceRows (R := 160) (C := 64) 64 0 (by decide) x11) (GnnSpec.sliceRows (R := 160) (C := 64) 64 64 (by decide) x11)
          (GnnSpec.sliceRows (R := 160) (C := 64) 32 128 (by decide) x11)
          (GnnSpec.asRow x12) x13 (GnnSpec.asRow x14) := by
  refine edge_of_reads (val_main_v90 (F := Ideal) x0 x1 x2 x3 x4 x5 x6 x7 x8 x9 x10 x11 x12 x13 x14) (val_main_v73 (F := Ideal) x0 x1 x2 x3 x4 x5 x6 x7 x8 x9 x10) (val_main_v80 (F := Ideal) x0 x1 x2 x3 x4 x5 x6 x7 x8 x9 x10) x1
    (val_main_v81 (F := Ideal) x0 x1 x2 x3 x4 x5 x6 x7 x8 x9 x10) x11 x12 x13 x14
    (fun e a => cat3_left _ _ _ e a) (fun e a => cat3_mid _ _ _ e a) (fun e a => cat3_right _ _ _ e a) (fun e j => ?_)
  simp only [val_main_v90_apply, val_main_v87_apply, val_main_v89_apply, val_main_v88_apply, val_main_v86_apply,
    val_main_v85_apply, val_main_v82_apply, val_main_v84_apply, val_main_v83_apply, val_main_call1_v0_apply,
    val_main_call1_cst_apply, lidx_v87, ridx_v87, lidx_v82, ridx_v82, idx_v84, idx_v83, idx_v89, idx_v88,
    Ideal.ofBits_def, Ideal.ofBits_zero_f32]
  rfl

theorem ref_gate2 (n : Fin 50000) (q : Fin 256) :
    val_main_v100 (F := Ideal) x0 x1 x2 x3 x4 x5 x6 x7 x8 x9 x10 x11 x12 x13 x14 x15 x16 x17 x18 (ix2 n q)
      = GnnSpec.gate (val_main_v66 (F := Ideal) x0 x1 x2 x3 x4 x5 x6 x7 x8 x9 x10) (val_main_v93 (F := Ideal) x0 x1 x2 x3 x4 x5 x6 x7 x8 x9 x10 x11 x12 x13 x14) x15 x16 (GnnSpec.asRow x17) (GnnSpec.asRow x18) n q := by
  refine gate_of_reads (val_main_v100 (F := Ideal) x0 x1 x2 x3 x4 x5 x6 x7 x8 x9 x10 x11 x12 x13 x14 x15 x16 x17 x18) (val_main_v66 (F := Ideal) x0 x1 x2 x3 x4 x5 x6 x7 x8 x9 x10) (val_main_v93 (F := Ideal) x0 x1 x2 x3 x4 x5 x6 x7 x8 x9 x10 x11 x12 x13 x14) x15 x16 x17 x18 (fun n q => ?_) n q
  simp only [val_main_v100_apply, val_main_v96_apply, val_main_v94_apply, val_main_v95_apply, val_main_v99_apply,
    val_main_v98_apply, val_main_v97_apply, lidx_v94, ridx_v94, lidx_v95, ridx_v95, idx_v99, idx_v98]
  rfl

theorem ref_cell2 :
    val_main_v120 (F := Ideal) x0 x1 x2 x3 x4 x5 x6 x7 x8 x9 x10 x11 x12 x13 x14 x15 x16 x17 x18
      = GnnSpec.cellK (N := 50000) (val_main_v66 (F := Ideal) x0 x1 x2 x3 x4 x5 x6 x7 x8 x9 x10) (val_main_v93 (F := Ideal) x0 x1 x2 x3 x4 x5 x6 x7 x8 x9 x10 x11 x12 x13 x14)
          (val_main_v58 (F := Ideal) x0 x1 x2 x3 x4 x5 x6 x7 x8 x9 x10) x15 x16 (GnnSpec.asRow x17) (GnnSpec.asRow x18) := by
  refine cell_of_reads (val_main_v120 (F := Ideal) x0 x1 x2 x3 x4 x5 x6 x7 x8 x9 x10 x11 x12 x13 x14 x15 x16 x17 x18) (val_main_v58 (F := Ideal) x0 x1 x2 x3 x4 x5 x6 x7 x8 x9 x10) (val_main_v100 (F := Ideal) x0 x1 x2 x3 x4 x5 x6 x7 x8 x9 x10 x11 x12 x13 x14 x15 x16 x17 x18) (val_main_v66 (F := Ideal) x0 x1 x2 x3 x4 x5 x6 x7 x8 x9 x10) (val_main_v93 (F := Ideal) x0 x1 x2 x3 x4 x5 x6 x7 x8 x9 x10 x11 x12 x13 x14) x15 x16
    (GnnSpec.asRow x17) (GnnSpec.asRow x18) (ref_gate2 x0 x1 x2 x3 x4 x5 x6 x7 x8 x9 x10 x11 x12 x13 x14 x15 x16 x17 x18) (fun n j => ?_)
  simp only [val_main_v120_apply, val_main_v111_apply, val_main_v119_apply, val_main_v110_apply, val_main_v109_apply, val_main_cst_16_apply, val_main_v108_apply, val_main_v107_apply, val_main_cst_15_apply, val_main_v106_apply, val_main_v105_apply, val_main_v102_apply, val_main_v117_apply, val_main_v116_apply, val_main_cst_18_apply, val_main_v115_apply, val_main_v114_apply, val_main_cst_17_apply, val_main_v113_apply, val_main_v112_apply, val_main_v101_apply, val_main_v118_apply, val_main_v103_apply,
    idx_v101, idx_v102, idx_v103, Ideal.ofBits_def, Ideal.ofBits_one_f32]
  rfl

theorem ref_state2 :
    val_main_v128 (F := Ideal) x0 x1 x2 x3 x4 x5 x6 x7 x8 x9 x10 x11 x12 x13 x14 x15 x16 x17 x18
      = GnnSpec.stateK (N := 50000) (val_main_v66 (F := Ideal) x0 x1 x2 x3 x4 x5 x6 x7 x8 x9 x10) (val_main_v93 (F := Ideal) x0 x1 x2 x3 x4 x5 x6 x7 x8 x9 x10 x11 x12 x13 x14)
          (val_main_v58 (F := Ideal) x0 x1 x2 x3 x4 x5 x6 x7 x8 x9 x10) x15 x16 (GnnSpec.asRow x17) (GnnSpec.asRow x18) := by
  refine state_of_reads (val_main_v128 (F := Ideal) x0 x1 x2 x3 x4 x5 x6 x7 x8 x9 x10 x11 x12 x13 x14 x15 x16 x17 x18) (val_main_v120 (F := Ideal) x0 x1 x2 x3 x4 x5 x6 x7 x8 x9 x10 x11 x12 x13 x14 x15 x16 x17 x18) (val_main_v58 (F := Ideal) x0 x1 x2 x3 x4 x5 x6 x7 x8 x9 x10) (val_main_v100 (F := Ideal) x0 x1 x2 x3 x4 x5 x6 x7 x8 x9 x10 x11 x12 x13 x14 x15 x16 x17 x18) (val_main_v66 (F := Ideal) x0 x1 x2 x3 x4 x5 x6 x7 x8 x9 x10) (val_main_v93 (F := Ideal) x0 x1 x2 x3 x4 x5 x6 x7 x8 x9 x10 x11 x12 x13 x14)
    x15 x16 (GnnSpec.asRow x17) (GnnSpec.asRow x18) (ref_gate2 x0 x1 x2 x3 x4 x5 x6 x7 x8 x9 x10 x11 x12 x13 x14 x15 x16 x17 x18) (ref_cell2 x0 x1 x2 x3 x4 x5 x6 x7 x8 x9 x10 x11 x12 x13 x14 x15 x16 x17 x18) (fun n j => ?_)
  simp only [val_main_v128_apply, val_main_v126_apply, val_main_v125_apply, val_main_cst_20_apply, val_main_v124_apply, val_main_v123_apply, val_main_cst_19_apply, val_main_v122_apply, val_main_v121_apply, val_main_v104_apply, val_main_v127_apply,
    idx_v104, Ideal.ofBits_def, Ideal.ofBits_one_f32]
  rfl

/-- The reference's result, read one operation at a time, is the read-out of its step-2 node states. -/
theorem ref_out (i : S50.Idx) :
    val_main_v144 (F := Ideal) x0 x1 x2 x3 x4 x5 x6 x7 x8 x9 x10 x11 x12 x13 x14 x15 x16 x17 x18 x19 x20 x21 x22 i
      = GnnSpec.readK (N := 50000) (val_main_v128 (F := Ideal) x0 x1 x2 x3 x4 x5 x6 x7 x8 x9 x10 x11 x12 x13 x14 x15 x16 x17 x18) x19 (GnnSpec.asRow x20) x21 (GnnSpec.asRow x22)
          (ix2 (0 : Fin 1) (i 0)) := by
  refine read_of_reads (val_main_v144 (F := Ideal) x0 x1 x2 x3 x4 x5 x6 x7 x8 x9 x10 x11 x12 x13 x14 x15 x16 x17 x18 x19 x20 x21 x22) (val_main_v128 (F := Ideal) x0 x1 x2 x3 x4 x5 x6 x7 x8 x9 x10 x11 x12 x13 x14 x15 x16 x17 x18) x19 x21 x20 x22 (fun j => ?_) i
  simp only [val_main_v144_apply, val_main_cst_23_apply, val_main_v143_apply, val_main_v138_apply, val_main_v137_apply, val_main_cst_22_apply,
    val_main_v136_apply, val_main_v135_apply, val_main_cst_21_apply, val_main_v134_apply, val_main_v133_apply, val_main_v132_apply,
    val_main_v129_apply, val_main_v131_apply, val_main_v130_apply, val_main_v142_apply, val_main_v139_apply, val_main_v141_apply,
    val_main_v140_apply, idx_v144, lidx_v129, ridx_v129, lidx_v139, ridx_v139, idx_v131, idx_v130, idx_v141, idx_v140,
    Ideal.ofBits_def, Ideal.ofBits_one_f32, Ideal.ofBits_zero_f32]
  rfl

end Cert.ReferenceIdeal.RefSide

end
-- ==== Proof.Stages.lean ====
import proofs.«420294_j24077586661648_2_alg».proof.Proof.Run
import proofs.«420294_j24077586661648_2_alg».proof.Proof.RefSide

noncomputable section

namespace Cert.KernelIdeal.Hand

open Cert.KernelIdeal Cert.KernelIdeal.Gen
open Cert.ReferenceIdeal.ReadP
open Idealize.ShloMosaic Idealize.ShloMosaic.TcCoe
open Idealize.SL Idealize.SL.Sem

variable (m : (ℓ : Loc nD τ sig) → Buf (Elt Ideal) ℓ) (c : Dev nD)

abbrev ar (b : Ref sig .tc) : Buf (Elt Ideal) ((c.tc : Thread nD τ).loc b) := m ((c.tc : Thread nD τ).loc b)

abbrev r3 := val_main_v3 (F := Ideal) (ar m c main_arg2)
abbrev r1 := val_main_v1 (F := Ideal) (ar m c main_arg2)

abbrev r11 := val_main_v11 (F := Ideal) (ar m c main_arg0) (ar m c main_arg2)
abbrev r18 := val_main_v18 (F := Ideal) (ar m c main_arg0) (ar m c main_arg2)
abbrev r28 := val_main_v28 (F := Ideal) (ar m c main_arg0) (ar m c main_arg1) (ar m c main_arg2) (ar m c main_arg3) (ar m c main_arg4) (ar m c main_arg5) (ar m c main_arg6)
abbrev r31 := val_main_v31 (F := Ideal) (ar m c main_arg0) (ar m c main_arg1) (ar m c main_arg2) (ar m c main_arg3) (ar m c main_arg4) (ar m c main_arg5) (ar m c main_arg6)
abbrev r58 := val_main_v58 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10)
abbrev r66 := val_main_v66 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10)

abbrev r73 := val_main_v73 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10)
abbrev r80 := val_main_v80 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10)
abbrev r90 := val_main_v90 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14)
abbrev r93 := val_main_v93 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14)
abbrev r120 := val_main_v120 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) (ar m c main_arg16) (ar m c main_arg17) (ar m c main_arg18)
abbrev r128 := val_main_v128 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) (ar m c main_arg16) (ar m c main_arg17) (ar m c main_arg18)

abbrev r144 := val_main_v144 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) (ar m c main_arg16) (ar m c main_arg17) (ar m c main_arg18) (ar m c main_arg19) (ar m c main_arg20) (ar m c main_arg21) (ar m c main_arg22)

end Cert.KernelIdeal.Hand

end
-- ==== Proof.HostSide.lean ====
import proofs.«420294_j24077586661648_2_alg».proof.Proof.Gen.KernelIdeal.Launch
import proofs.«420294_j24077586661648_2_alg».proof.Pre_finite_inputs
import proofs.«420294_j24077586661648_2_alg».proof.Defs
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.ValueLayout

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem

def InRange (e : BitVec 32) : Prop := 0 ≤ e.toInt ∧ e.toInt < 50000

theorem InRange.toNat_lt {e : BitVec 32} (h : InRange e) : e.toNat < 50000 := by
  obtain ⟨h0, h1⟩ := h
  have hc := BitVec.toInt_eq_toNat_cond e
  have hl := e.isLt
  split at hc <;> omega

theorem sge_zero {e : BitVec 32} : IntOp.cmpi .sge e 0#32 = 1#1 ↔ 0 ≤ e.toInt := by
  unfold IntOp.cmpi
  rw [StableHlo.Predicate.ofBool_eq_one_iff]
  simp only [BitVec.sle, decide_eq_true_eq]
  rw [show (0#32 : BitVec 32).toInt = 0 from by decide]

theorem slt_n {e : BitVec 32} : IntOp.cmpi .slt e 50000#32 = 1#1 ↔ e.toInt < 50000 := by
  unfold IntOp.cmpi
  rw [StableHlo.Predicate.ofBool_eq_one_iff]
  simp only [BitVec.slt, decide_eq_true_eq]
  rw [show (50000#32 : BitVec 32).toInt = 50000 from by decide]

theorem slt_zero_of_range {e : BitVec 32} (h : InRange e) : IntOp.cmpi .slt e 0#32 = 0#1 := by
  have h0 : ¬ e.toInt < (0#32 : BitVec 32).toInt := by
    rw [show (0#32 : BitVec 32).toInt = 0 from by decide]; exact not_lt.2 h.1
  show BitVec.ofBool (e.slt 0#32) = 0#1
  rw [BitVec.slt, decide_eq_false h0]; rfl

theorem foldl_andi_all_one {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, h => by
    refine foldl_andi_all_one f l _ ?_ fun n hn => h n (List.mem_cons_of_mem _ hn)
    show IntOp.andi init (f a) = 1#1
    rw [hi, h a List.mem_cons_self]; rfl

theorem idx_range [Cert.Pre_finite_inputs.Facts] (a0 : FVec Ideal S50000x64 .f32) (a1 : FVec Ideal S800000x32 .f32) (a2 : IVec S2x800000 32) (a3 : FVec Ideal S160x64 .f32) (a4 : FVec Ideal S64 .f32) (a5 : FVec Ideal S64x64 .f32) (a6 : FVec Ideal S64 .f32) (a7 : FVec Ideal S64x256 .f32) (a8 : FVec Ideal S64x256 .f32) (a9 : FVec Ideal S256 .f32) (a10 : FVec Ideal S256 .f32) (a11 : FVec Ideal S160x64 .f32) (a12 : FVec Ideal S64 .f32) (a13 : FVec Ideal S64x64 .f32) (a14 : FVec Ideal S64 .f32) (a15 : FVec Ideal S64x256 .f32) (a16 : FVec Ideal S64x256 .f32) (a17 : FVec Ideal S256 .f32) (a18 : FVec Ideal S256 .f32) (a19 : FVec Ideal S64x50 .f32) (a20 : FVec Ideal S50 .f32) (a21 : FVec Ideal S64x50 .f32) (a22 : FVec Ideal S50 .f32)
    (h : Cert.Pre_finite_inputs.fn (F := Ideal) a0 a1 a2 a3 a4 a5 a6 a7 a8 a9 a10 a11 a12 a13 a14 a15 a16 a17 a18 a19 a20 a21 a22 = fun _ => 1#1) (i : S2x800000.Idx) :
    InRange (a2 i) := by
  haveI : Subsingleton Cert.Pre_finite_inputs.S_.Idx := ⟨fun a b => funext fun d => d.elim0⟩
  have e := congrFun h ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6] at e
  obtain ⟨e1, e115⟩ := IntOp.andi_eq_one.1 e
  obtain ⟨-, e111⟩ := IntOp.andi_eq_one.1 e1
  have hge : IntOp.cmpi .sge (a2 i) 0#32 = 1#1 := Host.reduce_andi_all _ _ _ _ _ e111 i
  have hlt : IntOp.cmpi .slt (a2 i) 50000#32 = 1#1 := Host.reduce_andi_all _ _ _ _ _ e115 i
  exact ⟨sge_zero.1 hge, slt_n.1 hlt⟩

/-- Under the precondition every entry of the index array lies in [0, 50000). -/
theorem idx_range_of_pre [Cert.Pre_finite_inputs.Facts] (m : (ℓ : Loc nD τ sig) → Buf (Elt Ideal) ℓ) (h : Cert.Pre_KernelIdeal m)
    (c : Dev nD) (i : S2x800000.Idx) :
    InRange ((m ((c.tc : Thread nD τ).loc main_arg2) : IVec S2x800000 32) i) := idx_range _ _ _ _ _ _ _ _ _ _ _ _ _ _ _ _ _ _ _ _ _ _ _ (h c) i

section Take

variable {F : FTy → Type} [FloatOps F]

abbrev zeroIdx : IVec S800000 32 := broadcastInDim S800000 ![] bcast_S_S800000 (constantI S_ 32 0#32)
abbrev nIdx : IVec S800000 32 := broadcastInDim S800000 ![] bcast_S_S800000 (constantI S_ 32 50000#32)

abbrev wrapIdx (idx : IVec S800000 32) : IVec S800000 32 := select (cmpi .slt idx zeroIdx) (addi idx nIdx) idx

def takeMask (idx : IVec S800000 32) : IVec S800000 1 :=
  Host.reduce IntOp.andi
    (andi (cmpi .sge (broadcastInDim S800000x1 ![0] bcast_S800000_S800000x1_0 (wrapIdx idx)) (broadcastInDim S800000x1 ![] bcast_S_S800000x1 (constantI S_ 32 0#32)))
      (cmpi .sle (broadcastInDim S800000x1 ![0] bcast_S800000_S800000x1_0 (wrapIdx idx))
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

def takeFn (d : GatherDims S50000x64 S800000x1 S800000x64) (x : FVec F S50000x64 .f32) (idx : IVec S800000 32) : FVec F S800000x64 .f32 :=
  select (broadcastInDim S800000x64 ![0] bcast_S800000_S800000x64_0 (takeMask idx)) (Host.gather d x (broadcastInDim S800000x1 ![0] bcast_S800000_S800000x1_0 (wrapIdx idx)))
    (broadcastInDim S800000x64 ![] bcast_S_S800000x64 (constant S_ .f32 0x7FC00000#32))

theorem select_rows_one {α : Type} (msk : IVec S800000 1) (hm : ∀ p, msk p = 1#1) (a b : S800000x64.Idx → α) :
    select (broadcastInDim S800000x64 ![0] bcast_S800000_S800000x64_0 msk) a b = a := by
  funext j
  show Scalar.select (msk _) (a j) (b j) = a j
  rw [hm, select_one]

theorem wrapIdx_eq (idx : IVec S800000 32) (hr : ∀ p, InRange (idx p)) : wrapIdx idx = idx := by
  funext p
  show Scalar.select (IntOp.cmpi .slt (idx p) 0#32) _ (idx p) = idx p
  rw [slt_zero_of_range (hr p), select_zero]

theorem takeMask_one (idx : IVec S800000 32) (hr : ∀ p, InRange (idx p)) (p : S800000.Idx) : takeMask idx p = 1#1 := by
  have hv5 : ∀ i, InRange ((broadcastInDim S800000x1 ![0] bcast_S800000_S800000x1_0 (wrapIdx idx) : IVec S800000x1 32) i) := fun i => by
    rw [wrapIdx_eq idx hr]; exact hr _
  unfold takeMask
  rw [Host.reduce_eq_foldl]
  refine foldl_andi_all_one _ _ _ rfl fun i _ => ?_
  have hi := (hv5 i).toNat_lt
  have h7 : IntOp.cmpi .sge ((broadcastInDim S800000x1 ![0] bcast_S800000_S800000x1_0 (wrapIdx idx) : IVec S800000x1 32) i) 0#32 = 1#1 :=
    (StableHlo.Predicate.sge_iff_toNat (by omega) (by decide)).2 (Nat.zero_le _)
  have h10 : IntOp.cmpi .sle ((broadcastInDim S800000x1 ![0] bcast_S800000_S800000x1_0 (wrapIdx idx) : IVec S800000x1 32) i) 49999#32 = 1#1 :=
    (StableHlo.Predicate.sle_iff_toNat (by omega) (by decide)).2 (by show _ ≤ 49999; omega)
  show IntOp.andi (IntOp.cmpi .sge _ 0#32) (IntOp.cmpi .sle _ 49999#32) = 1#1
  rw [h7, h10]; rfl

theorem takeFn_eq (d : GatherDims S50000x64 S800000x1 S800000x64) (x : FVec F S50000x64 .f32) (idx : IVec S800000 32)
    (hr : ∀ p, InRange (idx p)) :
    takeFn d x idx = Host.gather d x (broadcastInDim S800000x1 ![0] bcast_S800000_S800000x1_0 (wrapIdx idx)) := by
  unfold takeFn
  exact select_rows_one _ (takeMask_one idx hr) _ _

theorem takeFn_eq_gather (d : GatherDims S50000x64 S800000x1 S800000x64) (x : FVec F S50000x64 .f32) (idx : IVec S800000 32)
    (hr : ∀ p, InRange (idx p)) :
    takeFn d x idx = Host.gather d x (broadcastInDim S800000x1 ![0] bcast_S800000_S800000x1_0 idx) := by
  rw [takeFn_eq d x idx hr, wrapIdx_eq idx hr]

variable (W : Valuation τ sig (Elt F))

theorem ofBuf_toBuf {T : BufTy} {Val : EltTy → Type} (x : StableHlo.TRef sig T) (v : T.Contents Val) : x.ofBuf (x.toBuf v) = v := by
  obtain ⟨r, h, hd, hu⟩ := x
  subst h
  rfl

attribute [local irreducible] Host.reduce Host.gather in
theorem take0_1 : StableHlo.after hostOps0_1 W (Proc.devRef .tc main_v5) = takeFn gather_S50000x64_S800000x1_S800000x64_1_0_n_n_0_1_164 (W main_arg0) (W main_v3) := by
  dsimp only [hostOps0_1]
  after_results_simp
  repeat rw [ofBuf_toBuf]
  rfl
attribute [local irreducible] Host.reduce Host.gather in
theorem take0_2 : StableHlo.after hostOps0_2 W (Proc.devRef .tc main_v6) = takeFn gather_S50000x64_S800000x1_S800000x64_1_0_n_n_0_1_164 (W main_arg0) (W main_v1) := by
  dsimp only [hostOps0_2]
  after_results_simp
  repeat rw [ofBuf_toBuf]
  rfl
attribute [local irreducible] Host.reduce Host.gather in
theorem take2 : StableHlo.after hostOps2 W (Proc.devRef .tc main_v25) = takeFn gather_S50000x64_S800000x1_S800000x64_1_0_n_n_0_1_164 (W main_v24_0) (W main_v3) := by
  dsimp only [hostOps2]
  after_results_simp
  repeat rw [ofBuf_toBuf]
  rfl
attribute [local irreducible] Host.reduce Host.gather in
theorem take2_1 : StableHlo.after hostOps2_1 W (Proc.devRef .tc main_v26) = takeFn gather_S50000x64_S800000x1_S800000x64_1_0_n_n_0_1_164 (W main_v24_0) (W main_v1) := by
  dsimp only [hostOps2_1]
  after_results_simp
  repeat rw [ofBuf_toBuf]
  rfl

theorem take_eq_gather0_1 (hr : ∀ p, InRange ((W main_v3 : IVec S800000 32) p)) :
    StableHlo.after hostOps0_1 W (Proc.devRef .tc main_v5)
      = Host.gather gather_S50000x64_S800000x1_S800000x64_1_0_n_n_0_1_164 (W main_arg0) (broadcastInDim S800000x1 ![0] bcast_S800000_S800000x1_0 (wrapIdx (W main_v3))) := by
  rw [take0_1]; exact takeFn_eq _ _ _ hr
theorem take_eq_gather0_2 (hr : ∀ p, InRange ((W main_v1 : IVec S800000 32) p)) :
    StableHlo.after hostOps0_2 W (Proc.devRef .tc main_v6)
      = Host.gather gather_S50000x64_S800000x1_S800000x64_1_0_n_n_0_1_164 (W main_arg0) (broadcastInDim S800000x1 ![0] bcast_S800000_S800000x1_0 (wrapIdx (W main_v1))) := by
  rw [take0_2]; exact takeFn_eq _ _ _ hr
theorem take_eq_gather2 (hr : ∀ p, InRange ((W main_v3 : IVec S800000 32) p)) :
    StableHlo.after hostOps2 W (Proc.devRef .tc main_v25)
      = Host.gather gather_S50000x64_S800000x1_S800000x64_1_0_n_n_0_1_164 (W main_v24_0) (broadcastInDim S800000x1 ![0] bcast_S800000_S800000x1_0 (wrapIdx (W main_v3))) := by
  rw [take2]; exact takeFn_eq _ _ _ hr
theorem take_eq_gather2_1 (hr : ∀ p, InRange ((W main_v1 : IVec S800000 32) p)) :
    StableHlo.after hostOps2_1 W (Proc.devRef .tc main_v26)
      = Host.gather gather_S50000x64_S800000x1_S800000x64_1_0_n_n_0_1_164 (W main_v24_0) (broadcastInDim S800000x1 ![0] bcast_S800000_S800000x1_0 (wrapIdx (W main_v1))) := by
  rw [take2_1]; exact takeFn_eq _ _ _ hr

theorem take_eq_gather0_1' (hr : ∀ p, InRange ((W main_v3 : IVec S800000 32) p)) :
    StableHlo.after hostOps0_1 W (Proc.devRef .tc main_v5)
      = Host.gather gather_S50000x64_S800000x1_S800000x64_1_0_n_n_0_1_164 (W main_arg0) (broadcastInDim S800000x1 ![0] bcast_S800000_S800000x1_0 (W main_v3)) := by
  rw [take0_1]; exact takeFn_eq_gather _ _ _ hr
theorem take_eq_gather0_2' (hr : ∀ p, InRange ((W main_v1 : IVec S800000 32) p)) :
    StableHlo.after hostOps0_2 W (Proc.devRef .tc main_v6)
      = Host.gather gather_S50000x64_S800000x1_S800000x64_1_0_n_n_0_1_164 (W main_arg0) (broadcastInDim S800000x1 ![0] bcast_S800000_S800000x1_0 (W main_v1)) := by
  rw [take0_2]; exact takeFn_eq_gather _ _ _ hr
theorem take_eq_gather2' (hr : ∀ p, InRange ((W main_v3 : IVec S800000 32) p)) :
    StableHlo.after hostOps2 W (Proc.devRef .tc main_v25)
      = Host.gather gather_S50000x64_S800000x1_S800000x64_1_0_n_n_0_1_164 (W main_v24_0) (broadcastInDim S800000x1 ![0] bcast_S800000_S800000x1_0 (W main_v3)) := by
  rw [take2]; exact takeFn_eq_gather _ _ _ hr
theorem take_eq_gather2_1' (hr : ∀ p, InRange ((W main_v1 : IVec S800000 32) p)) :
    StableHlo.after hostOps2_1 W (Proc.devRef .tc main_v26)
      = Host.gather gather_S50000x64_S800000x1_S800000x64_1_0_n_n_0_1_164 (W main_v24_0) (broadcastInDim S800000x1 ![0] bcast_S800000_S800000x1_0 (W main_v1)) := by
  rw [take2_1]; exact takeFn_eq_gather _ _ _ hr

end Take

variable (W : Valuation τ sig (Elt Ideal))

theorem h0_v3_range (hr : ∀ i, InRange ((W main_arg2 : IVec S2x800000 32) i)) (p : S800000.Idx) :
    InRange ((StableHlo.after hostOps0 W (Proc.devRef .tc main_v3) : IVec S800000 32) p) := by
  have e : (StableHlo.after hostOps0 W (Proc.devRef .tc main_v3) : IVec S800000 32) p
      = (W main_arg2 : IVec S2x800000 32) (ix2 (1 : Fin 2) (p 0 : Fin 800000)) := by
    dsimp only [hostOps0]
    after_results
    obtain ⟨k, rfl⟩ : ∃ k, p = ix1 k := ⟨p 0, eq_ix1 p⟩
    show shapeCast S800000 (extractStridedSlice S1x800000 ![1, 0] (W main_arg2 : IVec S2x800000 32) slices_S2x800000_S1x800000_1_0)
      shapeCasts_S1x800000_S800000 (ix1 k) = _
    rw [shapeCast_1a_a_apply, slice2_axis0_eq]; rfl
  rw [e]; exact hr _
theorem h0_v1_range (hr : ∀ i, InRange ((W main_arg2 : IVec S2x800000 32) i)) (p : S800000.Idx) :
    InRange ((StableHlo.after hostOps0 W (Proc.devRef .tc main_v1) : IVec S800000 32) p) := by
  have e : (StableHlo.after hostOps0 W (Proc.devRef .tc main_v1) : IVec S800000 32) p
      = (W main_arg2 : IVec S2x800000 32) (ix2 (0 : Fin 2) (p 0 : Fin 800000)) := by
    dsimp only [hostOps0]
    after_results
    obtain ⟨k, rfl⟩ : ∃ k, p = ix1 k := ⟨p 0, eq_ix1 p⟩
    show shapeCast S800000 (extractStridedSlice S1x800000 ![0, 0] (W main_arg2 : IVec S2x800000 32) slices_S2x800000_S1x800000_0_0)
      shapeCasts_S1x800000_S800000 (ix1 k) = _
    rw [shapeCast_1a_a_apply, slice2_axis0_eq]; rfl
  rw [e]; exact hr _

end Cert.KernelIdeal.HostSide

end
-- ==== Proof.HostWeights.lean ====
import proofs.«420294_j24077586661648_2_alg».proof.Proof.Gen.KernelIdeal.Launch
import proofs.«420294_j24077586661648_2_alg».proof.Proof.Spec
import Idealize.ShloMosaic.Lib.StableHlo.Run
import Idealize.ShloMosaic.Lib.ValueIdx
import Idealize.ShloMosaic.Lib.ValueLayout

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem

theorem truncf_eq {s : Shape} {φ ψ : FTy} (a : FVec Ideal s φ) (h : ψ.bits < φ.bits) : (truncf ψ a h : s.Idx → EReal) = a := rfl

theorem sliceRows_eq {R C r : Nat} (off : Nat) (X : GnnSpec.Mat R C) (h : (⟨2, ![R, C]⟩ : Shape).Slices ![off, 0] ⟨2, ![r, C]⟩)
    (hle : off + r ≤ R) : extractStridedSlice ⟨2, ![r, C]⟩ ![off, 0] X h = GnnSpec.sliceRows r off hle X := by
  funext i
  obtain ⟨a, b, rfl⟩ : ∃ a b, i = ix2 a b := ⟨i 0, i 1, eq_ix2 i⟩
  rw [slice2_axis0_eq]; rfl

theorem asRow_eq {n : Nat} (b : GnnSpec.Vc n) (h : (⟨1, ![n]⟩ : Shape).ShapeCasts ⟨2, ![1, n]⟩) :
    shapeCast ⟨2, ![1, n]⟩ b h = GnnSpec.asRow b := by
  funext i
  obtain ⟨u, k, rfl⟩ : ∃ u k, i = ix2 u k := ⟨i 0, i 1, eq_ix2 i⟩
  rw [shapeCast_a_1a_apply]; rfl

theorem row_eq {α : Type} {n : Nat} (x : (⟨2, ![1, n]⟩ : Shape).Idx → α) (h : (⟨2, ![1, n]⟩ : Shape).ShapeCasts ⟨1, ![n]⟩) :
    shapeCast ⟨1, ![n]⟩ x h = fun i => x (ix2 (0 : Fin 1) (i 0 : Fin n)) := by
  funext i
  obtain ⟨k, rfl⟩ : ∃ k, i = ix1 k := ⟨i 0, eq_ix1 i⟩
  rw [shapeCast_1a_a_apply]; rfl

variable (W : Valuation τ sig (Elt Ideal))

theorem h0_v3 : (StableHlo.after hostOps0 W (Proc.devRef .tc main_v3) : IVec S800000 32)
    = fun i => (W main_arg2 : IVec S2x800000 32) (ix2 (1 : Fin 2) (i 0 : Fin 800000)) := by
  dsimp only [hostOps0]
  after_results
  refine (row_eq _ _).trans ?_
  funext i
  exact (slice2_axis0_eq (n0 := 2) (n1 := 800000) (m := 1) 1 (W main_arg2 : IVec S2x800000 32) slices_S2x800000_S1x800000_1_0 (0 : Fin 1) (i 0 : Fin 800000)).trans rfl

theorem h0_v1 : (StableHlo.after hostOps0 W (Proc.devRef .tc main_v1) : IVec S800000 32)
    = fun i => (W main_arg2 : IVec S2x800000 32) (ix2 (0 : Fin 2) (i 0 : Fin 800000)) := by
  dsimp only [hostOps0]
  after_results
  refine (row_eq _ _).trans ?_
  funext i
  exact (slice2_axis0_eq (n0 := 2) (n1 := 800000) (m := 1) 0 (W main_arg2 : IVec S2x800000 32) slices_S2x800000_S1x800000_0_0 (0 : Fin 1) (i 0 : Fin 800000)).trans rfl

theorem h0_v4 : (StableHlo.after hostOps0 W (Proc.devRef .tc main_v4) : GnnSpec.Mat 50000 64) = fun _ => (0 : EReal) := by
  dsimp only [hostOps0]
  after_results
  funext i
  show Ideal.ofBits .f32 0x00000000#32 = 0
  simp [Ideal.ofBits, Ideal.ieee]

theorem h0_3_v8 : (StableHlo.after hostOps0_3 W (Proc.devRef .tc main_v8) : GnnSpec.Mat 64 64) = GnnSpec.sliceRows 64 0 (by decide) (W main_arg3) := by
  dsimp only [hostOps0_3]
  after_results
  exact (truncf_eq (φ := .f32) (ψ := .bf16) _ bitsLt_bf16_f32).trans (sliceRows_eq _ _ _ _)
theorem h0_3_v10 : (StableHlo.after hostOps0_3 W (Proc.devRef .tc main_v10) : GnnSpec.Mat 64 64) = GnnSpec.sliceRows 64 64 (by decide) (W main_arg3) := by
  dsimp only [hostOps0_3]
  after_results
  exact (truncf_eq (φ := .f32) (ψ := .bf16) _ bitsLt_bf16_f32).trans (sliceRows_eq _ _ _ _)
theorem h0_3_v12 : (StableHlo.after hostOps0_3 W (Proc.devRef .tc main_v12) : GnnSpec.Mat 32 64) = GnnSpec.sliceRows 32 128 (by decide) (W main_arg3) := by
  dsimp only [hostOps0_3]
  after_results
  exact (truncf_eq (φ := .f32) (ψ := .bf16) _ bitsLt_bf16_f32).trans (sliceRows_eq _ _ _ _)
theorem h0_3_v13 : (StableHlo.after hostOps0_3 W (Proc.devRef .tc main_v13) : GnnSpec.Mat 1 64) = GnnSpec.asRow (W main_arg4) := by
  dsimp only [hostOps0_3]
  after_results
  exact asRow_eq _ _
theorem h0_3_v14 : (StableHlo.after hostOps0_3 W (Proc.devRef .tc main_v14) : GnnSpec.Mat 64 64) = W main_arg5 := by
  dsimp only [hostOps0_3]
  after_results
  exact truncf_eq _ _
theorem h0_3_v15 : (StableHlo.after hostOps0_3 W (Proc.devRef .tc main_v15) : GnnSpec.Mat 1 64) = GnnSpec.asRow (W main_arg6) := by
  dsimp only [hostOps0_3]
  after_results
  exact asRow_eq _ _

theorem h2_2_v28 : (StableHlo.after hostOps2_2 W (Proc.devRef .tc main_v28) : GnnSpec.Mat 64 64) = GnnSpec.sliceRows 64 0 (by decide) (W main_arg11) := by
  dsimp only [hostOps2_2]
  after_results
  exact (truncf_eq (φ := .f32) (ψ := .bf16) _ bitsLt_bf16_f32).trans (sliceRows_eq _ _ _ _)
theorem h2_2_v30 : (StableHlo.after hostOps2_2 W (Proc.devRef .tc main_v30) : GnnSpec.Mat 64 64) = GnnSpec.sliceRows 64 64 (by decide) (W main_arg11) := by
  dsimp only [hostOps2_2]
  after_results
  exact (truncf_eq (φ := .f32) (ψ := .bf16) _ bitsLt_bf16_f32).trans (sliceRows_eq _ _ _ _)
theorem h2_2_v32 : (StableHlo.after hostOps2_2 W (Proc.devRef .tc main_v32) : GnnSpec.Mat 32 64) = GnnSpec.sliceRows 32 128 (by decide) (W main_arg11) := by
  dsimp only [hostOps2_2]
  after_results
  exact (truncf_eq (φ := .f32) (ψ := .bf16) _ bitsLt_bf16_f32).trans (sliceRows_eq _ _ _ _)
theorem h2_2_v33 : (StableHlo.after hostOps2_2 W (Proc.devRef .tc main_v33) : GnnSpec.Mat 1 64) = GnnSpec.asRow (W main_arg12) := by
  dsimp only [hostOps2_2]
  after_results
  exact asRow_eq _ _
theorem h2_2_v34 : (StableHlo.after hostOps2_2 W (Proc.devRef .tc main_v34) : GnnSpec.Mat 64 64) = W main_arg13 := by
  dsimp only [hostOps2_2]
  after_results
  exact truncf_eq _ _
theorem h2_2_v35 : (StableHlo.after hostOps2_2 W (Proc.devRef .tc main_v35) : GnnSpec.Mat 1 64) = GnnSpec.asRow (W main_arg14) := by
  dsimp only [hostOps2_2]
  after_results
  exact asRow_eq _ _

theorem h1_v19 : StableHlo.after hostOps1 W (Proc.devRef .tc main_v19)
    = Host.scatterAdd scatter_S50000x64_S800000x1_S800000x64_1_0_0_1 (broadcastInDim S50000x64 ![] bcast_S_S50000x64 (constant (F := Ideal) S_ .f32 0x00000000#32))
        (broadcastInDim S800000x1 ![0] bcast_S800000_S800000x1_0 (W main_v3)) (W main_v16) := by
  dsimp only [hostOps1]
  after_results
theorem h1_v20 : (StableHlo.after hostOps1 W (Proc.devRef .tc main_v20) : GnnSpec.Mat 64 256) = W main_arg7 := by
  dsimp only [hostOps1]
  after_results
  exact truncf_eq _ _
theorem h1_v21 : (StableHlo.after hostOps1 W (Proc.devRef .tc main_v21) : GnnSpec.Mat 64 256) = W main_arg8 := by
  dsimp only [hostOps1]
  after_results
  exact truncf_eq _ _
theorem h1_v22 : (StableHlo.after hostOps1 W (Proc.devRef .tc main_v22) : GnnSpec.Mat 1 256) = GnnSpec.asRow (W main_arg9) := by
  dsimp only [hostOps1]
  after_results
  exact asRow_eq _ _
theorem h1_v23 : (StableHlo.after hostOps1 W (Proc.devRef .tc main_v23) : GnnSpec.Mat 1 256) = GnnSpec.asRow (W main_arg10) := by
  dsimp only [hostOps1]
  after_results
  exact asRow_eq _ _

theorem h3_v39 : StableHlo.after hostOps3 W (Proc.devRef .tc main_v39)
    = Host.scatterAdd scatter_S50000x64_S800000x1_S800000x64_1_0_0_1 (broadcastInDim S50000x64 ![] bcast_S_S50000x64 (constant (F := Ideal) S_ .f32 0x00000000#32))
        (broadcastInDim S800000x1 ![0] bcast_S800000_S800000x1_0 (W main_v3)) (W main_v36) := by
  dsimp only [hostOps3]
  after_results
theorem h3_v40 : (StableHlo.after hostOps3 W (Proc.devRef .tc main_v40) : GnnSpec.Mat 64 256) = W main_arg15 := by
  dsimp only [hostOps3]
  after_results
  exact truncf_eq _ _
theorem h3_v41 : (StableHlo.after hostOps3 W (Proc.devRef .tc main_v41) : GnnSpec.Mat 64 256) = W main_arg16 := by
  dsimp only [hostOps3]
  after_results
  exact truncf_eq _ _
theorem h3_v42 : (StableHlo.after hostOps3 W (Proc.devRef .tc main_v42) : GnnSpec.Mat 1 256) = GnnSpec.asRow (W main_arg17) := by
  dsimp only [hostOps3]
  after_results
  exact asRow_eq _ _
theorem h3_v43 : (StableHlo.after hostOps3 W (Proc.devRef .tc main_v43) : GnnSpec.Mat 1 256) = GnnSpec.asRow (W main_arg18) := by
  dsimp only [hostOps3]
  after_results
  exact asRow_eq _ _

theorem h4_v45 : (StableHlo.after hostOps4 W (Proc.devRef .tc main_v45) : GnnSpec.Mat 64 50) = W main_arg19 := by
  dsimp only [hostOps4]
  after_results
  exact truncf_eq _ _
theorem h4_v46 : (StableHlo.after hostOps4 W (Proc.devRef .tc main_v46) : GnnSpec.Mat 1 50) = GnnSpec.asRow (W main_arg20) := by
  dsimp only [hostOps4]
  after_results
  exact asRow_eq _ _
theorem h4_v47 : (StableHlo.after hostOps4 W (Proc.devRef .tc main_v47) : GnnSpec.Mat 64 50) = W main_arg21 := by
  dsimp only [hostOps4]
  after_results
  exact truncf_eq _ _
theorem h4_v48 : (StableHlo.after hostOps4 W (Proc.devRef .tc main_v48) : GnnSpec.Mat 1 50) = GnnSpec.asRow (W main_arg22) := by
  dsimp only [hostOps4]
  after_results
  exact asRow_eq _ _

theorem h5_v50 : (StableHlo.after hostOps5 W (Proc.devRef .tc main_v50) : GnnSpec.Vc 50)
    = fun i => (W main_v49 : GnnSpec.Mat 1 50) (ix2 (0 : Fin 1) (i 0 : Fin 50)) := by
  dsimp only [hostOps5]
  after_results
  exact row_eq _ _

end Cert.KernelIdeal.HostSide

end
-- ==== Proof.RefTake.lean ====
import proofs.«420294_j24077586661648_2_alg».proof.Proof.RefSide

noncomputable section

namespace Cert.ReferenceIdeal.RefSide

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx
open scoped BigOperators

variable (x0 : (⟨S50000x64, .f32⟩ : BufTy).Contents (Elt Ideal)) (x1 : (⟨S800000x32, .f32⟩ : BufTy).Contents (Elt Ideal))
  (x2 : (⟨S2x800000, .i32⟩ : BufTy).Contents (Elt Ideal)) (x3 : (⟨S160x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 x8 : (⟨S64x256, .f32⟩ : BufTy).Contents (Elt Ideal))
  (x9 x10 : (⟨S256, .f32⟩ : BufTy).Contents (Elt Ideal)) (x11 : (⟨S160x64, .f32⟩ : BufTy).Contents (Elt Ideal))
  (x12 : (⟨S64, .f32⟩ : BufTy).Contents (Elt Ideal)) (x13 : (⟨S64x64, .f32⟩ : BufTy).Contents (Elt Ideal))
  (x14 : (⟨S64, .f32⟩ : BufTy).Contents (Elt Ideal)) (x15 x16 : (⟨S64x256, .f32⟩ : BufTy).Contents (Elt Ideal))
  (x17 x18 : (⟨S256, .f32⟩ : BufTy).Contents (Elt Ideal)) (x19 : (⟨S64x50, .f32⟩ : BufTy).Contents (Elt Ideal))
  (x20 : (⟨S50, .f32⟩ : BufTy).Contents (Elt Ideal)) (x21 : (⟨S64x50, .f32⟩ : BufTy).Contents (Elt Ideal))
  (x22 : (⟨S50, .f32⟩ : BufTy).Contents (Elt Ideal))

theorem ref_dst : val_main_v3 (F := Ideal) x2 = fun i => x2 (ix2 (1 : Fin 2) (i 0 : Fin 800000)) := by
  funext i
  rw [val_main_v3_apply, val_main_v2_apply]
  refine congrArg x2 (idx2_eq _ _ rfl (Fin.ext ?_))
  exact Nat.mod_eq_of_lt (i 0).isLt

theorem ref_src : val_main_v1 (F := Ideal) x2 = fun i => x2 (ix2 (0 : Fin 2) (i 0 : Fin 800000)) := by
  funext i
  rw [val_main_v1_apply, val_main_v0_apply]
  refine congrArg x2 (idx2_eq _ _ rfl (Fin.ext ?_))
  exact Nat.mod_eq_of_lt (i 0).isLt

theorem ref_take11 :
    val_main_v11 (F := Ideal) x0 x2
      = Host.gather gather_S50000x64_S800000x1_S800000x64_1_0_n_n_0_1_164 x0
          (broadcastInDim S800000x1 ![0] bcast_S800000_S800000x1_0
            (select (cmpi .slt (val_main_v3 (F := Ideal) x2) (broadcastInDim S800000 ![] bcast_S_S800000 (constantI S_ 32 0#32))) (addi (val_main_v3 (F := Ideal) x2) (broadcastInDim S800000 ![] bcast_S_S800000 (constantI S_ 32 50000#32))) (val_main_v3 (F := Ideal) x2))) := rfl

theorem ref_take18 :
    val_main_v18 (F := Ideal) x0 x2
      = Host.gather gather_S50000x64_S800000x1_S800000x64_1_0_n_n_0_1_164 x0
          (broadcastInDim S800000x1 ![0] bcast_S800000_S800000x1_0
            (select (cmpi .slt (val_main_v1 (F := Ideal) x2) (broadcastInDim S800000 ![] bcast_S_S800000 (constantI S_ 32 0#32))) (addi (val_main_v1 (F := Ideal) x2) (broadcastInDim S800000 ![] bcast_S_S800000 (constantI S_ 32 50000#32))) (val_main_v1 (F := Ideal) x2))) := rfl

theorem ref_take73 :
    val_main_v73 (F := Ideal) x0 x1 x2 x3 x4 x5 x6 x7 x8 x9 x10
      = Host.gather gather_S50000x64_S800000x1_S800000x64_1_0_n_n_0_1_164 (val_main_v66 (F := Ideal) x0 x1 x2 x3 x4 x5 x6 x7 x8 x9 x10)
          (broadcastInDim S800000x1 ![0] bcast_S800000_S800000x1_0
            (select (cmpi .slt (val_main_v3 (F := Ideal) x2) (broadcastInDim S800000 ![] bcast_S_S800000 (constantI S_ 32 0#32))) (addi (val_main_v3 (F := Ideal) x2) (broadcastInDim S800000 ![] bcast_S_S800000 (constantI S_ 32 50000#32))) (val_main_v3 (F := Ideal) x2))) := rfl

theorem ref_take80 :
    val_main_v80 (F := Ideal) x0 x1 x2 x3 x4 x5 x6 x7 x8 x9 x10
      = Host.gather gather_S50000x64_S800000x1_S800000x64_1_0_n_n_0_1_164 (val_main_v66 (F := Ideal) x0 x1 x2 x3 x4 x5 x6 x7 x8 x9 x10)
          (broadcastInDim S800000x1 ![0] bcast_S800000_S800000x1_0
            (select (cmpi .slt (val_main_v1 (F := Ideal) x2) (broadcastInDim S800000 ![] bcast_S_S800000 (constantI S_ 32 0#32))) (addi (val_main_v1 (F := Ideal) x2) (broadcastInDim S800000 ![] bcast_S_S800000 (constantI S_ 32 50000#32))) (val_main_v1 (F := Ideal) x2))) := rfl

theorem ref_scatter31 :
    val_main_v31 (F := Ideal) x0 x1 x2 x3 x4 x5 x6
      = Host.scatterAdd scatter_S50000x64_S800000x1_S800000x64_1_0_0_1 (broadcastInDim S50000x64 ![] bcast_S_S50000x64 (constant (F := Ideal) S_ .f32 0x00000000#32))
          (broadcastInDim S800000x1 ![0] bcast_S800000_S800000x1_0 (val_main_v3 (F := Ideal) x2)) (val_main_v28 (F := Ideal) x0 x1 x2 x3 x4 x5 x6) := rfl

theorem ref_scatter93 :
    val_main_v93 (F := Ideal) x0 x1 x2 x3 x4 x5 x6 x7 x8 x9 x10 x11 x12 x13 x14
      = Host.scatterAdd scatter_S50000x64_S800000x1_S800000x64_1_0_0_1 (broadcastInDim S50000x64 ![] bcast_S_S50000x64 (constant (F := Ideal) S_ .f32 0x00000000#32))
          (broadcastInDim S800000x1 ![0] bcast_S800000_S800000x1_0 (val_main_v3 (F := Ideal) x2)) (val_main_v90 (F := Ideal) x0 x1 x2 x3 x4 x5 x6 x7 x8 x9 x10 x11 x12 x13 x14) := rfl

end Cert.ReferenceIdeal.RefSide

end
-- ==== Proof.EdgeVal.lean ====
import proofs.«420294_j24077586661648_2_alg».proof.Proof.Spec
import proofs.«420294_j24077586661648_2_alg».proof.Proof.EdgeA
import proofs.«420294_j24077586661648_2_alg».proof.Proof.EdgeB
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem lhs_dot64_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_dot64_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_dot64_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_dot64_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

theorem matmul_dot64_apply (l : FVec Ideal S8000x64 .bf16) (r : FVec Ideal S64x64 .bf16) (p : Fin 8000) (q : Fin 64) :
    matmul dot_S8000x64_S64x64_S8000x64_1_0_0_1_n_n none l r (constant (F := Ideal) S8000x64 .f32 0x00000000#32) (ix2 p q)
      = ∑ k : Fin 64, l (ix2 p k) * r (ix2 k q) := by
  show FloatOps.matmul dot_S8000x64_S64x64_S8000x64_1_0_0_1_n_n none l r (constant (F := Ideal) S8000x64 .f32 0x00000000#32) (ix2 p q) = _
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact lhs_dot64_0 _ _
    | ⟨1, _⟩ => exact (lhs_dot64_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rhs_dot64_0 _ _).trans hk
    | ⟨1, _⟩ => exact rhs_dot64_1 _ _)
  rw [el, er]

theorem lhs_dot32_0 (i : S8000x64.Idx) (q : dot_S8000x32_S32x64_S8000x64_1_0_0_1_n_n.contr.Idx) :
    (dot_S8000x32_S32x64_S8000x64_1_0_0_1_n_n.lhsIdx i q 0).val = (i 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl
theorem lhs_dot32_1 (i : S8000x64.Idx) (q : dot_S8000x32_S32x64_S8000x64_1_0_0_1_n_n.contr.Idx) :
    (dot_S8000x32_S32x64_S8000x64_1_0_0_1_n_n.lhsIdx i q 1).val = (q ⟨0, by decide⟩).val :=
  dot_S8000x32_S32x64_S8000x64_1_0_0_1_n_n.lhsIdx_val_of_single rfl i q
theorem rhs_dot32_0 (i : S8000x64.Idx) (q : dot_S8000x32_S32x64_S8000x64_1_0_0_1_n_n.contr.Idx) :
    (dot_S8000x32_S32x64_S8000x64_1_0_0_1_n_n.rhsIdx i q 0).val = (q ⟨0, by decide⟩).val :=
  dot_S8000x32_S32x64_S8000x64_1_0_0_1_n_n.rhsIdx_val_of_single rfl i q
theorem rhs_dot32_1 (i : S8000x64.Idx) (q : dot_S8000x32_S32x64_S8000x64_1_0_0_1_n_n.contr.Idx) :
    (dot_S8000x32_S32x64_S8000x64_1_0_0_1_n_n.rhsIdx i q 1).val = (i 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl

theorem matmul_dot32_apply (l : FVec Ideal S8000x32 .bf16) (r : FVec Ideal S32x64 .bf16) (p : Fin 8000) (q : Fin 64) :
    matmul dot_S8000x32_S32x64_S8000x64_1_0_0_1_n_n none l r (constant (F := Ideal) S8000x64 .f32 0x00000000#32) (ix2 p q)
      = ∑ k : Fin 32, l (ix2 p k) * r (ix2 k q) := by
  show FloatOps.matmul dot_S8000x32_S32x64_S8000x64_1_0_0_1_n_n none l r (constant (F := Ideal) S8000x64 .f32 0x00000000#32) (ix2 p q) = _
  rw [Ideal.matmul_constant_zero_apply, ← Equiv.sum_comp (ValueIdx.contrEquiv1 dot_S8000x32_S32x64_S8000x64_1_0_0_1_n_n 32 rfl rfl).symm]
  refine Finset.sum_congr rfl fun k _ => ?_
  have hk := ValueIdx.contrEquiv1_symm_val dot_S8000x32_S32x64_S8000x64_1_0_0_1_n_n 32 rfl rfl k
  have el : dot_S8000x32_S32x64_S8000x64_1_0_0_1_n_n.lhsIdx (ix2 p q) ((ValueIdx.contrEquiv1 dot_S8000x32_S32x64_S8000x64_1_0_0_1_n_n 32 rfl rfl).symm k) = ix2 p k := funext fun a => Fin.ext (by
    match a with
    | ⟨0, _⟩ => exact lhs_dot32_0 _ _
    | ⟨1, _⟩ => exact (lhs_dot32_1 _ _).trans hk)
  have er : dot_S8000x32_S32x64_S8000x64_1_0_0_1_n_n.rhsIdx (ix2 p q) ((ValueIdx.contrEquiv1 dot_S8000x32_S32x64_S8000x64_1_0_0_1_n_n 32 rfl rfl).symm k) = ix2 k q := funext fun a => Fin.ext (by
    match a with
    | ⟨0, _⟩ => exact (rhs_dot32_0 _ _).trans hk
    | ⟨1, _⟩ => exact rhs_dot32_1 _ _)
  rw [el, er]

/-- What the edge body stores is `edgeK` of its nine operands: a product into zero is a sum over the contracted coordinate, narrowing is the identity on exact values, and the comparison with zero is `max · 0`. -/
theorem k0_pay1_eq (x0 x1 : Vec Ideal S8000x64 .f32) (x2 : Vec Ideal S8000x32 .f32) (w1d w1s : Vec Ideal S64x64 .bf16) (w1e : Vec Ideal S32x64 .bf16) (b1 : Vec Ideal S1x64 .f32) (w2 : Vec Ideal S64x64 .bf16) (b2 : Vec Ideal S1x64 .f32) :
    k0_pay1 (F := Ideal) x0 x1 x2 w1d w1s w1e w2 b1 b2 = GnnSpec.edgeK (E := 8000) x0 x1 x2 w1d w1s w1e b1 w2 b2 := by
  funext j
  obtain ⟨p, q, rfl⟩ : ∃ (p : Fin 8000) (q : Fin 64), j = ix2 p q := ⟨j 0, j 1, eq_ix2 j⟩
  unfold k0_pay1
  simp only [shapeCast_self]
  rw [addf_apply, matmul_dot64_apply, broadcastTo_1b_ab_apply]
  unfold GnnSpec.edgeK GnnSpec.edgeHidden
  refine congrArg₂ (· + ·) (Finset.sum_congr rfl fun k _ => ?_) rfl
  refine congrArg₂ (· * ·) ?_ rfl
  rw [truncf_apply, maximumf_apply, broadcast_apply, addf_apply, addf_apply, addf_apply,
    matmul_dot64_apply, matmul_dot64_apply, matmul_dot32_apply, broadcastTo_1b_ab_apply]
  simp only [truncf_apply]
  rw [show (FloatOps.ofBits FTy.f32 0x00000000#32 : Ideal .f32) = 0 from Ideal.ofBits_zero_f32]

theorem k2_pay1_eq (x0 x1 : Vec Ideal S8000x64 .f32) (x2 : Vec Ideal S8000x32 .f32) (w1d w1s : Vec Ideal S64x64 .bf16) (w1e : Vec Ideal S32x64 .bf16) (b1 : Vec Ideal S1x64 .f32) (w2 : Vec Ideal S64x64 .bf16) (b2 : Vec Ideal S1x64 .f32) :
    k2_pay1 (F := Ideal) x0 x1 x2 w1d w1s w1e w2 b1 b2 = GnnSpec.edgeK (E := 8000) x0 x1 x2 w1d w1s w1e b1 w2 b2 :=
  k0_pay1_eq x0 x1 x2 w1d w1s w1e b1 w2 b2

/-- `edgeK` works row by row: on a block of rows taken from larger arrays at an offset it agrees with `edgeK` of those arrays at the offset rows. -/
theorem edgeK_rows {E : Nat} (off : Nat) (hoff : off + 8000 ≤ E)
    (A0 A1 : GnnSpec.Mat E 64) (A2 : GnnSpec.Mat E 32) (X0 X1 : GnnSpec.Mat 8000 64) (X2 : GnnSpec.Mat 8000 32)
    (w1d w1s : GnnSpec.Mat 64 64) (w1e : GnnSpec.Mat 32 64) (b1 : GnnSpec.Mat 1 64) (w2 : GnnSpec.Mat 64 64) (b2 : GnnSpec.Mat 1 64)
    (h0 : ∀ (e : Fin 8000) (a : Fin 64), X0 (ix2 e a) = A0 (ix2 (⟨off + e.val, by have := e.isLt; omega⟩ : Fin E) a))
    (h1 : ∀ (e : Fin 8000) (a : Fin 64), X1 (ix2 e a) = A1 (ix2 (⟨off + e.val, by have := e.isLt; omega⟩ : Fin E) a))
    (h2 : ∀ (e : Fin 8000) (a : Fin 32), X2 (ix2 e a) = A2 (ix2 (⟨off + e.val, by have := e.isLt; omega⟩ : Fin E) a))
    (j : (⟨2, ![8000, 64]⟩ : Shape).Idx) (J : (⟨2, ![E, 64]⟩ : Shape).Idx)
    (hJ0 : (J 0 : Fin E) = (⟨off + (j 0 : Fin 8000).val, by have := idx2_lt0 j; omega⟩ : Fin E)) (hJ1 : (J 1 : Fin 64) = j 1) :
    GnnSpec.edgeK X0 X1 X2 w1d w1s w1e b1 w2 b2 j = GnnSpec.edgeK A0 A1 A2 w1d w1s w1e b1 w2 b2 J := by
  unfold GnnSpec.edgeK GnnSpec.edgeHidden
  rw [hJ0, hJ1]
  refine congrArg₂ (· + ·) (Finset.sum_congr rfl fun k _ => congrArg₂ (· * ·) (congrArg (max · 0) ?_) rfl) rfl
  refine congrArg₂ (· + ·) (congrArg₂ (· + ·) (congrArg₂ (· + ·)
    (Finset.sum_congr rfl fun a _ => ?_) (Finset.sum_congr rfl fun a _ => ?_)) (Finset.sum_congr rfl fun a _ => ?_)) rfl
  · exact congrArg (· * w1d (ix2 a k)) (h0 (j 0) a)
  · exact congrArg (· * w1s (ix2 a k)) (h1 (j 0) a)
  · exact congrArg (· * w1e (ix2 a k)) (h2 (j 0) a)

theorem hz2 : (![0, 0] : Fin 2 → Nat) = fun _ => 0 := funext fun a => by
  match a with
  | ⟨0, _⟩ => rfl
  | ⟨1, _⟩ => rfl

theorem t_lt0 (t : Fin cfg0.N) : t.val < 100 := by
  have h : t.val < grid0.N := t.isLt
  rwa [N_0] at h

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem out_idx0 (t : Fin cfg0.N) : win0_9.index t (0 : Fin 2) = t.val ∧ win0_9.index t (1 : Fin 2) = 0 := by
  have hf := idx_facts0 t
  omega

section Region0
variable (V : (c : Dev nD) → (b : Ref sig .tc) → Buf (Elt Ideal) ((c : Thread nD τ).loc b))

theorem iblk0_0_apply (c : Dev nD) (t : Fin cfg0.N) (e : Fin 8000) (a : Fin 64) :
    (iblk0 V c 0 t : Vec Ideal S8000x64 .f32) (ix2 e a)
      = (V c main_v5 : S800000x64.Idx → Elt Ideal .f32) (ix2 (⟨8000 * t.val + e.val, by have := t_lt0 t; have := e.isLt; omega⟩ : Fin 800000) a) := by
  have hf := idx_facts0 t
  have h0 : win0_0.index t (0 : Fin 2) = t.val := by omega
  have h1 : win0_0.index t (1 : Fin 2) = 0 := by omega
  unfold iblk0
  rw [View.read_apply]
  show V c main_v5 _ = V c main_v5 _
  congr 1
  funext ax
  apply Fin.ext
  match ax with
  | ⟨0, _⟩ => show win0_0.index t (0 : Fin 2) * 8000 + 1 * e.val = 8000 * t.val + e.val; rw [h0]; omega
  | ⟨1, _⟩ => show win0_0.index t (1 : Fin 2) * 64 + 1 * a.val = a.val; rw [h1]; omega
theorem iblk0_1_apply (c : Dev nD) (t : Fin cfg0.N) (e : Fin 8000) (a : Fin 64) :
    (iblk0 V c 1 t : Vec Ideal S8000x64 .f32) (ix2 e a)
      = (V c main_v6 : S800000x64.Idx → Elt Ideal .f32) (ix2 (⟨8000 * t.val + e.val, by have := t_lt0 t; have := e.isLt; omega⟩ : Fin 800000) a) := by
  have hf := idx_facts0 t
  have h0 : win0_1.index t (0 : Fin 2) = t.val := by omega
  have h1 : win0_1.index t (1 : Fin 2) = 0 := by omega
  unfold iblk0
  rw [View.read_apply]
  show V c main_v6 _ = V c main_v6 _
  congr 1
  funext ax
  apply Fin.ext
  match ax with
  | ⟨0, _⟩ => show win0_1.index t (0 : Fin 2) * 8000 + 1 * e.val = 8000 * t.val + e.val; rw [h0]; omega
  | ⟨1, _⟩ => show win0_1.index t (1 : Fin 2) * 64 + 1 * a.val = a.val; rw [h1]; omega
theorem iblk0_2_apply (c : Dev nD) (t : Fin cfg0.N) (e : Fin 8000) (a : Fin 32) :
    (iblk0 V c 2 t : Vec Ideal S8000x32 .f32) (ix2 e a)
      = (V c main_arg1 : S800000x32.Idx → Elt Ideal .f32) (ix2 (⟨8000 * t.val + e.val, by have := t_lt0 t; have := e.isLt; omega⟩ : Fin 800000) a) := by
  have hf := idx_facts0 t
  have h0 : win0_2.index t (0 : Fin 2) = t.val := by omega
  have h1 : win0_2.index t (1 : Fin 2) = 0 := by omega
  unfold iblk0
  rw [View.read_apply]
  show V c main_arg1 _ = V c main_arg1 _
  congr 1
  funext ax
  apply Fin.ext
  match ax with
  | ⟨0, _⟩ => show win0_2.index t (0 : Fin 2) * 8000 + 1 * e.val = 8000 * t.val + e.val; rw [h0]; omega
  | ⟨1, _⟩ => show win0_2.index t (1 : Fin 2) * 32 + 1 * a.val = a.val; rw [h1]; omega

theorem iblk0_3_eq (c : Dev nD) (t : Fin cfg0.N) : (iblk0 V c 3 t : Vec Ideal S64x64 .bf16) = V c main_v8 := by
  have hf := idx_facts0 t
  have h0 : win0_3.index t (0 : Fin 2) = 0 := by omega
  have h1 : win0_3.index t (1 : Fin 2) = 0 := by omega
  funext x
  unfold iblk0
  rw [View.read_apply]
  show V c main_v8 _ = V c main_v8 x
  congr 1
  funext ax
  apply Fin.ext
  match ax with
  | ⟨0, _⟩ => show win0_3.index t (0 : Fin 2) * 64 + 1 * (x 0).val = (x 0).val; rw [h0]; omega
  | ⟨1, _⟩ => show win0_3.index t (1 : Fin 2) * 64 + 1 * (x 1).val = (x 1).val; rw [h1]; omega
theorem iblk0_4_eq (c : Dev nD) (t : Fin cfg0.N) : (iblk0 V c 4 t : Vec Ideal S64x64 .bf16) = V c main_v10 := by
  have hf := idx_facts0 t
  have h0 : win0_4.index t (0 : Fin 2) = 0 := by omega
  have h1 : win0_4.index t (1 : Fin 2) = 0 := by omega
  funext x
  unfold iblk0
  rw [View.read_apply]
  show V c main_v10 _ = V c main_v10 x
  congr 1
  funext ax
  apply Fin.ext
  match ax with
  | ⟨0, _⟩ => show win0_4.index t (0 : Fin 2) * 64 + 1 * (x 0).val = (x 0).val; rw [h0]; omega
  | ⟨1, _⟩ => show win0_4.index t (1 : Fin 2) * 64 + 1 * (x 1).val = (x 1).val; rw [h1]; omega
theorem iblk0_5_eq (c : Dev nD) (t : Fin cfg0.N) : (iblk0 V c 5 t : Vec Ideal S32x64 .bf16) = V c main_v12 := by
  have hf := idx_facts0 t
  have h0 : win0_5.index t (0 : Fin 2) = 0 := by omega
  have h1 : win0_5.index t (1 : Fin 2) = 0 := by omega
  funext x
  unfold iblk0
  rw [View.read_apply]
  show V c main_v12 _ = V c main_v12 x
  congr 1
  funext ax
  apply Fin.ext
  match ax with
  | ⟨0, _⟩ => show win0_5.index t (0 : Fin 2) * 32 + 1 * (x 0).val = (x 0).val; rw [h0]; omega
  | ⟨1, _⟩ => show win0_5.index t (1 : Fin 2) * 64 + 1 * (x 1).val = (x 1).val; rw [h1]; omega
theorem iblk0_6_eq (c : Dev nD) (t : Fin cfg0.N) : (iblk0 V c 6 t : Vec Ideal S1x64 .f32) = V c main_v13 := by
  have hf := idx_facts0 t
  have h0 : win0_6.index t (0 : Fin 2) = 0 := by omega
  have h1 : win0_6.index t (1 : Fin 2) = 0 := by omega
  funext x
  unfold iblk0
  rw [View.read_apply]
  show V c main_v13 _ = V c main_v13 x
  congr 1
  funext ax
  apply Fin.ext
  match ax with
  | ⟨0, _⟩ => show win0_6.index t (0 : Fin 2) * 1 + 1 * (x 0).val = (x 0).val; rw [h0]; omega
  | ⟨1, _⟩ => show win0_6.index t (1 : Fin 2) * 64 + 1 * (x 1).val = (x 1).val; rw [h1]; omega
theorem iblk0_7_eq (c : Dev nD) (t : Fin cfg0.N) : (iblk0 V c 7 t : Vec Ideal S64x64 .bf16) = V c main_v14 := by
  have hf := idx_facts0 t
  have h0 : win0_7.index t (0 : Fin 2) = 0 := by omega
  have h1 : win0_7.index t (1 : Fin 2) = 0 := by omega
  funext x
  unfold iblk0
  rw [View.read_apply]
  show V c main_v14 _ = V c main_v14 x
  congr 1
  funext ax
  apply Fin.ext
  match ax with
  | ⟨0, _⟩ => show win0_7.index t (0 : Fin 2) * 64 + 1 * (x 0).val = (x 0).val; rw [h0]; omega
  | ⟨1, _⟩ => show win0_7.index t (1 : Fin 2) * 64 + 1 * (x 1).val = (x 1).val; rw [h1]; omega
theorem iblk0_8_eq (c : Dev nD) (t : Fin cfg0.N) : (iblk0 V c 8 t : Vec Ideal S1x64 .f32) = V c main_v15 := by
  have hf := idx_facts0 t
  have h0 : win0_8.index t (0 : Fin 2) = 0 := by omega
  have h1 : win0_8.index t (1 : Fin 2) = 0 := by omega
  funext x
  unfold iblk0
  rw [View.read_apply]
  show V c main_v15 _ = V c main_v15 x
  congr 1
  funext ax
  apply Fin.ext
  match ax with
  | ⟨0, _⟩ => show win0_8.index t (0 : Fin 2) * 1 + 1 * (x 0).val = (x 0).val; rw [h0]; omega
  | ⟨1, _⟩ => show win0_8.index t (1 : Fin 2) * 64 + 1 * (x 1).val = (x 1).val; rw [h1]; omega

theorem flushed0_9_eq (c : Dev nD) (t : Fin cfg0.N) :
    (dat0 (F := Ideal) V c).flushed 9 t = ((cfg0.win 9).blk t).view.read (Elt Ideal)
      (GnnSpec.edgeK (E := 800000) (V c main_v5) (V c main_v6) (V c main_arg1) (V c main_v8) (V c main_v10) (V c main_v12) (V c main_v13) (V c main_v14) (V c main_v15)) := by
  show (cfg0.win 9).cut (grid0.coords t) ((dat0 V c).after 9 t) = _
  rw [after0_9]
  unfold out0_9
  rw [View.canon_unit_zero hz2]
  simp only [View.ld_unit_zero (S := S8000x64) hz2, View.ld_unit_zero (S := S8000x32) hz2, View.ld_unit_zero (S := S64x64) hz2,
    View.ld_unit_zero (S := S32x64) hz2, View.ld_unit_zero (S := S1x64) hz2]
  rw [k0_pay1_eq, iblk0_3_eq, iblk0_4_eq, iblk0_5_eq, iblk0_6_eq, iblk0_7_eq, iblk0_8_eq]
  have hf := idx_facts0 t
  have h90 : win0_9.index t (0 : Fin 2) = t.val := by omega
  have h91 : win0_9.index t (1 : Fin 2) = 0 := by omega
  funext j
  show GnnSpec.edgeK (E := 8000) (iblk0 V c 0 t) (iblk0 V c 1 t) (iblk0 V c 2 t) (V c main_v8) (V c main_v10) (V c main_v12) (V c main_v13) (V c main_v14) (V c main_v15) j
    = GnnSpec.edgeK (E := 800000) (V c main_v5) (V c main_v6) (V c main_arg1) (V c main_v8) (V c main_v10) (V c main_v12) (V c main_v13) (V c main_v14) (V c main_v15) (((cfg0.win 9).blk t).view.emb j)
  refine edgeK_rows (8000 * t.val) (by have := t_lt0 t; omega) _ _ _ _ _ _ _ _ _ _ _ _
    (iblk0_0_apply V c t) (iblk0_1_apply V c t) (iblk0_2_apply V c t) j _ (Fin.ext ?_) (Fin.ext ?_)
  · show win0_9.index t (0 : Fin 2) * 8000 + 1 * (j 0).val = 8000 * t.val + (j 0).val; rw [h90]; omega
  · show win0_9.index t (1 : Fin 2) * 64 + 1 * (j 1).val = (j 1).val; rw [h91]; omega

theorem mem_blk0_9 (t : Fin cfg0.N) (i : S800000x64.Idx) :
    i ∈ ((cfg0.win 9).blk t).view.set ↔ ∀ a : Fin 2, win0_9.index t a * S8000x64.size a ≤ (i a).val ∧ (i a).val < win0_9.index t a * S8000x64.size a + S8000x64.size a := by
  show i ∈ ((View.whole main_v16).slice (win0_9.rect t)).set ↔ _
  rw [View.set_slice_whole, Rect.mem_set_unit]
  exact Iff.rfl

theorem covered0_9 (i : S800000x64.Idx) : ∃ t : Fin cfg0.N, (cfg0.win 9).flush t = true ∧ i ∈ ((cfg0.win 9).blk t).view.set := by
  have hi0 : (i 0).val < 800000 := idx2_lt0 i
  have hi1 : (i 1).val < 64 := idx2_lt1 i
  have hN : grid0.N = 100 := N_0
  have ht : (i 0).val / 8000 < cfg0.N := by show _ < grid0.N; rw [hN]; omega
  have h90 : win0_9.index ⟨(i 0).val / 8000, ht⟩ (0 : Fin 2) = (i 0).val / 8000 := (out_idx0 ⟨(i 0).val / 8000, ht⟩).1
  have h91 : win0_9.index ⟨(i 0).val / 8000, ht⟩ (1 : Fin 2) = 0 := (out_idx0 ⟨(i 0).val / 8000, ht⟩).2
  refine ⟨⟨(i 0).val / 8000, ht⟩, flush0_9 _, ?_⟩
  rw [mem_blk0_9]
  intro a
  match a with
  | ⟨0, _⟩ =>
    show win0_9.index ⟨(i 0).val / 8000, ht⟩ (0 : Fin 2) * 8000 ≤ (i 0).val ∧ (i 0).val < win0_9.index ⟨(i 0).val / 8000, ht⟩ (0 : Fin 2) * 8000 + 8000
    rw [h90]; omega
  | ⟨1, _⟩ =>
    show win0_9.index ⟨(i 0).val / 8000, ht⟩ (1 : Fin 2) * 64 ≤ (i 1).val ∧ (i 1).val < win0_9.index ⟨(i 0).val / 8000, ht⟩ (1 : Fin 2) * 64 + 64
    rw [h91]; omega

/-- After region 0 its output array is `edgeK` of the whole operand arrays: point t writes rows 8000 t to 8000 t + 7999, and the hundred blocks cover the array. -/
theorem edge0_arr (c : Dev nD) : (dat0 (F := Ideal) V c).arrAt 9 cfg0.N =
    GnnSpec.edgeK (E := 800000) (V c main_v5) (V c main_v6) (V c main_arg1) (V c main_v8) (V c main_v10) (V c main_v12) (V c main_v13) (V c main_v14) (V c main_v15) :=
  (dat0 V c).arrAt_eq_of_cover 9 _ (fun t _ => flushed0_9_eq V c t) (covered0_9)

end Region0

theorem t_lt2 (t : Fin cfg2.N) : t.val < 100 := by
  have h : t.val < grid2.N := t.isLt
  rwa [N_2] at h

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

theorem out_idx2 (t : Fin cfg2.N) : win2_9.index t (0 : Fin 2) = t.val ∧ win2_9.index t (1 : Fin 2) = 0 := by
  have hf := idx_facts2 t
  omega

section Region2
variable (V : (c : Dev nD) → (b : Ref sig .tc) → Buf (Elt Ideal) ((c : Thread nD τ).loc b))

theorem iblk2_0_apply (c : Dev nD) (t : Fin cfg2.N) (e : Fin 8000) (a : Fin 64) :
    (iblk2 V c 0 t : Vec Ideal S8000x64 .f32) (ix2 e a)
      = (V c main_v25 : S800000x64.Idx → Elt Ideal .f32) (ix2 (⟨8000 * t.val + e.val, by have := t_lt2 t; have := e.isLt; omega⟩ : Fin 800000) a) := by
  have hf := idx_facts2 t
  have h0 : win2_0.index t (0 : Fin 2) = t.val := by omega
  have h1 : win2_0.index t (1 : Fin 2) = 0 := by omega
  unfold iblk2
  rw [View.read_apply]
  show V c main_v25 _ = V c main_v25 _
  congr 1
  funext ax
  apply Fin.ext
  match ax with
  | ⟨0, _⟩ => show win2_0.index t (0 : Fin 2) * 8000 + 1 * e.val = 8000 * t.val + e.val; rw [h0]; omega
  | ⟨1, _⟩ => show win2_0.index t (1 : Fin 2) * 64 + 1 * a.val = a.val; rw [h1]; omega
theorem iblk2_1_apply (c : Dev nD) (t : Fin cfg2.N) (e : Fin 8000) (a : Fin 64) :
    (iblk2 V c 1 t : Vec Ideal S8000x64 .f32) (ix2 e a)
      = (V c main_v26 : S800000x64.Idx → Elt Ideal .f32) (ix2 (⟨8000 * t.val + e.val, by have := t_lt2 t; have := e.isLt; omega⟩ : Fin 800000) a) := by
  have hf := idx_facts2 t
  have h0 : win2_1.index t (0 : Fin 2) = t.val := by omega
  have h1 : win2_1.index t (1 : Fin 2) = 0 := by omega
  unfold iblk2
  rw [View.read_apply]
  show V c main_v26 _ = V c main_v26 _
  congr 1
  funext ax
  apply Fin.ext
  match ax with
  | ⟨0, _⟩ => show win2_1.index t (0 : Fin 2) * 8000 + 1 * e.val = 8000 * t.val + e.val; rw [h0]; omega
  | ⟨1, _⟩ => show win2_1.index t (1 : Fin 2) * 64 + 1 * a.val = a.val; rw [h1]; omega
theorem iblk2_2_apply (c : Dev nD) (t : Fin cfg2.N) (e : Fin 8000) (a : Fin 32) :
    (iblk2 V c 2 t : Vec Ideal S8000x32 .f32) (ix2 e a)
      = (V c main_arg1 : S800000x32.Idx → Elt Ideal .f32) (ix2 (⟨8000 * t.val + e.val, by have := t_lt2 t; have := e.isLt; omega⟩ : Fin 800000) a) := by
  have hf := idx_facts2 t
  have h0 : win2_2.index t (0 : Fin 2) = t.val := by omega
  have h1 : win2_2.index t (1 : Fin 2) = 0 := by omega
  unfold iblk2
  rw [View.read_apply]
  show V c main_arg1 _ = V c main_arg1 _
  congr 1
  funext ax
  apply Fin.ext
  match ax with
  | ⟨0, _⟩ => show win2_2.index t (0 : Fin 2) * 8000 + 1 * e.val = 8000 * t.val + e.val; rw [h0]; omega
  | ⟨1, _⟩ => show win2_2.index t (1 : Fin 2) * 32 + 1 * a.val = a.val; rw [h1]; omega

theorem iblk2_3_eq (c : Dev nD) (t : Fin cfg2.N) : (iblk2 V c 3 t : Vec Ideal S64x64 .bf16) = V c main_v28 := by
  have hf := idx_facts2 t
  have h0 : win2_3.index t (0 : Fin 2) = 0 := by omega
  have h1 : win2_3.index t (1 : Fin 2) = 0 := by omega
  funext x
  unfold iblk2
  rw [View.read_apply]
  show V c main_v28 _ = V c main_v28 x
  congr 1
  funext ax
  apply Fin.ext
  match ax with
  | ⟨0, _⟩ => show win2_3.index t (0 : Fin 2) * 64 + 1 * (x 0).val = (x 0).val; rw [h0]; omega
  | ⟨1, _⟩ => show win2_3.index t (1 : Fin 2) * 64 + 1 * (x 1).val = (x 1).val; rw [h1]; omega
theorem iblk2_4_eq (c : Dev nD) (t : Fin cfg2.N) : (iblk2 V c 4 t : Vec Ideal S64x64 .bf16) = V c main_v30 := by
  have hf := idx_facts2 t
  have h0 : win2_4.index t (0 : Fin 2) = 0 := by omega
  have h1 : win2_4.index t (1 : Fin 2) = 0 := by omega
  funext x
  unfold iblk2
  rw [View.read_apply]
  show V c main_v30 _ = V c main_v30 x
  congr 1
  funext ax
  apply Fin.ext
  match ax with
  | ⟨0, _⟩ => show win2_4.index t (0 : Fin 2) * 64 + 1 * (x 0).val = (x 0).val; rw [h0]; omega
  | ⟨1, _⟩ => show win2_4.index t (1 : Fin 2) * 64 + 1 * (x 1).val = (x 1).val; rw [h1]; omega
theorem iblk2_5_eq (c : Dev nD) (t : Fin cfg2.N) : (iblk2 V c 5 t : Vec Ideal S32x64 .bf16) = V c main_v32 := by
  have hf := idx_facts2 t
  have h0 : win2_5.index t (0 : Fin 2) = 0 := by omega
  have h1 : win2_5.index t (1 : Fin 2) = 0 := by omega
  funext x
  unfold iblk2
  rw [View.read_apply]
  show V c main_v32 _ = V c main_v32 x
  congr 1
  funext ax
  apply Fin.ext
  match ax with
  | ⟨0, _⟩ => show win2_5.index t (0 : Fin 2) * 32 + 1 * (x 0).val = (x 0).val; rw [h0]; omega
  | ⟨1, _⟩ => show win2_5.index t (1 : Fin 2) * 64 + 1 * (x 1).val = (x 1).val; rw [h1]; omega
theorem iblk2_6_eq (c : Dev nD) (t : Fin cfg2.N) : (iblk2 V c 6 t : Vec Ideal S1x64 .f32) = V c main_v33 := by
  have hf := idx_facts2 t
  have h0 : win2_6.index t (0 : Fin 2) = 0 := by omega
  have h1 : win2_6.index t (1 : Fin 2) = 0 := by omega
  funext x
  unfold iblk2
  rw [View.read_apply]
  show V c main_v33 _ = V c main_v33 x
  congr 1
  funext ax
  apply Fin.ext
  match ax with
  | ⟨0, _⟩ => show win2_6.index t (0 : Fin 2) * 1 + 1 * (x 0).val = (x 0).val; rw [h0]; omega
  | ⟨1, _⟩ => show win2_6.index t (1 : Fin 2) * 64 + 1 * (x 1).val = (x 1).val; rw [h1]; omega
theorem iblk2_7_eq (c : Dev nD) (t : Fin cfg2.N) : (iblk2 V c 7 t : Vec Ideal S64x64 .bf16) = V c main_v34 := by
  have hf := idx_facts2 t
  have h0 : win2_7.index t (0 : Fin 2) = 0 := by omega
  have h1 : win2_7.index t (1 : Fin 2) = 0 := by omega
  funext x
  unfold iblk2
  rw [View.read_apply]
  show V c main_v34 _ = V c main_v34 x
  congr 1
  funext ax
  apply Fin.ext
  match ax with
  | ⟨0, _⟩ => show win2_7.index t (0 : Fin 2) * 64 + 1 * (x 0).val = (x 0).val; rw [h0]; omega
  | ⟨1, _⟩ => show win2_7.index t (1 : Fin 2) * 64 + 1 * (x 1).val = (x 1).val; rw [h1]; omega
theorem iblk2_8_eq (c : Dev nD) (t : Fin cfg2.N) : (iblk2 V c 8 t : Vec Ideal S1x64 .f32) = V c main_v35 := by
  have hf := idx_facts2 t
  have h0 : win2_8.index t (0 : Fin 2) = 0 := by omega
  have h1 : win2_8.index t (1 : Fin 2) = 0 := by omega
  funext x
  unfold iblk2
  rw [View.read_apply]
  show V c main_v35 _ = V c main_v35 x
  congr 1
  funext ax
  apply Fin.ext
  match ax with
  | ⟨0, _⟩ => show win2_8.index t (0 : Fin 2) * 1 + 1 * (x 0).val = (x 0).val; rw [h0]; omega
  | ⟨1, _⟩ => show win2_8.index t (1 : Fin 2) * 64 + 1 * (x 1).val = (x 1).val; rw [h1]; omega

theorem flushed2_9_eq (c : Dev nD) (t : Fin cfg2.N) :
    (dat2 (F := Ideal) V c).flushed 9 t = ((cfg2.win 9).blk t).view.read (Elt Ideal)
      (GnnSpec.edgeK (E := 800000) (V c main_v25) (V c main_v26) (V c main_arg1) (V c main_v28) (V c main_v30) (V c main_v32) (V c main_v33) (V c main_v34) (V c main_v35)) := by
  show (cfg2.win 9).cut (grid2.coords t) ((dat2 V c).after 9 t) = _
  rw [after2_9]
  unfold out2_9
  rw [View.canon_unit_zero hz2]
  simp only [View.ld_unit_zero (S := S8000x64) hz2, View.ld_unit_zero (S := S8000x32) hz2, View.ld_unit_zero (S := S64x64) hz2,
    View.ld_unit_zero (S := S32x64) hz2, View.ld_unit_zero (S := S1x64) hz2]
  rw [k2_pay1_eq, iblk2_3_eq, iblk2_4_eq, iblk2_5_eq, iblk2_6_eq, iblk2_7_eq, iblk2_8_eq]
  have hf := idx_facts2 t
  have h90 : win2_9.index t (0 : Fin 2) = t.val := by omega
  have h91 : win2_9.index t (1 : Fin 2) = 0 := by omega
  funext j
  show GnnSpec.edgeK (E := 8000) (iblk2 V c 0 t) (iblk2 V c 1 t) (iblk2 V c 2 t) (V c main_v28) (V c main_v30) (V c main_v32) (V c main_v33) (V c main_v34) (V c main_v35) j
    = GnnSpec.edgeK (E := 800000) (V c main_v25) (V c main_v26) (V c main_arg1) (V c main_v28) (V c main_v30) (V c main_v32) (V c main_v33) (V c main_v34) (V c main_v35) (((cfg2.win 9).blk t).view.emb j)
  refine edgeK_rows (8000 * t.val) (by have := t_lt2 t; omega) _ _ _ _ _ _ _ _ _ _ _ _
    (iblk2_0_apply V c t) (iblk2_1_apply V c t) (iblk2_2_apply V c t) j _ (Fin.ext ?_) (Fin.ext ?_)
  · show win2_9.index t (0 : Fin 2) * 8000 + 1 * (j 0).val = 8000 * t.val + (j 0).val; rw [h90]; omega
  · show win2_9.index t (1 : Fin 2) * 64 + 1 * (j 1).val = (j 1).val; rw [h91]; omega

theorem mem_blk2_9 (t : Fin cfg2.N) (i : S800000x64.Idx) :
    i ∈ ((cfg2.win 9).blk t).view.set ↔ ∀ a : Fin 2, win2_9.index t a * S8000x64.size a ≤ (i a).val ∧ (i a).val < win2_9.index t a * S8000x64.size a + S8000x64.size a := by
  show i ∈ ((View.whole main_v36).slice (win2_9.rect t)).set ↔ _
  rw [View.set_slice_whole, Rect.mem_set_unit]
  exact Iff.rfl

theorem covered2_9 (i : S800000x64.Idx) : ∃ t : Fin cfg2.N, (cfg2.win 9).flush t = true ∧ i ∈ ((cfg2.win 9).blk t).view.set := by
  have hi0 : (i 0).val < 800000 := idx2_lt0 i
  have hi1 : (i 1).val < 64 := idx2_lt1 i
  have hN : grid2.N = 100 := N_2
  have ht : (i 0).val / 8000 < cfg2.N := by show _ < grid2.N; rw [hN]; omega
  have h90 : win2_9.index ⟨(i 0).val / 8000, ht⟩ (0 : Fin 2) = (i 0).val / 8000 := (out_idx2 ⟨(i 0).val / 8000, ht⟩).1
  have h91 : win2_9.index ⟨(i 0).val / 8000, ht⟩ (1 : Fin 2) = 0 := (out_idx2 ⟨(i 0).val / 8000, ht⟩).2
  refine ⟨⟨(i 0).val / 8000, ht⟩, flush2_9 _, ?_⟩
  rw [mem_blk2_9]
  intro a
  match a with
  | ⟨0, _⟩ =>
    show win2_9.index ⟨(i 0).val / 8000, ht⟩ (0 : Fin 2) * 8000 ≤ (i 0).val ∧ (i 0).val < win2_9.index ⟨(i 0).val / 8000, ht⟩ (0 : Fin 2) * 8000 + 8000
    rw [h90]; omega
  | ⟨1, _⟩ =>
    show win2_9.index ⟨(i 0).val / 8000, ht⟩ (1 : Fin 2) * 64 ≤ (i 1).val ∧ (i 1).val < win2_9.index ⟨(i 0).val / 8000, ht⟩ (1 : Fin 2) * 64 + 64
    rw [h91]; omega

theorem edge2_arr (c : Dev nD) : (dat2 (F := Ideal) V c).arrAt 9 cfg2.N =
    GnnSpec.edgeK (E := 800000) (V c main_v25) (V c main_v26) (V c main_arg1) (V c main_v28) (V c main_v30) (V c main_v32) (V c main_v33) (V c main_v34) (V c main_v35) :=
  (dat2 V c).arrAt_eq_of_cover 9 _ (fun t _ => flushed2_9_eq V c t) (covered2_9)

end Region2

end Cert.KernelIdeal.Hand

end
-- ==== Proof.LstmVal.lean ====
import proofs.«420294_j24077586661648_2_alg».proof.Proof.Spec
import proofs.«420294_j24077586661648_2_alg».proof.Proof.LstmA
import proofs.«420294_j24077586661648_2_alg».proof.Proof.LstmB
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem lstm_lhs_0 (i : S5000x256.Idx) (q : dot_S5000x64_S64x256_S5000x256_1_0_0_1_n_n.contr.Idx) :
    (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl
theorem lstm_lhs_1 (i : S5000x256.Idx) (q : dot_S5000x64_S64x256_S5000x256_1_0_0_1_n_n.contr.Idx) :
    (dot_S5000x64_S64x256_S5000x256_1_0_0_1_n_n.lhsIdx i q 1).val = (q ⟨0, by decide⟩).val :=
  dot_S5000x64_S64x256_S5000x256_1_0_0_1_n_n.lhsIdx_val_of_single rfl i q
theorem lstm_rhs_0 (i : S5000x256.Idx) (q : dot_S5000x64_S64x256_S5000x256_1_0_0_1_n_n.contr.Idx) :
    (dot_S5000x64_S64x256_S5000x256_1_0_0_1_n_n.rhsIdx i q 0).val = (q ⟨0, by decide⟩).val :=
  dot_S5000x64_S64x256_S5000x256_1_0_0_1_n_n.rhsIdx_val_of_single rfl i q
theorem lstm_rhs_1 (i : S5000x256.Idx) (q : dot_S5000x64_S64x256_S5000x256_1_0_0_1_n_n.contr.Idx) :
    (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

theorem lstm_matmul_at (x : FVec Ideal S5000x64 .bf16) (w : FVec Ideal S64x256 .bf16) (n : Fin 5000) (q : Fin 256) :
    matmul dot_S5000x64_S64x256_S5000x256_1_0_0_1_n_n none x w (constant (F := Ideal) S5000x256 .f32 0x00000000#32) (ix2 n q)
      = ∑ k : Fin 64, x (ix2 n k) * w (ix2 k q) := by
  simp only [matmul]
  rw [Ideal.matmul_constant_zero_apply, ← Equiv.sum_comp (contrEquiv1 dot_S5000x64_S64x256_S5000x256_1_0_0_1_n_n 64 rfl rfl).symm]
  refine Finset.sum_congr rfl fun k _ => ?_
  have hk := contrEquiv1_symm_val dot_S5000x64_S64x256_S5000x256_1_0_0_1_n_n 64 rfl rfl k
  have el : dot_S5000x64_S64x256_S5000x256_1_0_0_1_n_n.lhsIdx (ix2 n q) ((contrEquiv1 dot_S5000x64_S64x256_S5000x256_1_0_0_1_n_n 64 rfl rfl).symm k) = ix2 n k := funext fun a => Fin.ext (by
    match a with
    | ⟨0, _⟩ => exact lstm_lhs_0 _ _
    | ⟨1, _⟩ => exact (lstm_lhs_1 _ _).trans hk)
  have er : dot_S5000x64_S64x256_S5000x256_1_0_0_1_n_n.rhsIdx (ix2 n q) ((contrEquiv1 dot_S5000x64_S64x256_S5000x256_1_0_0_1_n_n 64 rfl rfl).symm k) = ix2 k q := funext fun a => Fin.ext (by
    match a with
    | ⟨0, _⟩ => exact (lstm_rhs_0 _ _).trans hk
    | ⟨1, _⟩ => exact lstm_rhs_1 _ _)
  rw [el, er]

theorem lstm_bias_at (b : FVec Ideal S1x256 .f32) (n : Fin 5000) (q : Fin 256) :
    broadcastTo S5000x256 b broadcasts_S1x256_S5000x256 (ix2 n q) = b (ix2 (0 : Fin 1) q) :=
  broadcastTo_apply b broadcasts_S1x256_S5000x256 (ix2 n q) (ix2 (0 : Fin 1) q) (fun a => by
    match a with
    | ⟨0, _⟩ => show (0 : Nat) = if (1 : Nat) = 1 then 0 else n.val; rw [if_pos rfl]
    | ⟨1, _⟩ => show q.val = if (256 : Nat) = 1 then 0 else q.val; rw [if_neg (by decide)])

theorem lstm_slice_at (o : Nat) (P : FVec Ideal S5000x256 .f32) (h : S5000x256.Slices ![0, o] S5000x64) (n : Fin 5000) (j : Fin 64)
    (q : Fin 256) (hq : q.val = o + j.val) :
    extractStridedSlice S5000x64 ![0, o] P h (ix2 n j) = P (ix2 n q) :=
  extractStridedSlice_apply ![0, o] P h (ix2 n j) (ix2 n q) (fun a => by
    match a with
    | ⟨0, _⟩ => show n.val = 0 + n.val; omega
    | ⟨1, _⟩ => show q.val = o + j.val; exact hq)

theorem lstm_logistic_at {s : Shape} (x : FVec Ideal s .f32) (i : s.Idx) : logistic x i = Ideal.logistic (x i) := rfl
theorem lstm_tanh_at {s : Shape} (x : FVec Ideal s .f32) (i : s.Idx) : tanh x i = Ideal.tanh (x i) := rfl

theorem k1_pay1_apply (x a : Vec Ideal S5000x64 .f32) (wih whh : Vec Ideal S64x256 .bf16) (bih bhh : Vec Ideal S1x256 .f32)
    (n : Fin 5000) (q : Fin 256) :
    k1_pay1 (F := Ideal) x a wih whh bih bhh (ix2 n q) = GnnSpec.gate (N := 5000) x a wih whh bih bhh n q := by
  unfold k1_pay1 GnnSpec.gate
  simp only [shapeCast_self]
  rw [addf_apply, addf_apply, addf_apply, lstm_matmul_at, lstm_matmul_at, lstm_bias_at, lstm_bias_at]
  rfl

/-- What the cell body stores first is `cellK` of its operands: each gate is a 64-wide slice of the summed pre-activation. -/
theorem k1_pay2_eq (x a c : Vec Ideal S5000x64 .f32) (wih whh : Vec Ideal S64x256 .bf16) (bih bhh : Vec Ideal S1x256 .f32) :
    k1_pay2 (F := Ideal) x a wih whh bih bhh c = GnnSpec.cellK (N := 5000) x a c wih whh bih bhh := by
  funext i
  obtain ⟨n, j, rfl⟩ : ∃ (n : Fin 5000) (j : Fin 64), i = ix2 n j := ⟨i 0, i 1, eq_ix2 i⟩
  unfold k1_pay2 GnnSpec.cellK
  simp only [shapeCast_self]
  rw [addf_apply, mulf_apply, mulf_apply, lstm_logistic_at, lstm_logistic_at, lstm_tanh_at,
    lstm_slice_at 64 _ _ n j (GnnSpec.band 1 (by decide) j) (by show 64 * 1 + j.val = 64 + j.val; omega),
    lstm_slice_at 0 _ _ n j (GnnSpec.band 0 (by decide) j) (by show 64 * 0 + j.val = 0 + j.val; omega),
    lstm_slice_at 128 _ _ n j (GnnSpec.band 2 (by decide) j) (by show 64 * 2 + j.val = 128 + j.val; omega),
    k1_pay1_apply, k1_pay1_apply, k1_pay1_apply]

theorem k1_pay3_eq (x a c : Vec Ideal S5000x64 .f32) (wih whh : Vec Ideal S64x256 .bf16) (bih bhh : Vec Ideal S1x256 .f32) :
    k1_pay3 (F := Ideal) x a wih whh bih bhh c = GnnSpec.stateK (N := 5000) x a c wih whh bih bhh := by
  funext i
  obtain ⟨n, j, rfl⟩ : ∃ (n : Fin 5000) (j : Fin 64), i = ix2 n j := ⟨i 0, i 1, eq_ix2 i⟩
  unfold k1_pay3 GnnSpec.stateK
  rw [k1_pay2_eq, mulf_apply, lstm_logistic_at, lstm_tanh_at,
    lstm_slice_at 192 _ _ n j (GnnSpec.band 3 (by decide) j) (by show 64 * 3 + j.val = 192 + j.val; omega),
    k1_pay1_apply]

theorem k3_pay1_apply (x a : Vec Ideal S5000x64 .f32) (wih whh : Vec Ideal S64x256 .bf16) (bih bhh : Vec Ideal S1x256 .f32)
    (n : Fin 5000) (q : Fin 256) :
    k3_pay1 (F := Ideal) x a wih whh bih bhh (ix2 n q) = GnnSpec.gate (N := 5000) x a wih whh bih bhh n q := by
  unfold k3_pay1 GnnSpec.gate
  simp only [shapeCast_self]
  rw [addf_apply, addf_apply, addf_apply, lstm_matmul_at, lstm_matmul_at, lstm_bias_at, lstm_bias_at]
  rfl

theorem k3_pay2_eq (x a c : Vec Ideal S5000x64 .f32) (wih whh : Vec Ideal S64x256 .bf16) (bih bhh : Vec Ideal S1x256 .f32) :
    k3_pay2 (F := Ideal) x a wih whh bih bhh c = GnnSpec.cellK (N := 5000) x a c wih whh bih bhh := by
  funext i
  obtain ⟨n, j, rfl⟩ : ∃ (n : Fin 5000) (j : Fin 64), i = ix2 n j := ⟨i 0, i 1, eq_ix2 i⟩
  unfold k3_pay2 GnnSpec.cellK
  simp only [shapeCast_self]
  rw [addf_apply, mulf_apply, mulf_apply, lstm_logistic_at, lstm_logistic_at, lstm_tanh_at,
    lstm_slice_at 64 _ _ n j (GnnSpec.band 1 (by decide) j) (by show 64 * 1 + j.val = 64 + j.val; omega),
    lstm_slice_at 0 _ _ n j (GnnSpec.band 0 (by decide) j) (by show 64 * 0 + j.val = 0 + j.val; omega),
    lstm_slice_at 128 _ _ n j (GnnSpec.band 2 (by decide) j) (by show 64 * 2 + j.val = 128 + j.val; omega),
    k3_pay1_apply, k3_pay1_apply, k3_pay1_apply]

theorem k3_pay3_eq (x a c : Vec Ideal S5000x64 .f32) (wih whh : Vec Ideal S64x256 .bf16) (bih bhh : Vec Ideal S1x256 .f32) :
    k3_pay3 (F := Ideal) x a wih whh bih bhh c = GnnSpec.stateK (N := 5000) x a c wih whh bih bhh := by
  funext i
  obtain ⟨n, j, rfl⟩ : ∃ (n : Fin 5000) (j : Fin 64), i = ix2 n j := ⟨i 0, i 1, eq_ix2 i⟩
  unfold k3_pay3 GnnSpec.stateK
  rw [k3_pay2_eq, mulf_apply, lstm_logistic_at, lstm_tanh_at,
    lstm_slice_at 192 _ _ n j (GnnSpec.band 3 (by decide) j) (by show 64 * 3 + j.val = 192 + j.val; omega),
    k3_pay1_apply]

theorem lstm_cellK_apply {N : Nat} (x a c : GnnSpec.Mat N 64) (wih whh : GnnSpec.Mat 64 256) (bih bhh : GnnSpec.Mat 1 256) (n : Fin N) (j : Fin 64) :
    GnnSpec.cellK x a c wih whh bih bhh (ix2 n j)
      = Ideal.logistic (GnnSpec.gate x a wih whh bih bhh n (GnnSpec.band 1 (by decide) j)) * c (ix2 n j)
        + Ideal.logistic (GnnSpec.gate x a wih whh bih bhh n (GnnSpec.band 0 (by decide) j)) * Ideal.tanh (GnnSpec.gate x a wih whh bih bhh n (GnnSpec.band 2 (by decide) j)) := rfl

theorem lstm_stateK_apply {N : Nat} (x a c : GnnSpec.Mat N 64) (wih whh : GnnSpec.Mat 64 256) (bih bhh : GnnSpec.Mat 1 256) (n : Fin N) (j : Fin 64) :
    GnnSpec.stateK x a c wih whh bih bhh (ix2 n j)
      = Ideal.logistic (GnnSpec.gate x a wih whh bih bhh n (GnnSpec.band 3 (by decide) j)) * Ideal.tanh (GnnSpec.cellK x a c wih whh bih bhh (ix2 n j)) := rfl

theorem lstm_gate_rows {N M : Nat} (x a : GnnSpec.Mat N 64) (x' a' : GnnSpec.Mat M 64) (wih whh : GnnSpec.Mat 64 256) (bih bhh : GnnSpec.Mat 1 256)
    (n : Fin N) (m : Fin M) (hx : ∀ k, x (ix2 n k) = x' (ix2 m k)) (ha : ∀ k, a (ix2 n k) = a' (ix2 m k)) (q : Fin 256) :
    GnnSpec.gate x a wih whh bih bhh n q = GnnSpec.gate x' a' wih whh bih bhh m q := by
  unfold GnnSpec.gate
  simp only [hx, ha]

theorem lstm_cellK_rows {N M : Nat} (x a c : GnnSpec.Mat N 64) (x' a' c' : GnnSpec.Mat M 64) (wih whh : GnnSpec.Mat 64 256) (bih bhh : GnnSpec.Mat 1 256)
    (n : Fin N) (m : Fin M) (hx : ∀ k, x (ix2 n k) = x' (ix2 m k)) (ha : ∀ k, a (ix2 n k) = a' (ix2 m k)) (hc : ∀ k, c (ix2 n k) = c' (ix2 m k)) (j : Fin 64) :
    GnnSpec.cellK x a c wih whh bih bhh (ix2 n j) = GnnSpec.cellK x' a' c' wih whh bih bhh (ix2 m j) := by
  rw [lstm_cellK_apply, lstm_cellK_apply, hc j]
  simp only [lstm_gate_rows x a x' a' wih whh bih bhh n m hx ha]

theorem lstm_stateK_rows {N M : Nat} (x a c : GnnSpec.Mat N 64) (x' a' c' : GnnSpec.Mat M 64) (wih whh : GnnSpec.Mat 64 256) (bih bhh : GnnSpec.Mat 1 256)
    (n : Fin N) (m : Fin M) (hx : ∀ k, x (ix2 n k) = x' (ix2 m k)) (ha : ∀ k, a (ix2 n k) = a' (ix2 m k)) (hc : ∀ k, c (ix2 n k) = c' (ix2 m k)) (j : Fin 64) :
    GnnSpec.stateK x a c wih whh bih bhh (ix2 n j) = GnnSpec.stateK x' a' c' wih whh bih bhh (ix2 m j) := by
  rw [lstm_stateK_apply, lstm_stateK_apply, lstm_cellK_rows x a c x' a' c' wih whh bih bhh n m hx ha hc j]
  simp only [lstm_gate_rows x a x' a' wih whh bih bhh n m hx ha]

theorem lstm_hz : (![0, 0] : Fin 2 → Nat) = fun _ => 0 := funext fun a => by fin_cases a <;> rfl

variable (V : (c : Dev nD) → (b : Ref sig .tc) → Buf (Elt Ideal) ((c : Thread nD τ).loc b))

theorem lstm1_lt (t : Fin cfg1.N) : t.val < 10 := lt_of_lt_of_eq t.isLt N_1

theorem lstm1_idx_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem lstm1_idx_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem lstm1_idx_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem lstm1_idx_7 : ∀ t : Fin cfg1.N, win1_7.index t (0 : Fin 2) = t.val ∧ win1_7.index t (1 : Fin 2) = 0 :=
  (by decide +kernel : ∀ t : Fin grid1.N, win1_7.index t (0 : Fin 2) = t.val ∧ win1_7.index t (1 : Fin 2) = 0)
theorem lstm1_idx_8 : ∀ t : Fin cfg1.N, win1_8.index t (0 : Fin 2) = t.val ∧ win1_8.index t (1 : Fin 2) = 0 :=
  (by decide +kernel : ∀ t : Fin grid1.N, win1_8.index t (0 : Fin 2) = t.val ∧ win1_8.index t (1 : Fin 2) = 0)
theorem lstm1_idx_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem lstm1_idx_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem lstm1_idx_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem lstm1_idx_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

theorem iblk1_0_apply (c : Dev nD) (t : Fin cfg1.N) (n : Fin 5000) (k : Fin 64) :
    iblk1 V c 0 t (ix2 n k) = V c main_arg0 (ix2 (⟨5000 * t.val + n.val, by have := lstm1_lt t; omega⟩ : Fin 50000) k) := by
  obtain ⟨e0, e1⟩ := lstm1_idx_0 t
  show V c main_arg0 (((cfg1.win 0).blk t).view.emb (ix2 n k)) = _
  refine congrArg (V c main_arg0) (funext fun a => Fin.ext ?_)
  match a with
  | ⟨0, _⟩ => show win1_0.index t (0 : Fin 2) * 5000 + 1 * n.val = 5000 * t.val + n.val; rw [e0]; omega
  | ⟨1, _⟩ => show win1_0.index t (1 : Fin 2) * 64 + 1 * k.val = k.val; rw [e1]; omega
theorem iblk1_1_apply (c : Dev nD) (t : Fin cfg1.N) (n : Fin 5000) (k : Fin 64) :
    iblk1 V c 1 t (ix2 n k) = V c main_v19 (ix2 (⟨5000 * t.val + n.val, by have := lstm1_lt t; omega⟩ : Fin 50000) k) := by
  obtain ⟨e0, e1⟩ := lstm1_idx_1 t
  show V c main_v19 (((cfg1.win 1).blk t).view.emb (ix2 n k)) = _
  refine congrArg (V c main_v19) (funext fun a => Fin.ext ?_)
  match a with
  | ⟨0, _⟩ => show win1_1.index t (0 : Fin 2) * 5000 + 1 * n.val = 5000 * t.val + n.val; rw [e0]; omega
  | ⟨1, _⟩ => show win1_1.index t (1 : Fin 2) * 64 + 1 * k.val = k.val; rw [e1]; omega
theorem iblk1_2_apply (c : Dev nD) (t : Fin cfg1.N) (n : Fin 5000) (k : Fin 64) :
    iblk1 V c 2 t (ix2 n k) = V c main_v4 (ix2 (⟨5000 * t.val + n.val, by have := lstm1_lt t; omega⟩ : Fin 50000) k) := by
  obtain ⟨e0, e1⟩ := lstm1_idx_2 t
  show V c main_v4 (((cfg1.win 2).blk t).view.emb (ix2 n k)) = _
  refine congrArg (V c main_v4) (funext fun a => Fin.ext ?_)
  match a with
  | ⟨0, _⟩ => show win1_2.index t (0 : Fin 2) * 5000 + 1 * n.val = 5000 * t.val + n.val; rw [e0]; omega
  | ⟨1, _⟩ => show win1_2.index t (1 : Fin 2) * 64 + 1 * k.val = k.val; rw [e1]; omega

theorem iblk1_3_eq (c : Dev nD) (t : Fin cfg1.N) : iblk1 V c 3 t = V c main_v20 := by
  obtain ⟨e0, e1⟩ := lstm1_idx_3 t
  funext y
  show V c main_v20 (((cfg1.win 3).blk t).view.emb y) = V c main_v20 y
  refine congrArg (V c main_v20) (funext fun a => Fin.ext ?_)
  match a with
  | ⟨0, _⟩ => show win1_3.index t (0 : Fin 2) * 64 + 1 * (y 0).val = (y 0).val; rw [e0]; omega
  | ⟨1, _⟩ => show win1_3.index t (1 : Fin 2) * 256 + 1 * (y 1).val = (y 1).val; rw [e1]; omega
theorem iblk1_4_eq (c : Dev nD) (t : Fin cfg1.N) : iblk1 V c 4 t = V c main_v21 := by
  obtain ⟨e0, e1⟩ := lstm1_idx_4 t
  funext y
  show V c main_v21 (((cfg1.win 4).blk t).view.emb y) = V c main_v21 y
  refine congrArg (V c main_v21) (funext fun a => Fin.ext ?_)
  match a with
  | ⟨0, _⟩ => show win1_4.index t (0 : Fin 2) * 64 + 1 * (y 0).val = (y 0).val; rw [e0]; omega
  | ⟨1, _⟩ => show win1_4.index t (1 : Fin 2) * 256 + 1 * (y 1).val = (y 1).val; rw [e1]; omega
theorem iblk1_5_eq (c : Dev nD) (t : Fin cfg1.N) : iblk1 V c 5 t = V c main_v22 := by
  obtain ⟨e0, e1⟩ := lstm1_idx_5 t
  funext y
  show V c main_v22 (((cfg1.win 5).blk t).view.emb y) = V c main_v22 y
  refine congrArg (V c main_v22) (funext fun a => Fin.ext ?_)
  match a with
  | ⟨0, _⟩ => show win1_5.index t (0 : Fin 2) * 1 + 1 * (y 0).val = (y 0).val; rw [e0]; omega
  | ⟨1, _⟩ => show win1_5.index t (1 : Fin 2) * 256 + 1 * (y 1).val = (y 1).val; rw [e1]; omega
theorem iblk1_6_eq (c : Dev nD) (t : Fin cfg1.N) : iblk1 V c 6 t = V c main_v23 := by
  obtain ⟨e0, e1⟩ := lstm1_idx_6 t
  funext y
  show V c main_v23 (((cfg1.win 6).blk t).view.emb y) = V c main_v23 y
  refine congrArg (V c main_v23) (funext fun a => Fin.ext ?_)
  match a with
  | ⟨0, _⟩ => show win1_6.index t (0 : Fin 2) * 1 + 1 * (y 0).val = (y 0).val; rw [e0]; omega
  | ⟨1, _⟩ => show win1_6.index t (1 : Fin 2) * 256 + 1 * (y 1).val = (y 1).val; rw [e1]; omega

theorem lstm1_mem_blk_7 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v24_0).slice (win1_7.rect t)).set ↔ _
  rw [View.set_slice_whole, Rect.mem_set_unit]
  exact Iff.rfl

theorem lstm1_mem_blk_8 (t : Fin cfg1.N) (i : S50000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v24_1).slice (win1_8.rect t)).set ↔ _
  rw [View.set_slice_whole, Rect.mem_set_unit]
  exact Iff.rfl

theorem lstm1_flushed_7 (c : Dev nD) (t : Fin cfg1.N) :
    (dat1 (F := Ideal) V c).flushed 7 t = ((cfg1.win 7).blk t).view.read (Elt Ideal) (GnnSpec.stateK (N := 50000) (V c main_arg0) (V c main_v19) (V c main_v4) (V c main_v20) (V c main_v21) (V c main_v22) (V c main_v23)) := by
  show (cfg1.win 7).cut (grid1.coords t) ((dat1 V c).after 7 t) = _
  rw [after1_7]
  unfold out1_7
  rw [View.canon_unit_zero lstm_hz]
  simp only [View.ld_unit_zero (S := S5000x64) lstm_hz, View.ld_unit_zero (S := S64x256) lstm_hz, View.ld_unit_zero (S := S1x256) lstm_hz]
  rw [k1_pay3_eq, iblk1_3_eq, iblk1_4_eq, iblk1_5_eq, iblk1_6_eq]
  obtain ⟨e0, e1⟩ := lstm1_idx_7 t
  funext y
  obtain ⟨n, j, rfl⟩ : ∃ (n : Fin 5000) (j : Fin 64), y = ix2 n j := ⟨y 0, y 1, eq_ix2 y⟩
  have hemb : ((cfg1.win 7).blk t).view.emb (ix2 n j) = ix2 (⟨5000 * t.val + n.val, by have := lstm1_lt t; omega⟩ : Fin 50000) j := by
    funext a; apply Fin.ext
    match a with
    | ⟨0, _⟩ => show win1_7.index t (0 : Fin 2) * 5000 + 1 * n.val = 5000 * t.val + n.val; rw [e0]; omega
    | ⟨1, _⟩ => show win1_7.index t (1 : Fin 2) * 64 + 1 * j.val = j.val; rw [e1]; omega
  show GnnSpec.stateK (N := 5000) (iblk1 V c 0 t) (iblk1 V c 1 t) (iblk1 V c 2 t) (V c main_v20) (V c main_v21) (V c main_v22) (V c main_v23) (ix2 n j)
    = GnnSpec.stateK (N := 50000) (V c main_arg0) (V c main_v19) (V c main_v4) (V c main_v20) (V c main_v21) (V c main_v22) (V c main_v23) (((cfg1.win 7).blk t).view.emb (ix2 n j))
  rw [hemb]
  exact lstm_stateK_rows _ _ _ _ _ _ _ _ _ _ n _ (fun k => iblk1_0_apply V c t n k) (fun k => iblk1_1_apply V c t n k) (fun k => iblk1_2_apply V c t n k) j

theorem lstm1_cover_7 (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  let t : Fin cfg1.N := ⟨(i 0).val / 5000, by show (i 0).val / 5000 < grid1.N; rw [N_1]; omega⟩
  obtain ⟨e0, e1⟩ := lstm1_idx_7 t
  have ht : t.val = (i 0).val / 5000 := rfl
  refine ⟨t, flush1_7 t, ?_⟩
  rw [lstm1_mem_blk_7]
  intro a
  match a with
  | ⟨0, _⟩ => show win1_7.index t (0 : Fin 2) * 5000 ≤ (i 0).val ∧ (i 0).val < win1_7.index t (0 : Fin 2) * 5000 + 5000; rw [e0, ht]; omega
  | ⟨1, _⟩ => show win1_7.index t (1 : Fin 2) * 64 ≤ (i 1).val ∧ (i 1).val < win1_7.index t (1 : Fin 2) * 64 + 64; rw [e1]; omega

theorem lstm1_flushed_8 (c : Dev nD) (t : Fin cfg1.N) :
    (dat1 (F := Ideal) V c).flushed 8 t = ((cfg1.win 8).blk t).view.read (Elt Ideal) (GnnSpec.cellK (N := 50000) (V c main_arg0) (V c main_v19) (V c main_v4) (V c main_v20) (V c main_v21) (V c main_v22) (V c main_v23)) := by
  show (cfg1.win 8).cut (grid1.coords t) ((dat1 V c).after 8 t) = _
  rw [after1_8]
  unfold out1_8
  rw [View.canon_unit_zero lstm_hz]
  simp only [View.ld_unit_zero (S := S5000x64) lstm_hz, View.ld_unit_zero (S := S64x256) lstm_hz, View.ld_unit_zero (S := S1x256) lstm_hz]
  rw [k1_pay2_eq, iblk1_3_eq, iblk1_4_eq, iblk1_5_eq, iblk1_6_eq]
  obtain ⟨e0, e1⟩ := lstm1_idx_8 t
  funext y
  obtain ⟨n, j, rfl⟩ : ∃ (n : Fin 5000) (j : Fin 64), y = ix2 n j := ⟨y 0, y 1, eq_ix2 y⟩
  have hemb : ((cfg1.win 8).blk t).view.emb (ix2 n j) = ix2 (⟨5000 * t.val + n.val, by have := lstm1_lt t; omega⟩ : Fin 50000) j := by
    funext a; apply Fin.ext
    match a with
    | ⟨0, _⟩ => show win1_8.index t (0 : Fin 2) * 5000 + 1 * n.val = 5000 * t.val + n.val; rw [e0]; omega
    | ⟨1, _⟩ => show win1_8.index t (1 : Fin 2) * 64 + 1 * j.val = j.val; rw [e1]; omega
  show GnnSpec.cellK (N := 5000) (iblk1 V c 0 t) (iblk1 V c 1 t) (iblk1 V c 2 t) (V c main_v20) (V c main_v21) (V c main_v22) (V c main_v23) (ix2 n j)
    = GnnSpec.cellK (N := 50000) (V c main_arg0) (V c main_v19) (V c main_v4) (V c main_v20) (V c main_v21) (V c main_v22) (V c main_v23) (((cfg1.win 8).blk t).view.emb (ix2 n j))
  rw [hemb]
  exact lstm_cellK_rows _ _ _ _ _ _ _ _ _ _ n _ (fun k => iblk1_0_apply V c t n k) (fun k => iblk1_1_apply V c t n k) (fun k => iblk1_2_apply V c t n k) j

theorem lstm1_cover_8 (i : S50000x64.Idx) :
    ∃ t : Fin cfg1.N, (cfg1.win 8).flush t = true ∧ i ∈ ((cfg1.win 8).blk t).view.set := by
  have hi0 : (i 0).val < 50000 := (i 0).isLt
  have hi1 : (i 1).val < 64 := (i 1).isLt
  let t : Fin cfg1.N := ⟨(i 0).val / 5000, by show (i 0).val / 5000 < grid1.N; rw [N_1]; omega⟩
  obtain ⟨e0, e1⟩ := lstm1_idx_8 t
  have ht : t.val = (i 0).val / 5000 := rfl
  refine ⟨t, flush1_8 t, ?_⟩
  rw [lstm1_mem_blk_8]
  intro a
  match a with
  | ⟨0, _⟩ => show win1_8.index t (0 : Fin 2) * 5000 ≤ (i 0).val ∧ (i 0).val < win1_8.index t (0 : Fin 2) * 5000 + 5000; rw [e0, ht]; omega
  | ⟨1, _⟩ => show win1_8.index t (1 : Fin 2) * 64 ≤ (i 1).val ∧ (i 1).val < win1_8.index t (1 : Fin 2) * 64 + 64; rw [e1]; omega

/-- After region 1 its two output arrays are the new state and the new cell of all 50000 nodes: ten blocks of 5000 rows cover each. -/
theorem lstm1_state (c : Dev nD) : (dat1 (F := Ideal) V c).arrAt 7 cfg1.N =
    GnnSpec.stateK (N := 50000) (V c main_arg0) (V c main_v19) (V c main_v4) (V c main_v20) (V c main_v21) (V c main_v22) (V c main_v23) :=
  (dat1 (F := Ideal) V c).arrAt_eq_of_cover 7 (GnnSpec.stateK (N := 50000) (V c main_arg0) (V c main_v19) (V c main_v4) (V c main_v20) (V c main_v21) (V c main_v22) (V c main_v23)) (fun t _ => lstm1_flushed_7 V c t) lstm1_cover_7

theorem lstm1_cell (c : Dev nD) : (dat1 (F := Ideal) V c).arrAt 8 cfg1.N =
    GnnSpec.cellK (N := 50000) (V c main_arg0) (V c main_v19) (V c main_v4) (V c main_v20) (V c main_v21) (V c main_v22) (V c main_v23) :=
  (dat1 (F := Ideal) V c).arrAt_eq_of_cover 8 (GnnSpec.cellK (N := 50000) (V c main_arg0) (V c main_v19) (V c main_v4) (V c main_v20) (V c main_v21) (V c main_v22) (V c main_v23)) (fun t _ => lstm1_flushed_8 V c t) lstm1_cover_8

theorem lstm3_lt (t : Fin cfg3.N) : t.val < 10 := lt_of_lt_of_eq t.isLt N_3

theorem lstm3_idx_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem lstm3_idx_1 : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)
theorem lstm3_idx_2 : ∀ t : Fin cfg3.N, win3_2.index t (0 : Fin 2) = t.val ∧ win3_2.index t (1 : Fin 2) = 0 :=
  (by decide +kernel : ∀ t : Fin grid3.N, win3_2.index t (0 : Fin 2) = t.val ∧ win3_2.index t (1 : Fin 2) = 0)
theorem lstm3_idx_7 : ∀ t : Fin cfg3.N, win3_7.index t (0 : Fin 2) = t.val ∧ win3_7.index t (1 : Fin 2) = 0 :=
  (by decide +kernel : ∀ t : Fin grid3.N, win3_7.index t (0 : Fin 2) = t.val ∧ win3_7.index t (1 : Fin 2) = 0)
theorem lstm3_idx_8 : ∀ t : Fin cfg3.N, win3_8.index t (0 : Fin 2) = t.val ∧ win3_8.index t (1 : Fin 2) = 0 :=
  (by decide +kernel : ∀ t : Fin grid3.N, win3_8.index t (0 : Fin 2) = t.val ∧ win3_8.index t (1 : Fin 2) = 0)
theorem lstm3_idx_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem lstm3_idx_4 : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)
theorem lstm3_idx_5 : ∀ t : Fin cfg3.N, win3_5.index t (0 : Fin 2) = 0 ∧ win3_5.index t (1 : Fin 2) = 0 :=
  (by decide +kernel : ∀ t : Fin grid3.N, win3_5.index t (0 : Fin 2) = 0 ∧ win3_5.index t (1 : Fin 2) = 0)
theorem lstm3_idx_6 : ∀ t : Fin cfg3.N, win3_6.index t (0 : Fin 2) = 0 ∧ win3_6.index t (1 : Fin 2) = 0 :=
  (by decide +kernel : ∀ t : Fin grid3.N, win3_6.index t (0 : Fin 2) = 0 ∧ win3_6.index t (1 : Fin 2) = 0)

theorem iblk3_0_apply (c : Dev nD) (t : Fin cfg3.N) (n : Fin 5000) (k : Fin 64) :
    iblk3 V c 0 t (ix2 n k) = V c main_v24_0 (ix2 (⟨5000 * t.val + n.val, by have := lstm3_lt t; omega⟩ : Fin 50000) k) := by
  obtain ⟨e0, e1⟩ := lstm3_idx_0 t
  show V c main_v24_0 (((cfg3.win 0).blk t).view.emb (ix2 n k)) = _
  refine congrArg (V c main_v24_0) (funext fun a => Fin.ext ?_)
  match a with
  | ⟨0, _⟩ => show win3_0.index t (0 : Fin 2) * 5000 + 1 * n.val = 5000 * t.val + n.val; rw [e0]; omega
  | ⟨1, _⟩ => show win3_0.index t (1 : Fin 2) * 64 + 1 * k.val = k.val; rw [e1]; omega
theorem iblk3_1_apply (c : Dev nD) (t : Fin cfg3.N) (n : Fin 5000) (k : Fin 64) :
    iblk3 V c 1 t (ix2 n k) = V c main_v39 (ix2 (⟨5000 * t.val + n.val, by have := lstm3_lt t; omega⟩ : Fin 50000) k) := by
  obtain ⟨e0, e1⟩ := lstm3_idx_1 t
  show V c main_v39 (((cfg3.win 1).blk t).view.emb (ix2 n k)) = _
  refine congrArg (V c main_v39) (funext fun a => Fin.ext ?_)
  match a with
  | ⟨0, _⟩ => show win3_1.index t (0 : Fin 2) * 5000 + 1 * n.val = 5000 * t.val + n.val; rw [e0]; omega
  | ⟨1, _⟩ => show win3_1.index t (1 : Fin 2) * 64 + 1 * k.val = k.val; rw [e1]; omega
theorem iblk3_2_apply (c : Dev nD) (t : Fin cfg3.N) (n : Fin 5000) (k : Fin 64) :
    iblk3 V c 2 t (ix2 n k) = V c main_v24_1 (ix2 (⟨5000 * t.val + n.val, by have := lstm3_lt t; omega⟩ : Fin 50000) k) := by
  obtain ⟨e0, e1⟩ := lstm3_idx_2 t
  show V c main_v24_1 (((cfg3.win 2).blk t).view.emb (ix2 n k)) = _
  refine congrArg (V c main_v24_1) (funext fun a => Fin.ext ?_)
  match a with
  | ⟨0, _⟩ => show win3_2.index t (0 : Fin 2) * 5000 + 1 * n.val = 5000 * t.val + n.val; rw [e0]; omega
  | ⟨1, _⟩ => show win3_2.index t (1 : Fin 2) * 64 + 1 * k.val = k.val; rw [e1]; omega

theorem iblk3_3_eq (c : Dev nD) (t : Fin cfg3.N) : iblk3 V c 3 t = V c main_v40 := by
  obtain ⟨e0, e1⟩ := lstm3_idx_3 t
  funext y
  show V c main_v40 (((cfg3.win 3).blk t).view.emb y) = V c main_v40 y
  refine congrArg (V c main_v40) (funext fun a => Fin.ext ?_)
  match a with
  | ⟨0, _⟩ => show win3_3.index t (0 : Fin 2) * 64 + 1 * (y 0).val = (y 0).val; rw [e0]; omega
  | ⟨1, _⟩ => show win3_3.index t (1 : Fin 2) * 256 + 1 * (y 1).val = (y 1).val; rw [e1]; omega
theorem iblk3_4_eq (c : Dev nD) (t : Fin cfg3.N) : iblk3 V c 4 t = V c main_v41 := by
  obtain ⟨e0, e1⟩ := lstm3_idx_4 t
  funext y
  show V c main_v41 (((cfg3.win 4).blk t).view.emb y) = V c main_v41 y
  refine congrArg (V c main_v41) (funext fun a => Fin.ext ?_)
  match a with
  | ⟨0, _⟩ => show win3_4.index t (0 : Fin 2) * 64 + 1 * (y 0).val = (y 0).val; rw [e0]; omega
  | ⟨1, _⟩ => show win3_4.index t (1 : Fin 2) * 256 + 1 * (y 1).val = (y 1).val; rw [e1]; omega
theorem iblk3_5_eq (c : Dev nD) (t : Fin cfg3.N) : iblk3 V c 5 t = V c main_v42 := by
  obtain ⟨e0, e1⟩ := lstm3_idx_5 t
  funext y
  show V c main_v42 (((cfg3.win 5).blk t).view.emb y) = V c main_v42 y
  refine congrArg (V c main_v42) (funext fun a => Fin.ext ?_)
  match a with
  | ⟨0, _⟩ => show win3_5.index t (0 : Fin 2) * 1 + 1 * (y 0).val = (y 0).val; rw [e0]; omega
  | ⟨1, _⟩ => show win3_5.index t (1 : Fin 2) * 256 + 1 * (y 1).val = (y 1).val; rw [e1]; omega
theorem iblk3_6_eq (c : Dev nD) (t : Fin cfg3.N) : iblk3 V c 6 t = V c main_v43 := by
  obtain ⟨e0, e1⟩ := lstm3_idx_6 t
  funext y
  show V c main_v43 (((cfg3.win 6).blk t).view.emb y) = V c main_v43 y
  refine congrArg (V c main_v43) (funext fun a => Fin.ext ?_)
  match a with
  | ⟨0, _⟩ => show win3_6.index t (0 : Fin 2) * 1 + 1 * (y 0).val = (y 0).val; rw [e0]; omega
  | ⟨1, _⟩ => show win3_6.index t (1 : Fin 2) * 256 + 1 * (y 1).val = (y 1).val; rw [e1]; omega

theorem lstm3_mem_blk_7 (t : Fin cfg3.N) (i : S50000x64.Idx) :
    i ∈ ((cfg3.win 7).blk t).view.set ↔ ∀ a : Fin 2, win3_7.index t a * S5000x64.size a ≤ (i a).val ∧ (i a).val < win3_7.index t a * S5000x64.size a + S5000x64.size a := by
  show i ∈ ((View.whole main_v44_0).slice (win3_7.rect t)).set ↔ _
  rw [View.set_slice_whole, Rect.mem_set_unit]
  exact Iff.rfl

theorem lstm3_mem_blk_8 (t : Fin cfg3.N) (i : S50000x64.Idx) :
    i ∈ ((cfg3.win 8).blk t).view.set ↔ ∀ a : Fin 2, win3_8.index t a * S5000x64.size a ≤ (i a).val ∧ (i a).val < win3_8.index t a * S5000x64.size a + S5000x64.size a := by
  show i ∈ ((View.whole main_v44_1).slice (win3_8.rect t)).set ↔ _
  rw [View.set_slice_whole, Rect.mem_set_unit]
  exact Iff.rfl

theorem lstm3_flushed_7 (c : Dev nD) (t : Fin cfg3.N) :
    (dat3 (F := Ideal) V c).flushed 7 t = ((cfg3.win 7).blk t).view.read (Elt Ideal) (GnnSpec.stateK (N := 50000) (V c main_v24_0) (V c main_v39) (V c main_v24_1) (V c main_v40) (V c main_v41) (V c main_v42) (V c main_v43)) := by
  show (cfg3.win 7).cut (grid3.coords t) ((dat3 V c).after 7 t) = _
  rw [after3_7]
  unfold out3_7
  rw [View.canon_unit_zero lstm_hz]
  simp only [View.ld_unit_zero (S := S5000x64) lstm_hz, View.ld_unit_zero (S := S64x256) lstm_hz, View.ld_unit_zero (S := S1x256) lstm_hz]
  rw [k3_pay3_eq, iblk3_3_eq, iblk3_4_eq, iblk3_5_eq, iblk3_6_eq]
  obtain ⟨e0, e1⟩ := lstm3_idx_7 t
  funext y
  obtain ⟨n, j, rfl⟩ : ∃ (n : Fin 5000) (j : Fin 64), y = ix2 n j := ⟨y 0, y 1, eq_ix2 y⟩
  have hemb : ((cfg3.win 7).blk t).view.emb (ix2 n j) = ix2 (⟨5000 * t.val + n.val, by have := lstm3_lt t; omega⟩ : Fin 50000) j := by
    funext a; apply Fin.ext
    match a with
    | ⟨0, _⟩ => show win3_7.index t (0 : Fin 2) * 5000 + 1 * n.val = 5000 * t.val + n.val; rw [e0]; omega
    | ⟨1, _⟩ => show win3_7.index t (1 : Fin 2) * 64 + 1 * j.val = j.val; rw [e1]; omega
  show GnnSpec.stateK (N := 5000) (iblk3 V c 0 t) (iblk3 V c 1 t) (iblk3 V c 2 t) (V c main_v40) (V c main_v41) (V c main_v42) (V c main_v43) (ix2 n j)
    = GnnSpec.stateK (N := 50000) (V c main_v24_0) (V c main_v39) (V c main_v24_1) (V c main_v40) (V c main_v41) (V c main_v42) (V c main_v43) (((cfg3.win 7).blk t).view.emb (ix2 n j))
  rw [hemb]
  exact lstm_stateK_rows _ _ _ _ _ _ _ _ _ _ n _ (fun k => iblk3_0_apply V c t n k) (fun k => iblk3_1_apply V c t n k) (fun k => iblk3_2_apply V c t n k) j

theorem lstm3_cover_7 (i : S50000x64.Idx) :
    ∃ t : Fin cfg3.N, (cfg3.win 7).flush t = true ∧ i ∈ ((cfg3.win 7).blk t).view.set := by
  have hi0 : (i 0).val < 50000 := (i 0).isLt
  have hi1 : (i 1).val < 64 := (i 1).isLt
  let t : Fin cfg3.N := ⟨(i 0).val / 5000, by show (i 0).val / 5000 < grid3.N; rw [N_3]; omega⟩
  obtain ⟨e0, e1⟩ := lstm3_idx_7 t
  have ht : t.val = (i 0).val / 5000 := rfl
  refine ⟨t, flush3_7 t, ?_⟩
  rw [lstm3_mem_blk_7]
  intro a
  match a with
  | ⟨0, _⟩ => show win3_7.index t (0 : Fin 2) * 5000 ≤ (i 0).val ∧ (i 0).val < win3_7.index t (0 : Fin 2) * 5000 + 5000; rw [e0, ht]; omega
  | ⟨1, _⟩ => show win3_7.index t (1 : Fin 2) * 64 ≤ (i 1).val ∧ (i 1).val < win3_7.index t (1 : Fin 2) * 64 + 64; rw [e1]; omega

theorem lstm3_flushed_8 (c : Dev nD) (t : Fin cfg3.N) :
    (dat3 (F := Ideal) V c).flushed 8 t = ((cfg3.win 8).blk t).view.read (Elt Ideal) (GnnSpec.cellK (N := 50000) (V c main_v24_0) (V c main_v39) (V c main_v24_1) (V c main_v40) (V c main_v41) (V c main_v42) (V c main_v43)) := by
  show (cfg3.win 8).cut (grid3.coords t) ((dat3 V c).after 8 t) = _
  rw [after3_8]
  unfold out3_8
  rw [View.canon_unit_zero lstm_hz]
  simp only [View.ld_unit_zero (S := S5000x64) lstm_hz, View.ld_unit_zero (S := S64x256) lstm_hz, View.ld_unit_zero (S := S1x256) lstm_hz]
  rw [k3_pay2_eq, iblk3_3_eq, iblk3_4_eq, iblk3_5_eq, iblk3_6_eq]
  obtain ⟨e0, e1⟩ := lstm3_idx_8 t
  funext y
  obtain ⟨n, j, rfl⟩ : ∃ (n : Fin 5000) (j : Fin 64), y = ix2 n j := ⟨y 0, y 1, eq_ix2 y⟩
  have hemb : ((cfg3.win 8).blk t).view.emb (ix2 n j) = ix2 (⟨5000 * t.val + n.val, by have := lstm3_lt t; omega⟩ : Fin 50000) j := by
    funext a; apply Fin.ext
    match a with
    | ⟨0, _⟩ => show win3_8.index t (0 : Fin 2) * 5000 + 1 * n.val = 5000 * t.val + n.val; rw [e0]; omega
    | ⟨1, _⟩ => show win3_8.index t (1 : Fin 2) * 64 + 1 * j.val = j.val; rw [e1]; omega
  show GnnSpec.cellK (N := 5000) (iblk3 V c 0 t) (iblk3 V c 1 t) (iblk3 V c 2 t) (V c main_v40) (V c main_v41) (V c main_v42) (V c main_v43) (ix2 n j)
    = GnnSpec.cellK (N := 50000) (V c main_v24_0) (V c main_v39) (V c main_v24_1) (V c main_v40) (V c main_v41) (V c main_v42) (V c main_v43) (((cfg3.win 8).blk t).view.emb (ix2 n j))
  rw [hemb]
  exact lstm_cellK_rows _ _ _ _ _ _ _ _ _ _ n _ (fun k => iblk3_0_apply V c t n k) (fun k => iblk3_1_apply V c t n k) (fun k => iblk3_2_apply V c t n k) j

theorem lstm3_cover_8 (i : S50000x64.Idx) :
    ∃ t : Fin cfg3.N, (cfg3.win 8).flush t = true ∧ i ∈ ((cfg3.win 8).blk t).view.set := by
  have hi0 : (i 0).val < 50000 := (i 0).isLt
  have hi1 : (i 1).val < 64 := (i 1).isLt
  let t : Fin cfg3.N := ⟨(i 0).val / 5000, by show (i 0).val / 5000 < grid3.N; rw [N_3]; omega⟩
  obtain ⟨e0, e1⟩ := lstm3_idx_8 t
  have ht : t.val = (i 0).val / 5000 := rfl
  refine ⟨t, flush3_8 t, ?_⟩
  rw [lstm3_mem_blk_8]
  intro a
  match a with
  | ⟨0, _⟩ => show win3_8.index t (0 : Fin 2) * 5000 ≤ (i 0).val ∧ (i 0).val < win3_8.index t (0 : Fin 2) * 5000 + 5000; rw [e0, ht]; omega
  | ⟨1, _⟩ => show win3_8.index t (1 : Fin 2) * 64 ≤ (i 1).val ∧ (i 1).val < win3_8.index t (1 : Fin 2) * 64 + 64; rw [e1]; omega

theorem lstm3_state (c : Dev nD) : (dat3 (F := Ideal) V c).arrAt 7 cfg3.N =
    GnnSpec.stateK (N := 50000) (V c main_v24_0) (V c main_v39) (V c main_v24_1) (V c main_v40) (V c main_v41) (V c main_v42) (V c main_v43) :=
  (dat3 (F := Ideal) V c).arrAt_eq_of_cover 7 (GnnSpec.stateK (N := 50000) (V c main_v24_0) (V c main_v39) (V c main_v24_1) (V c main_v40) (V c main_v41) (V c main_v42) (V c main_v43)) (fun t _ => lstm3_flushed_7 V c t) lstm3_cover_7

theorem lstm3_cell (c : Dev nD) : (dat3 (F := Ideal) V c).arrAt 8 cfg3.N =
    GnnSpec.cellK (N := 50000) (V c main_v24_0) (V c main_v39) (V c main_v24_1) (V c main_v40) (V c main_v41) (V c main_v42) (V c main_v43) :=
  (dat3 (F := Ideal) V c).arrAt_eq_of_cover 8 (GnnSpec.cellK (N := 50000) (V c main_v24_0) (V c main_v39) (V c main_v24_1) (V c main_v40) (V c main_v41) (V c main_v42) (V c main_v43)) (fun t _ => lstm3_flushed_8 V c t) lstm3_cover_8

end Cert.KernelIdeal.Hand

end
-- ==== Proof.Bridge1.lean ====
import proofs.«420294_j24077586661648_2_alg».proof.Proof.Stages
import proofs.«420294_j24077586661648_2_alg».proof.Proof.Frames
import proofs.«420294_j24077586661648_2_alg».proof.Proof.HostSide
import proofs.«420294_j24077586661648_2_alg».proof.Proof.HostWeights
import proofs.«420294_j24077586661648_2_alg».proof.Proof.RefTake
import proofs.«420294_j24077586661648_2_alg».proof.Proof.EdgeVal
import proofs.«420294_j24077586661648_2_alg».proof.Proof.LstmVal

set_option maxRecDepth 16384

noncomputable section

namespace Cert.KernelIdeal.Hand

open Cert.KernelIdeal Cert.KernelIdeal.Gen Cert.KernelIdeal.HostSide
open Cert.ReferenceIdeal.ReadP Cert.ReferenceIdeal.RefSide
open Idealize.ShloMosaic Idealize.ShloMosaic.TcCoe Idealize.ShloMosaic.ValueIdx
open Idealize.SL Idealize.SL.Sem

variable [Cert.KernelIdeal.Facts] [Cert.ReferenceIdeal.Facts]
variable (m : (ℓ : Loc nD τ sig) → Buf (Elt Ideal) ℓ) (c : Dev nD)

theorem B_v3 : (W1 m c (Proc.devRef .tc main_v3) : IVec S800000 32) = r3 m c :=
  (h0_v3 (W0 m c)).trans (ref_dst _).symm

theorem B_v1 : (W1 m c (Proc.devRef .tc main_v1) : IVec S800000 32) = r1 m c :=
  (h0_v1 (W0 m c)).trans (ref_src _).symm

theorem B_v4 : (W1 m c (Proc.devRef .tc main_v4) : GnnSpec.Mat 50000 64) = val_main_v4 (F := Ideal) :=
  (h0_v4 (W0 m c)).trans (funext fun i => (ref_zero4 i).symm)

theorem v1_at2 : W2 m c (Proc.devRef .tc main_v1) = W1 m c (Proc.devRef .tc main_v1) :=
  s2 m c main_v1 (by decide)
theorem v3_at5 : W5 m c (Proc.devRef .tc main_v3) = W1 m c (Proc.devRef .tc main_v3) :=
  (s5 m c main_v3 (by decide)).trans <| (s4 m c main_v3 (by decide)).trans <| (s3 m c main_v3 (by decide)).trans (s2 m c main_v3 (by decide))

theorem B_xd1 (hr : ∀ i, InRange ((m ((c.tc : Thread nD τ).loc main_arg2) : IVec S2x800000 32) i)) :
    W2 m c (Proc.devRef .tc main_v5) = r11 m c := by
  have hr1 : ∀ p, InRange ((W1 m c (Proc.devRef .tc main_v3) : IVec S800000 32) p) := fun p => h0_v3_range (W0 m c) hr p
  refine (take_eq_gather0_1 (W1 m c) hr1).trans ?_
  rw [unw1 m c main_arg0 (by decide), B_v3 m c]
  exact (ref_take11 _ _).symm

theorem B_xs1 (hr : ∀ i, InRange ((m ((c.tc : Thread nD τ).loc main_arg2) : IVec S2x800000 32) i)) :
    W3 m c (Proc.devRef .tc main_v6) = r18 m c := by
  have hr2 : ∀ p, InRange ((W2 m c (Proc.devRef .tc main_v1) : IVec S800000 32) p) := fun p => by
    rw [v1_at2 m c]; exact h0_v1_range (W0 m c) hr p
  refine (take_eq_gather0_2 (W2 m c) hr2).trans ?_
  rw [unw2 m c main_arg0 (by decide), v1_at2 m c, B_v1 m c]
  exact (ref_take18 _ _).symm

theorem B_m1 (hr : ∀ i, InRange ((m ((c.tc : Thread nD τ).loc main_arg2) : IVec S2x800000 32) i)) :
    W5 m c (Proc.devRef .tc main_v16) = r28 m c := by
  have e0 : V4 m c main_v5 = r11 m c :=
    (s4 m c main_v5 (by decide)).trans ((s3 m c main_v5 (by decide)).trans (B_xd1 m c hr))
  have e1 : V4 m c main_v6 = r18 m c :=
    (s4 m c main_v6 (by decide)).trans (B_xs1 m c hr)
  have e2 : V4 m c main_arg1 = ar m c main_arg1 := unw4 m c main_arg1 (by decide)
  have e3 := h0_3_v8 (W3 m c)
  have e4 := h0_3_v10 (W3 m c)
  have e5 := h0_3_v12 (W3 m c)
  have e6 := h0_3_v13 (W3 m c)
  have e7 := h0_3_v14 (W3 m c)
  have e8 := h0_3_v15 (W3 m c)
  rw [unw3 m c main_arg3 (by decide)] at e3 e4 e5
  rw [unw3 m c main_arg4 (by decide)] at e6
  rw [unw3 m c main_arg5 (by decide)] at e7
  rw [unw3 m c main_arg6 (by decide)] at e8
  refine (W5_arr m c 9).trans ((edge0_arr (V4 m) c).trans ?_)
  rw [e0, e1, e2]
  refine Eq.trans ?_ (ref_msg1 _ _ _ _ _ _ _).symm
  exact congr (congr (congr (congr (congr (congrArg _ e3) e4) e5) e6) e7) e8

theorem B_a1 (hr : ∀ i, InRange ((m ((c.tc : Thread nD τ).loc main_arg2) : IVec S2x800000 32) i)) :
    W6 m c (Proc.devRef .tc main_v19) = r31 m c := by
  refine (h1_v19 (W5 m c)).trans ?_
  rw [v3_at5 m c, B_v3 m c, B_m1 m c hr]
  exact (ref_scatter31 _ _ _ _ _ _ _).symm

theorem v4_at6 : W6 m c (Proc.devRef .tc main_v4) = W1 m c (Proc.devRef .tc main_v4) :=
  (s6 m c main_v4 (by decide)).trans <| (s5 m c main_v4 (by decide)).trans <| (s4 m c main_v4 (by decide)).trans <|
  (s3 m c main_v4 (by decide)).trans (s2 m c main_v4 (by decide))

theorem lstm1_operands (hr : ∀ i, InRange ((m ((c.tc : Thread nD τ).loc main_arg2) : IVec S2x800000 32) i)) :
    V6 m c main_arg0 = ar m c main_arg0
    ∧ V6 m c main_v19 = r31 m c
    ∧ (V6 m c main_v4 : GnnSpec.Mat 50000 64) = val_main_v4 (F := Ideal)
    ∧ (V6 m c main_v20 : GnnSpec.Mat 64 256) = ar m c main_arg7
    ∧ (V6 m c main_v21 : GnnSpec.Mat 64 256) = ar m c main_arg8
    ∧ (V6 m c main_v22 : GnnSpec.Mat 1 256) = GnnSpec.asRow (ar m c main_arg9)
    ∧ (V6 m c main_v23 : GnnSpec.Mat 1 256) = GnnSpec.asRow (ar m c main_arg10) := by
  refine ⟨unw6 m c main_arg0 (by decide), B_a1 m c hr, (v4_at6 m c).trans (B_v4 m c), ?_, ?_, ?_, ?_⟩
  · exact (h1_v20 (W5 m c)).trans (unw5 m c main_arg7 (by decide))
  · exact (h1_v21 (W5 m c)).trans (unw5 m c main_arg8 (by decide))
  · exact (h1_v22 (W5 m c)).trans (congrArg GnnSpec.asRow (unw5 m c main_arg9 (by decide)))
  · exact (h1_v23 (W5 m c)).trans (congrArg GnnSpec.asRow (unw5 m c main_arg10 (by decide)))

theorem B_x1 (hr : ∀ i, InRange ((m ((c.tc : Thread nD τ).loc main_arg2) : IVec S2x800000 32) i)) :
    W7 m c (Proc.devRef .tc main_v24_0) = r66 m c := by
  obtain ⟨e0, e1, e2, e3, e4, e5, e6⟩ := lstm1_operands m c hr
  refine (W7_arr m c 7).trans ((lstm1_state (V6 m) c).trans ?_)
  rw [e0, e1, e2]
  refine Eq.trans ?_ (ref_state1 _ _ _ _ _ _ _ _ _ _ _).symm
  exact congr (congr (congr (congrArg _ e3) e4) e5) e6

theorem B_c1 (hr : ∀ i, InRange ((m ((c.tc : Thread nD τ).loc main_arg2) : IVec S2x800000 32) i)) :
    W7 m c (Proc.devRef .tc main_v24_1) = r58 m c := by
  obtain ⟨e0, e1, e2, e3, e4, e5, e6⟩ := lstm1_operands m c hr
  refine (W7_arr m c 8).trans ((lstm1_cell (V6 m) c).trans ?_)
  rw [e0, e1, e2]
  refine Eq.trans ?_ (ref_cell1 _ _ _ _ _ _ _ _ _ _ _).symm
  exact congr (congr (congr (congrArg _ e3) e4) e5) e6

end Cert.KernelIdeal.Hand

end
-- ==== Proof.FinalMath.lean ====
import proofs.«420294_j24077586661648_2_alg».proof.Proof.Gen.KernelIdeal.Skeleton
import proofs.«420294_j24077586661648_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

theorem k4_pay1_eq : k4_pay1 (F := Ideal) = fun _ => 0 := by
  unfold k4_pay1
  simp only [shapeCast_self]
  funext i
  show Ideal.ofBits .f32 0x00000000#32 = 0
  exact Ideal.ofBits_zero_f32

theorem final_lhs_0 (i : S5000x50.Idx) (q : dot_S5000x64_S64x50_S5000x50_1_0_0_1_n_n.contr.Idx) :
    (dot_S5000x64_S64x50_S5000x50_1_0_0_1_n_n.lhsIdx i q 0).val = (i 0).val := by
  unfold DotDims.lhsIdx
  rw [dif_neg (show ¬(0 : Fin S5000x64.rank) ∈ dot_S5000x64_S64x50_S5000x50_1_0_0_1_n_n.lhsBatch by decide), dif_pos (show (0 : Fin S5000x64.rank) ∈ dot_S5000x64_S64x50_S5000x50_1_0_0_1_n_n.lhsNonContracting by decide)]
  rfl
theorem final_lhs_1 (i : S5000x50.Idx) (q : dot_S5000x64_S64x50_S5000x50_1_0_0_1_n_n.contr.Idx) :
    (dot_S5000x64_S64x50_S5000x50_1_0_0_1_n_n.lhsIdx i q 1).val = (q ⟨0, by decide⟩).val :=
  dot_S5000x64_S64x50_S5000x50_1_0_0_1_n_n.lhsIdx_val_of_single rfl i q
theorem final_rhs_0 (i : S5000x50.Idx) (q : dot_S5000x64_S64x50_S5000x50_1_0_0_1_n_n.contr.Idx) :
    (dot_S5000x64_S64x50_S5000x50_1_0_0_1_n_n.rhsIdx i q 0).val = (q ⟨0, by decide⟩).val :=
  dot_S5000x64_S64x50_S5000x50_1_0_0_1_n_n.rhsIdx_val_of_single rfl i q
theorem final_rhs_1 (i : S5000x50.Idx) (q : dot_S5000x64_S64x50_S5000x50_1_0_0_1_n_n.contr.Idx) :
    (dot_S5000x64_S64x50_S5000x50_1_0_0_1_n_n.rhsIdx i q 1).val = (i 1).val := by
  unfold DotDims.rhsIdx
  rw [dif_neg (show ¬(1 : Fin S64x50.rank) ∈ dot_S5000x64_S64x50_S5000x50_1_0_0_1_n_n.rhsBatch by decide), dif_pos (show (1 : Fin S64x50.rank) ∈ dot_S5000x64_S64x50_S5000x50_1_0_0_1_n_n.rhsNonContracting by decide)]
  rfl

theorem final_matmul_at (x : FVec Ideal S5000x64 .bf16) (w : FVec Ideal S64x50 .bf16) (n : Fin 5000) (j : Fin 50) :
    matmul dot_S5000x64_S64x50_S5000x50_1_0_0_1_n_n none x w (constant (F := Ideal) S5000x50 .f32 0x00000000#32) (ix2 n j)
      = ∑ k : Fin 64, x (ix2 n k) * w (ix2 k j) := by
  simp only [matmul]
  rw [Ideal.matmul_constant_zero_apply, ← Equiv.sum_comp (contrEquiv1 dot_S5000x64_S64x50_S5000x50_1_0_0_1_n_n 64 rfl rfl).symm]
  refine Finset.sum_congr rfl fun k _ => ?_
  have hk := contrEquiv1_symm_val dot_S5000x64_S64x50_S5000x50_1_0_0_1_n_n 64 rfl rfl k
  have el : dot_S5000x64_S64x50_S5000x50_1_0_0_1_n_n.lhsIdx (ix2 n j) ((contrEquiv1 dot_S5000x64_S64x50_S5000x50_1_0_0_1_n_n 64 rfl rfl).symm k) = ix2 n k := funext fun a => Fin.ext (by
    match a with
    | ⟨0, _⟩ => exact final_lhs_0 _ _
    | ⟨1, _⟩ => exact (final_lhs_1 _ _).trans hk)
  have er : dot_S5000x64_S64x50_S5000x50_1_0_0_1_n_n.rhsIdx (ix2 n j) ((contrEquiv1 dot_S5000x64_S64x50_S5000x50_1_0_0_1_n_n 64 rfl rfl).symm k) = ix2 k j := funext fun a => Fin.ext (by
    match a with
    | ⟨0, _⟩ => exact (final_rhs_0 _ _).trans hk
    | ⟨1, _⟩ => exact final_rhs_1 _ _)
  rw [el, er]

theorem final_bias_at (b : FVec Ideal S1x50 .f32) (n : Fin 5000) (j : Fin 50) :
    broadcastTo S5000x50 b broadcasts_S1x50_S5000x50 (ix2 n j) = b (ix2 (0 : Fin 1) j) :=
  broadcastTo_apply b broadcasts_S1x50_S5000x50 (ix2 n j) (ix2 (0 : Fin 1) j) (fun a => by
    match a with
    | ⟨0, _⟩ => show (0 : Nat) = if (1 : Nat) = 1 then 0 else n.val; rw [if_pos rfl]
    | ⟨1, _⟩ => show j.val = if (50 : Nat) = 1 then 0 else j.val; rw [if_neg (by decide)])

theorem final_row_at (v : FVec Ideal S50 .f32) (z : Fin 1) (j : Fin 50) :
    shapeCast S1x50 v shapeCasts_S50_S1x50 (ix2 z j) = v (ix1 j) :=
  (shapeCast_addUnit_apply ![50] v shapeCasts_S50_S1x50 (ix2 z j)).trans
    (congrArg v (funext fun a => by match a with | ⟨0, _⟩ => rfl))

theorem final_lift (n : Fin 5000) (j : Fin 50) : reduces_S5000x50_S50.lift (ix1 j) n = ix2 n j :=
  funext fun a => Fin.ext (by
    match a with
    | ⟨0, _⟩ => rfl
    | ⟨1, _⟩ => rfl)

theorem final_colsum_at (src : FVec Ideal S5000x50 .f32) (hφ : FKind.Formats .f32) (hacc : (0x00000000#32 : BitVec 32) = 0x00000000#32) (j : Fin 50) :
    multiReduction .add [0] S50 src 0x00000000#32 reduces_S5000x50_S50 hφ hacc (ix1 j) = ∑ n : Fin 5000, src (ix2 n j) :=
  (Ideal.multiReduction_add_single src 0x00000000#32 reduces_S5000x50_S50 hφ hacc (ix1 j)).trans
    (Finset.sum_congr rfl fun n _ => congrArg src (final_lift n j))

theorem final_logistic_at {s : Shape} (x : FVec Ideal s .f32) (i : s.Idx) : logistic x i = Ideal.logistic (x i) := rfl

theorem k4_pay2_eq (x : Vec Ideal S5000x64 .f32) (gw fw : Vec Ideal S64x50 .bf16) (gb fb acc : Vec Ideal S1x50 .f32) :
    k4_pay2 (F := Ideal) x gw fw gb fb acc = fun i => acc i + GnnSpec.readK (N := 5000) x gw gb fw fb i := by
  funext i
  obtain ⟨z, j, rfl⟩ : ∃ (z : Fin 1) (j : Fin 50), i = ix2 z j := ⟨i 0, i 1, eq_ix2 i⟩
  show k4_pay2 (F := Ideal) x gw fw gb fb acc (ix2 z j) = acc (ix2 z j) + ∑ n : Fin 5000, GnnSpec.readTerm x gw gb fw fb n j
  unfold k4_pay2
  simp only [shapeCast_self]
  rw [addf_apply, final_row_at]
  refine congrArg (acc (ix2 z j) + ·) ((final_colsum_at _ _ _ j).trans (Finset.sum_congr rfl fun n _ => ?_))
  rw [mulf_apply, final_logistic_at, addf_apply, addf_apply, final_matmul_at, final_matmul_at, final_bias_at, final_bias_at]
  rfl

theorem final_readTerm_rows {N M : Nat} (x : GnnSpec.Mat N 64) (x' : GnnSpec.Mat M 64) (gw : GnnSpec.Mat 64 50) (gb : GnnSpec.Mat 1 50)
    (fw : GnnSpec.Mat 64 50) (fb : GnnSpec.Mat 1 50) (n : Fin N) (m : Fin M) (hx : ∀ k, x (ix2 n k) = x' (ix2 m k)) (j : Fin 50) :
    GnnSpec.readTerm x gw gb fw fb n j = GnnSpec.readTerm x' gw gb fw fb m j := by
  unfold GnnSpec.readTerm
  simp only [hx]

theorem final_readK_blocks (X : GnnSpec.Mat 50000 64) (gw : GnnSpec.Mat 64 50) (gb : GnnSpec.Mat 1 50) (fw : GnnSpec.Mat 64 50) (fb : GnnSpec.Mat 1 50)
    (xb : Fin 10 → GnnSpec.Mat 5000 64)
    (hb : ∀ (t : Fin 10) (r : Fin 5000) (k : Fin 64), xb t (ix2 r k) = X (ix2 (⟨5000 * t.val + r.val, by omega⟩ : Fin 50000) k))
    (i : (⟨2, ![1, 50]⟩ : Shape).Idx) :
    GnnSpec.readK (N := 50000) X gw gb fw fb i = ∑ t : Fin 10, GnnSpec.readK (N := 5000) (xb t) gw gb fw fb i := by
  show ∑ n : Fin 50000, GnnSpec.readTerm X gw gb fw fb n (i 1) = ∑ t : Fin 10, ∑ r : Fin 5000, GnnSpec.readTerm (xb t) gw gb fw fb r (i 1)
  rw [← Equiv.sum_comp (finProdFinEquiv (m := 10) (n := 5000)) (fun n : Fin 50000 => GnnSpec.readTerm X gw gb fw fb n (i 1)), Fintype.sum_prod_type]
  refine Finset.sum_congr rfl fun t _ => Finset.sum_congr rfl fun r _ => ?_
  refine (final_readTerm_rows (xb t) X gw gb fw fb r _ (fun k => ?_) (i 1)).symm
  rw [hb t r k]
  exact congrArg X (funext fun a => Fin.ext (by
    match a with
    | ⟨0, _⟩ => show 5000 * t.val + r.val = r.val + 5000 * t.val; omega
    | ⟨1, _⟩ => rfl))

/-- Ten partial read-outs, each over 5000 rows and added to the running total, make the read-out over all 50000 rows: a finite sum regrouped. -/
theorem readK_fold (N : ℕ) (hN : N = 10) (X : GnnSpec.Mat 50000 64) (gw : GnnSpec.Mat 64 50) (gb : GnnSpec.Mat 1 50) (fw : GnnSpec.Mat 64 50) (fb : GnnSpec.Mat 1 50)
    (xb : (n : ℕ) → n < N → GnnSpec.Mat 5000 64)
    (hb : ∀ (n : ℕ) (h : n < N) (r : Fin 5000) (k : Fin 64), xb n h (ix2 r k) = X (ix2 (⟨5000 * n + r.val, by omega⟩ : Fin 50000) k))
    (a : (n : ℕ) → n < N → GnnSpec.Mat 1 50)
    (h0 : ∀ h : 0 < N, a 0 h = fun i => 0 + GnnSpec.readK (N := 5000) (xb 0 h) gw gb fw fb i)
    (hs : ∀ (n : ℕ) (h : n + 1 < N), a (n + 1) h = fun i => a n (Nat.lt_of_succ_lt h) i + GnnSpec.readK (N := 5000) (xb (n + 1) h) gw gb fw fb i) :
    ∀ h : 9 < N, a 9 h = GnnSpec.readK (N := 50000) X gw gb fw fb := by
  subst hN

  have key : ∀ (n : ℕ) (h : n < 10), a n h = fun i => ∑ t : Fin (n + 1), GnnSpec.readK (N := 5000) (xb t.val (by have := t.isLt; omega)) gw gb fw fb i := by
    intro n
    induction n with
    | zero =>
      intro h
      rw [h0 h]
      funext i
      rw [zero_add, Fin.sum_univ_one]
      rfl
    | succ n ih =>
      intro h
      rw [hs n h, ih (Nat.lt_of_succ_lt h)]
      funext i
      rw [Fin.sum_univ_castSucc (n := n + 1)]
      rfl
  intro h
  rw [key 9 h]
  funext i
  exact (final_readK_blocks X gw gb fw fb (fun t => xb t.val t.isLt) (fun t r k => hb t.val t.isLt r k) i).symm

end Cert.KernelIdeal.Hand

end
-- ==== Proof.FinalVal.lean ====
import proofs.«420294_j24077586661648_2_alg».proof.Proof.Final
import proofs.«420294_j24077586661648_2_alg».proof.Proof.FinalMath
import proofs.«420294_j24077586661648_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section AnyValues

variable {F : FTy → Type} [FloatOps F]
variable (V : (c : Dev nD) → (b : Ref sig .tc) → Buf (Elt F) ((c : Thread nD τ).loc b))

theorem idx4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem idx4_1 : ∀ t : Fin cfg4.N, win4_1.index t (0 : Fin 2) = 0 ∧ win4_1.index t (1 : Fin 2) = 0 :=
  (by decide +kernel : ∀ t : Fin grid4.N, win4_1.index t (0 : Fin 2) = 0 ∧ win4_1.index t (1 : Fin 2) = 0)
theorem idx4_2 : ∀ t : Fin cfg4.N, win4_2.index t (0 : Fin 2) = 0 ∧ win4_2.index t (1 : Fin 2) = 0 :=
  (by decide +kernel : ∀ t : Fin grid4.N, win4_2.index t (0 : Fin 2) = 0 ∧ win4_2.index t (1 : Fin 2) = 0)
theorem idx4_3 : ∀ t : Fin cfg4.N, win4_3.index t (0 : Fin 2) = 0 ∧ win4_3.index t (1 : Fin 2) = 0 :=
  (by decide +kernel : ∀ t : Fin grid4.N, win4_3.index t (0 : Fin 2) = 0 ∧ win4_3.index t (1 : Fin 2) = 0)
theorem idx4_4 : ∀ t : Fin cfg4.N, win4_4.index t (0 : Fin 2) = 0 ∧ win4_4.index t (1 : Fin 2) = 0 :=
  (by decide +kernel : ∀ t : Fin grid4.N, win4_4.index t (0 : Fin 2) = 0 ∧ win4_4.index t (1 : Fin 2) = 0)
theorem idx4_5 : ∀ t : Fin cfg4.N, win4_5.index t (0 : Fin 2) = 0 ∧ win4_5.index t (1 : Fin 2) = 0 :=
  (by decide +kernel : ∀ t : Fin grid4.N, win4_5.index t (0 : Fin 2) = 0 ∧ win4_5.index t (1 : Fin 2) = 0)

theorem iblk4_0_apply (c : Dev nD) (t : Fin cfg4.N) (r : Fin 5000) (k : Fin 64) (hr : 5000 * t.val + r.val < 50000) :
    (iblk4 V c 0 t : Vec F S5000x64 .f32) (ix2 r k)
      = (V c main_v44_0 : Vec F S50000x64 .f32) (ix2 (⟨5000 * t.val + r.val, hr⟩ : Fin 50000) k) := by
  unfold iblk4
  rw [View.read_apply]
  show V c main_v44_0 _ = V c main_v44_0 _
  congr 1
  funext a
  apply Fin.ext
  match a with
  | ⟨0, _⟩ => show win4_0.index t 0 * 5000 + 1 * r.val = 5000 * t.val + r.val; rw [(idx4_0 t).1]; omega
  | ⟨1, _⟩ => show win4_0.index t 1 * 64 + 1 * k.val = k.val; rw [(idx4_0 t).2]; omega

theorem iblk4_1_eq (c : Dev nD) (t : Fin cfg4.N) : (iblk4 V c 1 t : Vec F S64x50 .bf16) = (V c main_v45 : Vec F S64x50 .bf16) := by
  have hz' : (fun a => win4_1.index t a * main_v45.ty.shape.size a) = fun _ => 0 := funext fun a => by
    match a with
    | ⟨0, _⟩ => show win4_1.index t 0 * _ = 0; rw [(idx4_1 t).1]; exact Nat.zero_mul _
    | ⟨1, _⟩ => show win4_1.index t 1 * _ = 0; rw [(idx4_1 t).2]; exact Nat.zero_mul _
  exact Memref.read_access_unit_zero (Elt F) main_v45 hz' (fun a => by rw [congrFun hz' a]; simp) (V c main_v45)

theorem iblk4_2_eq (c : Dev nD) (t : Fin cfg4.N) : (iblk4 V c 2 t : Vec F S1x50 .f32) = (V c main_v46 : Vec F S1x50 .f32) := by
  have hz' : (fun a => win4_2.index t a * main_v46.ty.shape.size a) = fun _ => 0 := funext fun a => by
    match a with
    | ⟨0, _⟩ => show win4_2.index t 0 * _ = 0; rw [(idx4_2 t).1]; exact Nat.zero_mul _
    | ⟨1, _⟩ => show win4_2.index t 1 * _ = 0; rw [(idx4_2 t).2]; exact Nat.zero_mul _
  exact Memref.read_access_unit_zero (Elt F) main_v46 hz' (fun a => by rw [congrFun hz' a]; simp) (V c main_v46)

theorem iblk4_3_eq (c : Dev nD) (t : Fin cfg4.N) : (iblk4 V c 3 t : Vec F S64x50 .bf16) = (V c main_v47 : Vec F S64x50 .bf16) := by
  have hz' : (fun a => win4_3.index t a * main_v47.ty.shape.size a) = fun _ => 0 := funext fun a => by
    match a with
    | ⟨0, _⟩ => show win4_3.index t 0 * _ = 0; rw [(idx4_3 t).1]; exact Nat.zero_mul _
    | ⟨1, _⟩ => show win4_3.index t 1 * _ = 0; rw [(idx4_3 t).2]; exact Nat.zero_mul _
  exact Memref.read_access_unit_zero (Elt F) main_v47 hz' (fun a => by rw [congrFun hz' a]; simp) (V c main_v47)

theorem iblk4_4_eq (c : Dev nD) (t : Fin cfg4.N) : (iblk4 V c 4 t : Vec F S1x50 .f32) = (V c main_v48 : Vec F S1x50 .f32) := by
  have hz' : (fun a => win4_4.index t a * main_v48.ty.shape.size a) = fun _ => 0 := funext fun a => by
    match a with
    | ⟨0, _⟩ => show win4_4.index t 0 * _ = 0; rw [(idx4_4 t).1]; exact Nat.zero_mul _
    | ⟨1, _⟩ => show win4_4.index t 1 * _ = 0; rw [(idx4_4 t).2]; exact Nat.zero_mul _
  exact Memref.read_access_unit_zero (Elt F) main_v48 hz' (fun a => by rw [congrFun hz' a]; simp) (V c main_v48)

end AnyValues

theorem acc4_last_eq (V : (c : Dev nD) → (b : Ref sig .tc) → Buf (Elt Ideal) ((c : Thread nD τ).loc b)) (c : Dev nD) (h : 9 < cfg4.N) :
    acc4 (F := Ideal) V c 9 h
      = GnnSpec.readK (N := 50000) (V c main_v44_0) (V c main_v45) (V c main_v46) (V c main_v47) (V c main_v48) :=
  readK_fold cfg4.N N_4 (V c main_v44_0) (V c main_v45) (V c main_v46) (V c main_v47) (V c main_v48)
    (fun n h => iblk4 V c 0 ⟨n, h⟩)
    (fun n h r k => iblk4_0_apply V c ⟨n, h⟩ r k _)
    (acc4 V c)
    (fun h => by
      rw [acc4_zero, iblk4_1_eq V c, iblk4_2_eq V c, iblk4_3_eq V c, iblk4_4_eq V c]
      exact (k4_pay2_eq (iblk4 V c 0 ⟨0, h⟩) (V c main_v45) (V c main_v47) (V c main_v46) (V c main_v48) (k4_pay1 (F := Ideal))).trans
        (by rw [k4_pay1_eq]))
    (fun n h => by
      rw [acc4_succ, iblk4_1_eq V c, iblk4_2_eq V c, iblk4_3_eq V c, iblk4_4_eq V c]
      exact k4_pay2_eq (iblk4 V c 0 ⟨n + 1, h⟩) (V c main_v45) (V c main_v47) (V c main_v46) (V c main_v48) (acc4 V c n (Nat.lt_of_succ_lt h)))
    h

abbrev readAll4 (V : (c : Dev nD) → (b : Ref sig .tc) → Buf (Elt Ideal) ((c : Thread nD τ).loc b)) (c : Dev nD) :
    Buf (Elt Ideal) ((c : Thread nD τ).loc main_v49) :=
  GnnSpec.readK (N := 50000) (V c main_v44_0) (V c main_v45) (V c main_v46) (V c main_v47) (V c main_v48)

theorem after4_5_eq (V : (c : Dev nD) → (b : Ref sig .tc) → Buf (Elt Ideal) ((c : Thread nD τ).loc b)) (c : Dev nD)
    (t : Fin cfg4.N) (h9 : t.val = 9) : (dat4 (F := Ideal) V c).after 5 t = readAll4 V c := by
  rw [after4_5]
  obtain ⟨n, hn⟩ := t
  obtain rfl : n = 9 := h9
  exact acc4_last_eq V c hn

theorem flushed4_eq (V : (c : Dev nD) → (b : Ref sig .tc) → Buf (Elt Ideal) ((c : Thread nD τ).loc b)) (c : Dev nD)
    (t : Fin cfg4.N) (hf : (cfg4.win 5).flush t = true) :
    (dat4 (F := Ideal) V c).flushed 5 t = ((cfg4.win 5).blk t).view.read (Elt Ideal) (readAll4 V c) := by
  have hN : cfg4.N = 10 := N_4
  have h9 : t.val = 9 := by have := (flush4_5 t).mp hf; have := t.isLt; omega
  show (cfg4.win 5).cut (grid4.coords t) ((dat4 V c).after 5 t) = _
  rw [after4_5_eq V c t h9]
  have hz' : (fun a => win4_5.index t a * main_v49.ty.shape.size a) = fun _ => 0 := funext fun a => by
    match a with
    | ⟨0, _⟩ => show win4_5.index t 0 * _ = 0; rw [(idx4_5 t).1]; exact Nat.zero_mul _
    | ⟨1, _⟩ => show win4_5.index t 1 * _ = 0; rw [(idx4_5 t).2]; exact Nat.zero_mul _
  exact (Memref.read_access_unit_zero (Elt Ideal) main_v49 hz' (fun a => by rw [congrFun hz' a]; simp) (readAll4 V c)).symm

theorem cover4 (c : Dev nD) (i : ((cfg4.win 5).arr.view.loc (c.tc : Thread nD τ)).2.ty.Idx) :
    ∃ t : Fin cfg4.N, (cfg4.win 5).flush t = true ∧ i ∈ ((cfg4.win 5).blk t).view.set :=
  ⟨t4_9, (flush4_5 t4_9).mpr rfl, by
    show i ∈ ((View.whole main_v49).slice (win4_5.rect t4_9)).set
    rw [View.set_slice_whole, Rect.mem_set_unit]
    intro a
    have h0 : (i 0 : Nat) < 1 := (i 0).isLt
    have h1 : (i 1 : Nat) < 50 := (i 1).isLt
    match a with
    | ⟨0, _⟩ => show win4_5.index t4_9 0 * win4_5.size 0 ≤ (i 0 : Nat) ∧ (i 0 : Nat) < win4_5.index t4_9 0 * win4_5.size 0 + win4_5.xsize (grid4.coords t4_9) 0
                rw [show win4_5.index t4_9 0 * win4_5.size 0 = 0 from by decide +kernel, show win4_5.xsize (grid4.coords t4_9) 0 = 1 from by decide +kernel]; omega
    | ⟨1, _⟩ => show win4_5.index t4_9 1 * win4_5.size 1 ≤ (i 1 : Nat) ∧ (i 1 : Nat) < win4_5.index t4_9 1 * win4_5.size 1 + win4_5.xsize (grid4.coords t4_9) 1
                rw [show win4_5.index t4_9 1 * win4_5.size 1 = 0 from by decide +kernel, show win4_5.xsize (grid4.coords t4_9) 1 = 50 from by decide +kernel]; omega⟩

/-- After the last region its output array is the read-out over all nodes. -/
theorem final4_arr (V : (c : Dev nD) → (b : Ref sig .tc) → Buf (Elt Ideal) ((c : Thread nD τ).loc b)) (c : Dev nD) :
    (dat4 (F := Ideal) V c).arrAt 5 cfg4.N
      = GnnSpec.readK (N := 50000) (V c main_v44_0) (V c main_v45) (V c main_v46) (V c main_v47) (V c main_v48) :=
  (dat4 V c).arrAt_eq_of_cover 5 (readAll4 V c) (flushed4_eq V c) (cover4 c)

end Cert.KernelIdeal.Hand

end
-- ==== Proof.Bridge2.lean ====
import proofs.«420294_j24077586661648_2_alg».proof.Proof.Bridge1
import proofs.«420294_j24077586661648_2_alg».proof.Proof.Stages
import proofs.«420294_j24077586661648_2_alg».proof.Proof.FinalVal

set_option maxRecDepth 16384

noncomputable section

namespace Cert.KernelIdeal.Hand

open Cert.KernelIdeal Cert.KernelIdeal.Gen Cert.KernelIdeal.HostSide
open Cert.ReferenceIdeal.ReadP Cert.ReferenceIdeal.RefSide
open Idealize.ShloMosaic Idealize.ShloMosaic.TcCoe Idealize.ShloMosaic.ValueIdx
open Idealize.SL Idealize.SL.Sem

variable (m : (ℓ : Loc nD τ sig) → Buf (Elt Ideal) ℓ) (c : Dev nD)

theorem v3_at7 : W7 m c (Proc.devRef .tc main_v3) = W1 m c (Proc.devRef .tc main_v3) :=
  (s7 m c main_v3 (by decide)).trans <| (s6 m c main_v3 (by decide)).trans <| (s5 m c main_v3 (by decide)).trans <|
  (s4 m c main_v3 (by decide)).trans <| (s3 m c main_v3 (by decide)).trans (s2 m c main_v3 (by decide))
theorem v1_at8 : W8 m c (Proc.devRef .tc main_v1) = W1 m c (Proc.devRef .tc main_v1) :=
  (s8 m c main_v1 (by decide)).trans <| (s7 m c main_v1 (by decide)).trans <| (s6 m c main_v1 (by decide)).trans <|
  (s5 m c main_v1 (by decide)).trans <| (s4 m c main_v1 (by decide)).trans <| (s3 m c main_v1 (by decide)).trans (s2 m c main_v1 (by decide))
theorem v3_at11 : W11 m c (Proc.devRef .tc main_v3) = W1 m c (Proc.devRef .tc main_v3) :=
  (s11 m c main_v3 (by decide)).trans <| (s10 m c main_v3 (by decide)).trans <| (s9 m c main_v3 (by decide)).trans <|
  (s8 m c main_v3 (by decide)).trans (v3_at7 m c)

variable (hr : ∀ i, InRange ((m ((c.tc : Thread nD τ).loc main_arg2) : IVec S2x800000 32) i))
include hr

theorem B_xd2 : W8 m c (Proc.devRef .tc main_v25) = r73 m c := by
  have hr7 : ∀ p, InRange ((W7 m c (Proc.devRef .tc main_v3) : IVec S800000 32) p) := fun p => by
    rw [v3_at7 m c]; exact h0_v3_range (W0 m c) hr p
  refine (take_eq_gather2 (W7 m c) hr7).trans ?_
  rw [v3_at7 m c, B_v3 m c, B_x1 m c hr]
  exact (ref_take73 _ _ _ _ _ _ _ _ _ _ _).symm

theorem B_xs2 : W9 m c (Proc.devRef .tc main_v26) = r80 m c := by
  have hr8 : ∀ p, InRange ((W8 m c (Proc.devRef .tc main_v1) : IVec S800000 32) p) := fun p => by
    rw [v1_at8 m c]; exact h0_v1_range (W0 m c) hr p
  refine (take_eq_gather2_1 (W8 m c) hr8).trans ?_
  rw [v1_at8 m c, B_v1 m c, s8 m c main_v24_0 (by decide), B_x1 m c hr]
  exact (ref_take80 _ _ _ _ _ _ _ _ _ _ _).symm

theorem B_m2 : W11 m c (Proc.devRef .tc main_v36) = r90 m c := by
  have e0 : V10 m c main_v25 = r73 m c :=
    (s10 m c main_v25 (by decide)).trans ((s9 m c main_v25 (by decide)).trans (B_xd2 m c hr))
  have e1 : V10 m c main_v26 = r80 m c :=
    (s10 m c main_v26 (by decide)).trans (B_xs2 m c hr)
  have e2 : V10 m c main_arg1 = ar m c main_arg1 := unw10 m c main_arg1 (by decide)
  have e3 := h2_2_v28 (W9 m c)
  have e4 := h2_2_v30 (W9 m c)
  have e5 := h2_2_v32 (W9 m c)
  have e6 := h2_2_v33 (W9 m c)
  have e7 := h2_2_v34 (W9 m c)
  have e8 := h2_2_v35 (W9 m c)
  rw [unw9 m c main_arg11 (by decide)] at e3 e4 e5
  rw [unw9 m c main_arg12 (by decide)] at e6
  rw [unw9 m c main_arg13 (by decide)] at e7
  rw [unw9 m c main_arg14 (by decide)] at e8
  refine (W11_arr m c 9).trans ((edge2_arr (V10 m) c).trans ?_)
  rw [e0, e1, e2]
  refine Eq.trans ?_ (ref_msg2 _ _ _ _ _ _ _ _ _ _ _ _ _ _ _).symm
  exact congr (congr (congr (congr (congr (congrArg _ e3) e4) e5) e6) e7) e8

theorem B_a2 : W12 m c (Proc.devRef .tc main_v39) = r93 m c := by
  refine (h3_v39 (W11 m c)).trans ?_
  rw [v3_at11 m c, B_v3 m c, B_m2 m c hr]
  exact (ref_scatter93 _ _ _ _ _ _ _ _ _ _ _ _ _ _ _).symm

omit hr in

theorem x1_at12 : W12 m c (Proc.devRef .tc main_v24_0) = W7 m c (Proc.devRef .tc main_v24_0) :=
  (s12 m c main_v24_0 (by decide)).trans <| (s11 m c main_v24_0 (by decide)).trans <| (s10 m c main_v24_0 (by decide)).trans <|
  (s9 m c main_v24_0 (by decide)).trans (s8 m c main_v24_0 (by decide))
omit hr in
theorem c1_at12 : W12 m c (Proc.devRef .tc main_v24_1) = W7 m c (Proc.devRef .tc main_v24_1) :=
  (s12 m c main_v24_1 (by decide)).trans <| (s11 m c main_v24_1 (by decide)).trans <| (s10 m c main_v24_1 (by decide)).trans <|
  (s9 m c main_v24_1 (by decide)).trans (s8 m c main_v24_1 (by decide))

theorem lstm3_operands :
    V12 m c main_v24_0 = r66 m c
    ∧ V12 m c main_v39 = r93 m c
    ∧ V12 m c main_v24_1 = r58 m c
    ∧ (V12 m c main_v40 : GnnSpec.Mat 64 256) = ar m c main_arg15
    ∧ (V12 m c main_v41 : GnnSpec.Mat 64 256) = ar m c main_arg16
    ∧ (V12 m c main_v42 : GnnSpec.Mat 1 256) = GnnSpec.asRow (ar m c main_arg17)
    ∧ (V12 m c main_v43 : GnnSpec.Mat 1 256) = GnnSpec.asRow (ar m c main_arg18) := by
  refine ⟨(x1_at12 m c).trans (B_x1 m c hr), B_a2 m c hr, (c1_at12 m c).trans (B_c1 m c hr), ?_, ?_, ?_, ?_⟩
  · exact (h3_v40 (W11 m c)).trans (unw11 m c main_arg15 (by decide))
  · exact (h3_v41 (W11 m c)).trans (unw11 m c main_arg16 (by decide))
  · exact (h3_v42 (W11 m c)).trans (congrArg GnnSpec.asRow (unw11 m c main_arg17 (by decide)))
  · exact (h3_v43 (W11 m c)).trans (congrArg GnnSpec.asRow (unw11 m c main_arg18 (by decide)))

theorem B_x2 : W13 m c (Proc.devRef .tc main_v44_0) = r128 m c := by
  obtain ⟨e0, e1, e2, e3, e4, e5, e6⟩ := lstm3_operands m c hr
  refine (W13_arr m c 7).trans ((lstm3_state (V12 m) c).trans ?_)
  rw [e0, e1, e2]
  refine Eq.trans ?_ (ref_state2 _ _ _ _ _ _ _ _ _ _ _ _ _ _ _ _ _ _ _).symm
  exact congr (congr (congr (congrArg _ e3) e4) e5) e6

theorem B_c2 : W13 m c (Proc.devRef .tc main_v44_1) = r120 m c := by
  obtain ⟨e0, e1, e2, e3, e4, e5, e6⟩ := lstm3_operands m c hr
  refine (W13_arr m c 8).trans ((lstm3_cell (V12 m) c).trans ?_)
  rw [e0, e1, e2]
  refine Eq.trans ?_ (ref_cell2 _ _ _ _ _ _ _ _ _ _ _ _ _ _ _ _ _ _ _).symm
  exact congr (congr (congr (congrArg _ e3) e4) e5) e6

theorem B_out : (W15 m c (Proc.devRef .tc main_v49) : GnnSpec.Mat 1 50)
    = GnnSpec.readK (N := 50000) (r128 m c) (ar m c main_arg19) (GnnSpec.asRow (ar m c main_arg20))
        (ar m c main_arg21) (GnnSpec.asRow (ar m c main_arg22)) := by
  have e0 : V14 m c main_v44_0 = r128 m c :=
    (s14 m c main_v44_0 (by decide)).trans (B_x2 m c hr)
  have e1 : (V14 m c main_v45 : GnnSpec.Mat 64 50) = ar m c main_arg19 := (h4_v45 (W13 m c)).trans (unw13 m c main_arg19 (by decide))
  have e2 : (V14 m c main_v46 : GnnSpec.Mat 1 50) = GnnSpec.asRow (ar m c main_arg20) :=
    (h4_v46 (W13 m c)).trans (congrArg GnnSpec.asRow (unw13 m c main_arg20 (by decide)))
  have e3 : (V14 m c main_v47 : GnnSpec.Mat 64 50) = ar m c main_arg21 := (h4_v47 (W13 m c)).trans (unw13 m c main_arg21 (by decide))
  have e4 : (V14 m c main_v48 : GnnSpec.Mat 1 50) = GnnSpec.asRow (ar m c main_arg22) :=
    (h4_v48 (W13 m c)).trans (congrArg GnnSpec.asRow (unw13 m c main_arg22 (by decide)))
  refine (W15_arr m c 5).trans ((final4_arr (V14 m) c).trans ?_)
  rw [e0]
  exact congr (congr (congr (congrArg _ e1) e2) e3) e4

/-- At the end of the run the kernel program's result buffer holds the reference's result of the same launch arguments. -/
theorem B_res : (W16 m c (Proc.devRef .tc main_v50) : GnnSpec.Vc 50) = r144 m c := by
  refine (h5_v50 (W15 m c)).trans ?_
  funext i
  rw [B_out m c hr]
  exact (ref_out _ _ _ _ _ _ _ _ _ _ _ _ _ _ _ _ _ _ _ _ _ _ _ i).symm

end Cert.KernelIdeal.Hand

end
-- ==== Proof.RefRun0.lean ====
import proofs.«420294_j24077586661648_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

abbrev opsA : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x00000000#32),
    unary main_cst main_v4 (broadcastInDim S50000x64 ![] bcast_S_S50000x64 : (⟨S_, .f32⟩ : BufTy).Contents (Elt F) → (⟨S50000x64, .f32⟩ : BufTy).Contents (Elt F)),
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_v3 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_v3 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_v3 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    binary main_arg0 main_v10 main_v11 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_arg0 main_v17 main_v18 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsA_fresh : (opsA : List (HloOp τ sig (Elt F))).Forall fun op => op.fresh = ∅ := by
  simp only [List.Forall]; repeat' constructor

abbrev opsA_W : List (Ref sig .tc) := [main_v0, main_v1, main_v2, main_v3, main_cst, main_v4, main_c, main_v5, main_v6, main_c_0, main_v7, main_v8, main_v9, main_v10, main_v11, main_c_1, main_v12, main_v13, main_c_2, main_v14, main_v15, main_v16, main_v17, main_v18]
theorem opsA_writes : (opsA : List (HloOp τ sig (Elt F))).Forall fun op => op.writes ⊆ (opsA_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))

theorem opsA_keep (W : Valuation τ sig (Elt F)) (r : Ref sig .tc) (h : r ∉ opsA_W) :
    after opsA W (Proc.devRef .tc r) = W (Proc.devRef .tc r) :=
  after_of_writes_sub opsA W opsA_writes h

abbrev opsB : List (HloOp τ sig (Elt F)) :=
  [ nary ![main_v11, main_v18, main_arg1] main_v19 (fun u => concatenate S800000x160 1 [⟨S800000x64, u 0⟩, ⟨S800000x64, u 1⟩, ⟨S800000x32, u 2⟩] concatenates_S800000x64_S800000x64_S800000x32_S800000x160_d1),
    binary main_v19 main_arg3 main_v20 ((fun l r => Host.dotGeneral dot_S800000x160_S160x64_S800000x64_1_0_0_1_n_n none l r) : (⟨S800000x160, .f32⟩ : BufTy).Contents (Elt F) → (⟨S160x64, .f32⟩ : BufTy).Contents (Elt F) → (⟨S800000x64, .f32⟩ : BufTy).Contents (Elt F)),
    unary main_arg4 main_v21 (broadcastInDim S1x64 ![1] bcast_S64_S1x64_1 : (⟨S64, .f32⟩ : BufTy).Contents (Elt F) → (⟨S1x64, .f32⟩ : BufTy).Contents (Elt F)),
    unary main_v21 main_v22 (broadcastInDim S800000x64 ![0, 1] bcast_S1x64_S800000x64_0_1 : (⟨S1x64, .f32⟩ : BufTy).Contents (Elt F) → (⟨S800000x64, .f32⟩ : BufTy).Contents (Elt F)),
    binary main_v20 main_v22 main_v23 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v23) (TRef.of (T := ⟨S800000x64, .f32⟩) main_call0_v0) (TRef.of (T := ⟨S800000x64, .f32⟩) main_v24) maximumf,
    binary main_v24 main_arg5 main_v25 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg6 main_v26 (broadcastInDim S1x64 ![1] bcast_S64_S1x64_1 : (⟨S64, .f32⟩ : BufTy).Contents (Elt F) → (⟨S1x64, .f32⟩ : BufTy).Contents (Elt F)),
    unary main_v26 main_v27 (broadcastInDim S800000x64 ![0, 1] bcast_S1x64_S800000x64_0_1 : (⟨S1x64, .f32⟩ : BufTy).Contents (Elt F) → (⟨S800000x64, .f32⟩ : BufTy).Contents (Elt F)),
    binary main_v25 main_v27 main_v28 (addf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x00000000#32),
    unary main_cst_3 main_v29 (broadcastInDim S50000x64 ![] bcast_S_S50000x64 : (⟨S_, .f32⟩ : BufTy).Contents (Elt F) → (⟨S50000x64, .f32⟩ : BufTy).Contents (Elt F)),
    unary main_v3 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_arg0 main_arg7 main_v32 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    binary main_v31 main_arg8 main_v33 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    binary main_v32 main_v33 main_v34 (addf : (⟨S50000x256, .f32⟩ : BufTy).Contents (Elt F) → (⟨S50000x256, .f32⟩ : BufTy).Contents (Elt F) → (⟨S50000x256, .f32⟩ : BufTy).Contents (Elt F)),
    binary main_arg9 main_arg10 main_v35 (addf : (⟨S256, .f32⟩ : BufTy).Contents (Elt F) → (⟨S256, .f32⟩ : BufTy).Contents (Elt F) → (⟨S256, .f32⟩ : BufTy).Contents (Elt F)),
    unary main_v35 main_v36 (broadcastInDim S1x256 ![1] bcast_S256_S1x256_1 : (⟨S256, .f32⟩ : BufTy).Contents (Elt F) → (⟨S1x256, .f32⟩ : BufTy).Contents (Elt F)),
    unary main_v36 main_v37 (broadcastInDim S50000x256 ![0, 1] bcast_S1x256_S50000x256_0_1 : (⟨S1x256, .f32⟩ : BufTy).Contents (Elt F) → (⟨S50000x256, .f32⟩ : BufTy).Contents (Elt F)),
    binary main_v34 main_v37 main_v38 (addf : (⟨S50000x256, .f32⟩ : BufTy).Contents (Elt F) → (⟨S50000x256, .f32⟩ : BufTy).Contents (Elt F) → (⟨S50000x256, .f32⟩ : BufTy).Contents (Elt F)),
    unary main_v38 main_v39 ((extractStridedSlice S50000x64 ![0, 0] · slices_S50000x256_S50000x64_0_0) : (⟨S50000x256, .f32⟩ : BufTy).Contents (Elt F) → (⟨S50000x64, .f32⟩ : BufTy).Contents (Elt F)),
    unary main_v38 main_v40 ((extractStridedSlice S50000x64 ![0, 64] · slices_S50000x256_S50000x64_0_64) : (⟨S50000x256, .f32⟩ : BufTy).Contents (Elt F) → (⟨S50000x64, .f32⟩ : BufTy).Contents (Elt F)),
    unary main_v38 main_v41 ((extractStridedSlice S50000x64 ![0, 128] · slices_S50000x256_S50000x64_0_128) : (⟨S50000x256, .f32⟩ : BufTy).Contents (Elt F) → (⟨S50000x64, .f32⟩ : BufTy).Contents (Elt F)),
    unary main_v38 main_v42 ((extractStridedSlice S50000x64 ![0, 192] · slices_S50000x256_S50000x64_0_192) : (⟨S50000x256, .f32⟩ : BufTy).Contents (Elt F) → (⟨S50000x64, .f32⟩ : BufTy).Contents (Elt F)),
    unary main_v40 main_v43 (Host.negf : (⟨S50000x64, .f32⟩ : BufTy).Contents (Elt F) → (⟨S50000x64, .f32⟩ : BufTy).Contents (Elt F)),
    unary main_v43 main_v44 (Host.exp : (⟨S50000x64, .f32⟩ : BufTy).Contents (Elt F) → (⟨S50000x64, .f32⟩ : BufTy).Contents (Elt F)),
    nullary main_cst_4 (constant S_ .f32 0x3F800000#32),
    unary main_cst_4 main_v45 (broadcastInDim S50000x64 ![] bcast_S_S50000x64 : (⟨S_, .f32⟩ : BufTy).Contents (Elt F) → (⟨S50000x64, .f32⟩ : BufTy).Contents (Elt F)),
    binary main_v45 main_v44 main_v46 (addf : (⟨S50000x64, .f32⟩ : BufTy).Contents (Elt F) → (⟨S50000x64, .f32⟩ : BufTy).Contents (Elt F) → (⟨S50000x64, .f32⟩ : BufTy).Contents (Elt F)),
    nullary main_cst_5 (constant S_ .f32 0x3F800000#32),
    unary main_cst_5 main_v47 (broadcastInDim S50000x64 ![] bcast_S_S50000x64 : (⟨S_, .f32⟩ : BufTy).Contents (Elt F) → (⟨S50000x64, .f32⟩ : BufTy).Contents (Elt F)),
    binary main_v47 main_v46 main_v48 (Host.divf : (⟨S50000x64, .f32⟩ : BufTy).Contents (Elt F) → (⟨S50000x64, .f32⟩ : BufTy).Contents (Elt F) → (⟨S50000x64, .f32⟩ : BufTy).Contents (Elt F)),
    binary main_v48 main_v4 main_v49 (mulf : (⟨S50000x64, .f32⟩ : BufTy).Contents (Elt F) → (⟨S50000x64, .f32⟩ : BufTy).Contents (Elt F) → (⟨S50000x64, .f32⟩ : BufTy).Contents (Elt F)),
    unary main_v39 main_v50 (Host.negf : (⟨S50000x64, .f32⟩ : BufTy).Contents (Elt F) → (⟨S50000x64, .f32⟩ : BufTy).Contents (Elt F)),
    unary main_v50 main_v51 (Host.exp : (⟨S50000x64, .f32⟩ : BufTy).Contents (Elt F) → (⟨S50000x64, .f32⟩ : BufTy).Contents (Elt F)),
    nullary main_cst_6 (constant S_ .f32 0x3F800000#32),
    unary main_cst_6 main_v52 (broadcastInDim S50000x64 ![] bcast_S_S50000x64 : (⟨S_, .f32⟩ : BufTy).Contents (Elt F) → (⟨S50000x64, .f32⟩ : BufTy).Contents (Elt F)),
    binary main_v52 main_v51 main_v53 (addf : (⟨S50000x64, .f32⟩ : BufTy).Contents (Elt F) → (⟨S50000x64, .f32⟩ : BufTy).Contents (Elt F) → (⟨S50000x64, .f32⟩ : BufTy).Contents (Elt F)),
    nullary main_cst_7 (constant S_ .f32 0x3F800000#32),
    unary main_cst_7 main_v54 (broadcastInDim S50000x64 ![] bcast_S_S50000x64 : (⟨S_, .f32⟩ : BufTy).Contents (Elt F) → (⟨S50000x64, .f32⟩ : BufTy).Contents (Elt F)),
    binary main_v54 main_v53 main_v55 (Host.divf : (⟨S50000x64, .f32⟩ : BufTy).Contents (Elt F) → (⟨S50000x64, .f32⟩ : BufTy).Contents (Elt F) → (⟨S50000x64, .f32⟩ : BufTy).Contents (Elt F)),
    unary main_v41 main_v56 (Host.tanh : (⟨S50000x64, .f32⟩ : BufTy).Contents (Elt F) → (⟨S50000x64, .f32⟩ : BufTy).Contents (Elt F)),
    binary main_v55 main_v56 main_v57 (mulf : (⟨S50000x64, .f32⟩ : BufTy).Contents (Elt F) → (⟨S50000x64, .f32⟩ : BufTy).Contents (Elt F) → (⟨S50000x64, .f32⟩ : BufTy).Contents (Elt F)),
    binary main_v49 main_v57 main_v58 (addf : (⟨S50000x64, .f32⟩ : BufTy).Contents (Elt F) → (⟨S50000x64, .f32⟩ : BufTy).Contents (Elt F) → (⟨S50000x64, .f32⟩ : BufTy).Contents (Elt F)),
    unary main_v42 main_v59 (Host.negf : (⟨S50000x64, .f32⟩ : BufTy).Contents (Elt F) → (⟨S50000x64, .f32⟩ : BufTy).Contents (Elt F)),
    unary main_v59 main_v60 (Host.exp : (⟨S50000x64, .f32⟩ : BufTy).Contents (Elt F) → (⟨S50000x64, .f32⟩ : BufTy).Contents (Elt F)),
    nullary main_cst_8 (constant S_ .f32 0x3F800000#32),
    unary main_cst_8 main_v61 (broadcastInDim S50000x64 ![] bcast_S_S50000x64 : (⟨S_, .f32⟩ : BufTy).Contents (Elt F) → (⟨S50000x64, .f32⟩ : BufTy).Contents (Elt F)),
    binary main_v61 main_v60 main_v62 (addf : (⟨S50000x64, .f32⟩ : BufTy).Contents (Elt F) → (⟨S50000x64, .f32⟩ : BufTy).Contents (Elt F) → (⟨S50000x64, .f32⟩ : BufTy).Contents (Elt F)),
    nullary main_cst_9 (constant S_ .f32 0x3F800000#32),
    unary main_cst_9 main_v63 (broadcastInDim S50000x64 ![] bcast_S_S50000x64 : (⟨S_, .f32⟩ : BufTy).Contents (Elt F) → (⟨S50000x64, .f32⟩ : BufTy).Contents (Elt F)),
    binary main_v63 main_v62 main_v64 (Host.divf : (⟨S50000x64, .f32⟩ : BufTy).Contents (Elt F) → (⟨S50000x64, .f32⟩ : BufTy).Contents (Elt F) → (⟨S50000x64, .f32⟩ : BufTy).Contents (Elt F)),
    unary main_v58 main_v65 (Host.tanh : (⟨S50000x64, .f32⟩ : BufTy).Contents (Elt F) → (⟨S50000x64, .f32⟩ : BufTy).Contents (Elt F)),
    binary main_v64 main_v65 main_v66 (mulf : (⟨S50000x64, .f32⟩ : BufTy).Contents (Elt F) → (⟨S50000x64, .f32⟩ : BufTy).Contents (Elt F) → (⟨S50000x64, .f32⟩ : BufTy).Contents (Elt F)) ]

theorem opsB_sub : (opsB : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

theorem opsB_fresh : (opsB : List (HloOp τ sig (Elt F))).Forall fun op => op.fresh = ∅ := by
  simp only [List.Forall]; repeat' constructor

abbrev opsB_W : List (Ref sig .tc) := [main_v19, main_v20, main_v21, main_v22, main_v23, main_call0_cst, main_call0_v0, main_v24, main_v25, main_v26, main_v27, main_v28, main_cst_3, main_v29, main_v30, main_v31, main_v32, main_v33, main_v34, main_v35, main_v36, main_v37, main_v38, main_v39, main_v40, main_v41, main_v42, main_v43, main_v44, main_cst_4, main_v45, main_v46, main_cst_5, main_v47, main_v48, main_v49, main_v50, main_v51, main_cst_6, main_v52, main_v53, main_cst_7, main_v54, main_v55, main_v56, main_v57, main_v58, main_v59, main_v60, main_cst_8, main_v61, main_v62, main_cst_9, main_v63, main_v64, main_v65, main_v66]
theorem opsB_writes : (opsB : List (HloOp τ sig (Elt F))).Forall fun op => op.writes ⊆ (opsB_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))

theorem opsB_keep (W : Valuation τ sig (Elt F)) (r : Ref sig .tc) (h : r ∉ opsB_W) :
    after opsB W (Proc.devRef .tc r) = W (Proc.devRef .tc r) :=
  after_of_writes_sub opsB W opsB_writes h

abbrev opsC : List (HloOp τ sig (Elt F)) :=
  [ nullary main_c_10 (constantI S_ 32 0#32),
    unary main_c_10 main_v67 (broadcastInDim S800000 ![] bcast_S_S800000 : (⟨S_, .i32⟩ : BufTy).Contents (Elt F) → (⟨S800000, .i32⟩ : BufTy).Contents (Elt F)),
    binary main_v3 main_v67 main_v68 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v69 (broadcastInDim S800000 ![] bcast_S_S800000 : (⟨S_, .i32⟩ : BufTy).Contents (Elt F) → (⟨S800000, .i32⟩ : BufTy).Contents (Elt F)),
    binary main_v3 main_v69 main_v70 (addi : (⟨S800000, .i32⟩ : BufTy).Contents (Elt F) → (⟨S800000, .i32⟩ : BufTy).Contents (Elt F) → (⟨S800000, .i32⟩ : BufTy).Contents (Elt F)),
    ternary main_v68 main_v70 main_v3 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v71 main_v72 (broadcastInDim S800000x1 ![0] bcast_S800000_S800000x1_0 : (⟨S800000, .i32⟩ : BufTy).Contents (Elt F) → (⟨S800000x1, .i32⟩ : BufTy).Contents (Elt F)),
    binary main_v66 main_v72 main_v73 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_12 (constantI S_ 32 0#32),
    unary main_c_12 main_v74 (broadcastInDim S800000 ![] bcast_S_S800000 : (⟨S_, .i32⟩ : BufTy).Contents (Elt F) → (⟨S800000, .i32⟩ : BufTy).Contents (Elt F)),
    binary main_v1 main_v74 main_v75 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v76 (broadcastInDim S800000 ![] bcast_S_S800000 : (⟨S_, .i32⟩ : BufTy).Contents (Elt F) → (⟨S800000, .i32⟩ : BufTy).Contents (Elt F)),
    binary main_v1 main_v76 main_v77 (addi : (⟨S800000, .i32⟩ : BufTy).Contents (Elt F) → (⟨S800000, .i32⟩ : BufTy).Contents (Elt F) → (⟨S800000, .i32⟩ : BufTy).Contents (Elt F)),
    ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v78 main_v79 (broadcastInDim S800000x1 ![0] bcast_S800000_S800000x1_0 : (⟨S800000, .i32⟩ : BufTy).Contents (Elt F) → (⟨S800000x1, .i32⟩ : BufTy).Contents (Elt F)),
    binary main_v66 main_v79 main_v80 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsC_fresh : (opsC : List (HloOp τ sig (Elt F))).Forall fun op => op.fresh = ∅ := by
  simp only [List.Forall]; repeat' constructor

abbrev opsC_W : List (Ref sig .tc) := [main_c_10, main_v67, main_v68, main_c_11, main_v69, main_v70, main_v71, main_v72, main_v73, main_c_12, main_v74, main_v75, main_c_13, main_v76, main_v77, main_v78, main_v79, main_v80]
theorem opsC_writes : (opsC : List (HloOp τ sig (Elt F))).Forall fun op => op.writes ⊆ (opsC_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))

theorem opsC_keep (W : Valuation τ sig (Elt F)) (r : Ref sig .tc) (h : r ∉ opsC_W) :
    after opsC W (Proc.devRef .tc r) = W (Proc.devRef .tc r) :=
  after_of_writes_sub opsC W opsC_writes h

abbrev opsD : List (HloOp τ sig (Elt F)) :=
  [ nary ![main_v73, main_v80, main_arg1] main_v81 (fun u => concatenate S800000x160 1 [⟨S800000x64, u 0⟩, ⟨S800000x64, u 1⟩, ⟨S800000x32, u 2⟩] concatenates_S800000x64_S800000x64_S800000x32_S800000x160_d1),
    binary main_v81 main_arg11 main_v82 ((fun l r => Host.dotGeneral dot_S800000x160_S160x64_S800000x64_1_0_0_1_n_n none l r) : (⟨S800000x160, .f32⟩ : BufTy).Contents (Elt F) → (⟨S160x64, .f32⟩ : BufTy).Contents (Elt F) → (⟨S800000x64, .f32⟩ : BufTy).Contents (Elt F)),
    unary main_arg12 main_v83 (broadcastInDim S1x64 ![1] bcast_S64_S1x64_1 : (⟨S64, .f32⟩ : BufTy).Contents (Elt F) → (⟨S1x64, .f32⟩ : BufTy).Contents (Elt F)),
    unary main_v83 main_v84 (broadcastInDim S800000x64 ![0, 1] bcast_S1x64_S800000x64_0_1 : (⟨S1x64, .f32⟩ : BufTy).Contents (Elt F) → (⟨S800000x64, .f32⟩ : BufTy).Contents (Elt F)),
    binary main_v82 main_v84 main_v85 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x64, .f32⟩) main_call1_v0) (broadcastInDim S800000x64 ![] bcast_S_S800000x64),
    TRef.binary (TRef.of (T := ⟨S800000x64, .f32⟩) main_v85) (TRef.of (T := ⟨S800000x64, .f32⟩) main_call1_v0) (TRef.of (T := ⟨S800000x64, .f32⟩) main_v86) maximumf,
    binary main_v86 main_arg13 main_v87 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg14 main_v88 (broadcastInDim S1x64 ![1] bcast_S64_S1x64_1 : (⟨S64, .f32⟩ : BufTy).Contents (Elt F) → (⟨S1x64, .f32⟩ : BufTy).Contents (Elt F)),
    unary main_v88 main_v89 (broadcastInDim S800000x64 ![0, 1] bcast_S1x64_S800000x64_0_1 : (⟨S1x64, .f32⟩ : BufTy).Contents (Elt F) → (⟨S800000x64, .f32⟩ : BufTy).Contents (Elt F)),
    binary main_v87 main_v89 main_v90 (addf : (⟨S800000x64, .f32⟩ : BufTy).Contents (Elt F) → (⟨S800000x64, .f32⟩ : BufTy).Contents (Elt F) → (⟨S800000x64, .f32⟩ : BufTy).Contents (Elt F)),
    nullary main_cst_14 (constant S_ .f32 0x00000000#32),
    unary main_cst_14 main_v91 (broadcastInDim S50000x64 ![] bcast_S_S50000x64 : (⟨S_, .f32⟩ : BufTy).Contents (Elt F) → (⟨S50000x64, .f32⟩ : BufTy).Contents (Elt F)),
    unary main_v3 main_v92 (broadcastInDim S800000x1 ![0] bcast_S800000_S800000x1_0 : (⟨S800000, .i32⟩ : BufTy).Contents (Elt F) → (⟨S800000x1, .i32⟩ : BufTy).Contents (Elt F)),
    ternary main_v91 main_v92 main_v90 main_v93 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v66 main_arg15 main_v94 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    binary main_v93 main_arg16 main_v95 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    binary main_v94 main_v95 main_v96 (addf : (⟨S50000x256, .f32⟩ : BufTy).Contents (Elt F) → (⟨S50000x256, .f32⟩ : BufTy).Contents (Elt F) → (⟨S50000x256, .f32⟩ : BufTy).Contents (Elt F)),
    binary main_arg17 main_arg18 main_v97 (addf : (⟨S256, .f32⟩ : BufTy).Contents (Elt F) → (⟨S256, .f32⟩ : BufTy).Contents (Elt F) → (⟨S256, .f32⟩ : BufTy).Contents (Elt F)),
    unary main_v97 main_v98 (broadcastInDim S1x256 ![1] bcast_S256_S1x256_1 : (⟨S256, .f32⟩ : BufTy).Contents (Elt F) → (⟨S1x256, .f32⟩ : BufTy).Contents (Elt F)),
    unary main_v98 main_v99 (broadcastInDim S50000x256 ![0, 1] bcast_S1x256_S50000x256_0_1 : (⟨S1x256, .f32⟩ : BufTy).Contents (Elt F) → (⟨S50000x256, .f32⟩ : BufTy).Contents (Elt F)),
    binary main_v96 main_v99 main_v100 (addf : (⟨S50000x256, .f32⟩ : BufTy).Contents (Elt F) → (⟨S50000x256, .f32⟩ : BufTy).Contents (Elt F) → (⟨S50000x256, .f32⟩ : BufTy).Contents (Elt F)),
    unary main_v100 main_v101 ((extractStridedSlice S50000x64 ![0, 0] · slices_S50000x256_S50000x64_0_0) : (⟨S50000x256, .f32⟩ : BufTy).Contents (Elt F) → (⟨S50000x64, .f32⟩ : BufTy).Contents (Elt F)),
    unary main_v100 main_v102 ((extractStridedSlice S50000x64 ![0, 64] · slices_S50000x256_S50000x64_0_64) : (⟨S50000x256, .f32⟩ : BufTy).Contents (Elt F) → (⟨S50000x64, .f32⟩ : BufTy).Contents (Elt F)),
    unary main_v100 main_v103 ((extractStridedSlice S50000x64 ![0, 128] · slices_S50000x256_S50000x64_0_128) : (⟨S50000x256, .f32⟩ : BufTy).Contents (Elt F) → (⟨S50000x64, .f32⟩ : BufTy).Contents (Elt F)),
    unary main_v100 main_v104 ((extractStridedSlice S50000x64 ![0, 192] · slices_S50000x256_S50000x64_0_192) : (⟨S50000x256, .f32⟩ : BufTy).Contents (Elt F) → (⟨S50000x64, .f32⟩ : BufTy).Contents (Elt F)),
    unary main_v102 main_v105 (Host.negf : (⟨S50000x64, .f32⟩ : BufTy).Contents (Elt F) → (⟨S50000x64, .f32⟩ : BufTy).Contents (Elt F)),
    unary main_v105 main_v106 (Host.exp : (⟨S50000x64, .f32⟩ : BufTy).Contents (Elt F) → (⟨S50000x64, .f32⟩ : BufTy).Contents (Elt F)),
    nullary main_cst_15 (constant S_ .f32 0x3F800000#32),
    unary main_cst_15 main_v107 (broadcastInDim S50000x64 ![] bcast_S_S50000x64 : (⟨S_, .f32⟩ : BufTy).Contents (Elt F) → (⟨S50000x64, .f32⟩ : BufTy).Contents (Elt F)),
    binary main_v107 main_v106 main_v108 (addf : (⟨S50000x64, .f32⟩ : BufTy).Contents (Elt F) → (⟨S50000x64, .f32⟩ : BufTy).Contents (Elt F) → (⟨S50000x64, .f32⟩ : BufTy).Contents (Elt F)),
    nullary main_cst_16 (constant S_ .f32 0x3F800000#32),
    unary main_cst_16 main_v109 (broadcastInDim S50000x64 ![] bcast_S_S50000x64 : (⟨S_, .f32⟩ : BufTy).Contents (Elt F) → (⟨S50000x64, .f32⟩ : BufTy).Contents (Elt F)),
    binary main_v109 main_v108 main_v110 (Host.divf : (⟨S50000x64, .f32⟩ : BufTy).Contents (Elt F) → (⟨S50000x64, .f32⟩ : BufTy).Contents (Elt F) → (⟨S50000x64, .f32⟩ : BufTy).Contents (Elt F)),
    binary main_v110 main_v58 main_v111 (mulf : (⟨S50000x64, .f32⟩ : BufTy).Contents (Elt F) → (⟨S50000x64, .f32⟩ : BufTy).Contents (Elt F) → (⟨S50000x64, .f32⟩ : BufTy).Contents (Elt F)),
    unary main_v101 main_v112 (Host.negf : (⟨S50000x64, .f32⟩ : BufTy).Contents (Elt F) → (⟨S50000x64, .f32⟩ : BufTy).Contents (Elt F)),
    unary main_v112 main_v113 (Host.exp : (⟨S50000x64, .f32⟩ : BufTy).Contents (Elt F) → (⟨S50000x64, .f32⟩ : BufTy).Contents (Elt F)),
    nullary main_cst_17 (constant S_ .f32 0x3F800000#32),
    unary main_cst_17 main_v114 (broadcastInDim S50000x64 ![] bcast_S_S50000x64 : (⟨S_, .f32⟩ : BufTy).Contents (Elt F) → (⟨S50000x64, .f32⟩ : BufTy).Contents (Elt F)),
    binary main_v114 main_v113 main_v115 (addf : (⟨S50000x64, .f32⟩ : BufTy).Contents (Elt F) → (⟨S50000x64, .f32⟩ : BufTy).Contents (Elt F) → (⟨S50000x64, .f32⟩ : BufTy).Contents (Elt F)),
    nullary main_cst_18 (constant S_ .f32 0x3F800000#32),
    unary main_cst_18 main_v116 (broadcastInDim S50000x64 ![] bcast_S_S50000x64 : (⟨S_, .f32⟩ : BufTy).Contents (Elt F) → (⟨S50000x64, .f32⟩ : BufTy).Contents (Elt F)),
    binary main_v116 main_v115 main_v117 (Host.divf : (⟨S50000x64, .f32⟩ : BufTy).Contents (Elt F) → (⟨S50000x64, .f32⟩ : BufTy).Contents (Elt F) → (⟨S50000x64, .f32⟩ : BufTy).Contents (Elt F)),
    unary main_v103 main_v118 (Host.tanh : (⟨S50000x64, .f32⟩ : BufTy).Contents (Elt F) → (⟨S50000x64, .f32⟩ : BufTy).Contents (Elt F)),
    binary main_v117 main_v118 main_v119 (mulf : (⟨S50000x64, .f32⟩ : BufTy).Contents (Elt F) → (⟨S50000x64, .f32⟩ : BufTy).Contents (Elt F) → (⟨S50000x64, .f32⟩ : BufTy).Contents (Elt F)),
    binary main_v111 main_v119 main_v120 (addf : (⟨S50000x64, .f32⟩ : BufTy).Contents (Elt F) → (⟨S50000x64, .f32⟩ : BufTy).Contents (Elt F) → (⟨S50000x64, .f32⟩ : BufTy).Contents (Elt F)),
    unary main_v104 main_v121 (Host.negf : (⟨S50000x64, .f32⟩ : BufTy).Contents (Elt F) → (⟨S50000x64, .f32⟩ : BufTy).Contents (Elt F)),
    unary main_v121 main_v122 (Host.exp : (⟨S50000x64, .f32⟩ : BufTy).Contents (Elt F) → (⟨S50000x64, .f32⟩ : BufTy).Contents (Elt F)),
    nullary main_cst_19 (constant S_ .f32 0x3F800000#32),
    unary main_cst_19 main_v123 (broadcastInDim S50000x64 ![] bcast_S_S50000x64 : (⟨S_, .f32⟩ : BufTy).Contents (Elt F) → (⟨S50000x64, .f32⟩ : BufTy).Contents (Elt F)),
    binary main_v123 main_v122 main_v124 (addf : (⟨S50000x64, .f32⟩ : BufTy).Contents (Elt F) → (⟨S50000x64, .f32⟩ : BufTy).Contents (Elt F) → (⟨S50000x64, .f32⟩ : BufTy).Contents (Elt F)),
    nullary main_cst_20 (constant S_ .f32 0x3F800000#32),
    unary main_cst_20 main_v125 (broadcastInDim S50000x64 ![] bcast_S_S50000x64 : (⟨S_, .f32⟩ : BufTy).Contents (Elt F) → (⟨S50000x64, .f32⟩ : BufTy).Contents (Elt F)),
    binary main_v125 main_v124 main_v126 (Host.divf : (⟨S50000x64, .f32⟩ : BufTy).Contents (Elt F) → (⟨S50000x64, .f32⟩ : BufTy).Contents (Elt F) → (⟨S50000x64, .f32⟩ : BufTy).Contents (Elt F)),
    unary main_v120 main_v127 (Host.tanh : (⟨S50000x64, .f32⟩ : BufTy).Contents (Elt F) → (⟨S50000x64, .f32⟩ : BufTy).Contents (Elt F)),
    binary main_v126 main_v127 main_v128 (mulf : (⟨S50000x64, .f32⟩ : BufTy).Contents (Elt F) → (⟨S50000x64, .f32⟩ : BufTy).Contents (Elt F) → (⟨S50000x64, .f32⟩ : BufTy).Contents (Elt F)) ]

theorem opsD_sub : (opsD : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

theorem opsD_fresh : (opsD : List (HloOp τ sig (Elt F))).Forall fun op => op.fresh = ∅ := by
  simp only [List.Forall]; repeat' constructor

abbrev opsD_W : List (Ref sig .tc) := [main_v81, main_v82, main_v83, main_v84, main_v85, main_call1_cst, main_call1_v0, main_v86, main_v87, main_v88, main_v89, main_v90, main_cst_14, main_v91, main_v92, main_v93, main_v94, main_v95, main_v96, main_v97, main_v98, main_v99, main_v100, main_v101, main_v102, main_v103, main_v104, main_v105, main_v106, main_cst_15, main_v107, main_v108, main_cst_16, main_v109, main_v110, main_v111, main_v112, main_v113, main_cst_17, main_v114, main_v115, main_cst_18, main_v116, main_v117, main_v118, main_v119, main_v120, main_v121, main_v122, main_cst_19, main_v123, main_v124, main_cst_20, main_v125, main_v126, main_v127, main_v128]
theorem opsD_writes : (opsD : List (HloOp τ sig (Elt F))).Forall fun op => op.writes ⊆ (opsD_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))

theorem opsD_keep (W : Valuation τ sig (Elt F)) (r : Ref sig .tc) (h : r ∉ opsD_W) :
    after opsD W (Proc.devRef .tc r) = W (Proc.devRef .tc r) :=
  after_of_writes_sub opsD W opsD_writes h

abbrev opsE : List (HloOp τ sig (Elt F)) :=
  [ binary main_v128 main_arg19 main_v129 ((fun l r => Host.dotGeneral dot_S50000x64_S64x50_S50000x50_1_0_0_1_n_n none l r) : (⟨S50000x64, .f32⟩ : BufTy).Contents (Elt F) → (⟨S64x50, .f32⟩ : BufTy).Contents (Elt F) → (⟨S50000x50, .f32⟩ : BufTy).Contents (Elt F)),
    unary main_arg20 main_v130 (broadcastInDim S1x50 ![1] bcast_S50_S1x50_1 : (⟨S50, .f32⟩ : BufTy).Contents (Elt F) → (⟨S1x50, .f32⟩ : BufTy).Contents (Elt F)),
    unary main_v130 main_v131 (broadcastInDim S50000x50 ![0, 1] bcast_S1x50_S50000x50_0_1 : (⟨S1x50, .f32⟩ : BufTy).Contents (Elt F) → (⟨S50000x50, .f32⟩ : BufTy).Contents (Elt F)),
    binary main_v129 main_v131 main_v132 (addf : (⟨S50000x50, .f32⟩ : BufTy).Contents (Elt F) → (⟨S50000x50, .f32⟩ : BufTy).Contents (Elt F) → (⟨S50000x50, .f32⟩ : BufTy).Contents (Elt F)),
    unary main_v132 main_v133 (Host.negf : (⟨S50000x50, .f32⟩ : BufTy).Contents (Elt F) → (⟨S50000x50, .f32⟩ : BufTy).Contents (Elt F)),
    unary main_v133 main_v134 (Host.exp : (⟨S50000x50, .f32⟩ : BufTy).Contents (Elt F) → (⟨S50000x50, .f32⟩ : BufTy).Contents (Elt F)),
    nullary main_cst_21 (constant S_ .f32 0x3F800000#32),
    unary main_cst_21 main_v135 (broadcastInDim S50000x50 ![] bcast_S_S50000x50 : (⟨S_, .f32⟩ : BufTy).Contents (Elt F) → (⟨S50000x50, .f32⟩ : BufTy).Contents (Elt F)),
    binary main_v135 main_v134 main_v136 (addf : (⟨S50000x50, .f32⟩ : BufTy).Contents (Elt F) → (⟨S50000x50, .f32⟩ : BufTy).Contents (Elt F) → (⟨S50000x50, .f32⟩ : BufTy).Contents (Elt F)),
    nullary main_cst_22 (constant S_ .f32 0x3F800000#32),
    unary main_cst_22 main_v137 (broadcastInDim S50000x50 ![] bcast_S_S50000x50 : (⟨S_, .f32⟩ : BufTy).Contents (Elt F) → (⟨S50000x50, .f32⟩ : BufTy).Contents (Elt F)),
    binary main_v137 main_v136 main_v138 (Host.divf : (⟨S50000x50, .f32⟩ : BufTy).Contents (Elt F) → (⟨S50000x50, .f32⟩ : BufTy).Contents (Elt F) → (⟨S50000x50, .f32⟩ : BufTy).Contents (Elt F)),
    binary main_v128 main_arg21 main_v139 ((fun l r => Host.dotGeneral dot_S50000x64_S64x50_S50000x50_1_0_0_1_n_n none l r) : (⟨S50000x64, .f32⟩ : BufTy).Contents (Elt F) → (⟨S64x50, .f32⟩ : BufTy).Contents (Elt F) → (⟨S50000x50, .f32⟩ : BufTy).Contents (Elt F)),
    unary main_arg22 main_v140 (broadcastInDim S1x50 ![1] bcast_S50_S1x50_1 : (⟨S50, .f32⟩ : BufTy).Contents (Elt F) → (⟨S1x50, .f32⟩ : BufTy).Contents (Elt F)),
    unary main_v140 main_v141 (broadcastInDim S50000x50 ![0, 1] bcast_S1x50_S50000x50_0_1 : (⟨S1x50, .f32⟩ : BufTy).Contents (Elt F) → (⟨S50000x50, .f32⟩ : BufTy).Contents (Elt F)),
    binary main_v139 main_v141 main_v142 (addf : (⟨S50000x50, .f32⟩ : BufTy).Contents (Elt F) → (⟨S50000x50, .f32⟩ : BufTy).Contents (Elt F) → (⟨S50000x50, .f32⟩ : BufTy).Contents (Elt F)),
    binary main_v138 main_v142 main_v143 (mulf : (⟨S50000x50, .f32⟩ : BufTy).Contents (Elt F) → (⟨S50000x50, .f32⟩ : BufTy).Contents (Elt F) → (⟨S50000x50, .f32⟩ : BufTy).Contents (Elt F)),
    nullary main_cst_23 (constant S_ .f32 0x00000000#32),
    binary main_v143 main_cst_23 main_v144 ((fun x v => Host.reduceAdd x v reducesTo_S50000x50_S50_d0 h_S_) : (⟨S50000x50, .f32⟩ : BufTy).Contents (Elt F) → (⟨S_, .f32⟩ : BufTy).Contents (Elt F) → (⟨S50, .f32⟩ : BufTy).Contents (Elt F)) ]

theorem opsE_sub : (opsE : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub ..⟩

theorem opsE_fresh : (opsE : List (HloOp τ sig (Elt F))).Forall fun op => op.fresh = ∅ := by
  simp only [List.Forall]; repeat' constructor

abbrev opsE_W : List (Ref sig .tc) := [main_v129, main_v130, main_v131, main_v132, main_v133, main_v134, main_cst_21, main_v135, main_v136, main_cst_22, main_v137, main_v138, main_v139, main_v140, main_v141, main_v142, main_v143, main_cst_23, main_v144]
theorem opsE_writes : (opsE : List (HloOp τ sig (Elt F))).Forall fun op => op.writes ⊆ (opsE_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))

theorem opsE_keep (W : Valuation τ sig (Elt F)) (r : Ref sig .tc) (h : r ∉ opsE_W) :
    after opsE W (Proc.devRef .tc r) = W (Proc.devRef .tc r) :=
  after_of_writes_sub opsE W opsE_writes h

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

abbrev ops : List (HloOp τ sig (Elt F)) := opsA ++ opsB ++ opsC ++ opsD ++ opsE

set_option maxRecDepth 8192 in
set_option maxHeartbeats 4000000 in

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  forall_append (forall_append (forall_append (forall_append opsA_sub opsB_sub) opsC_sub) opsD_sub) opsE_sub
theorem ops_fresh : ∀ op ∈ (ops : List (HloOp τ sig (Elt F))), op.fresh = ∅ :=
  List.forall_iff_forall_mem.mp
    (forall_append (forall_append (forall_append (forall_append opsA_fresh opsB_fresh) opsC_fresh) opsD_fresh) opsE_fresh)

theorem after_ops (V : Valuation τ sig (Elt F)) :
    after ops V = after opsE (after opsD (after opsC (after opsB (after opsA V)))) := by
  simp only [ops, StableHlo.after_append]

end Cert.ReferenceIdeal.RefRun

end
-- ==== Proof.RefRunA.lean ====
import proofs.«420294_j24077586661648_2_alg».proof.Proof.ReadP
import proofs.«420294_j24077586661648_2_alg».proof.Proof.RefRun0

noncomputable section

namespace Cert.ReferenceIdeal.RefRun

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

section
attribute [local irreducible] Host.gather

theorem opsA_v1 (W : Valuation τ sig (Elt F)) :
    after opsA W (Proc.devRef .tc main_v1) = val_main_v1 (F := F) (W (Proc.devRef .tc main_arg2)) := by
  dsimp only [opsA]
  after_results_simp
  rfl

theorem opsA_v3 (W : Valuation τ sig (Elt F)) :
    after opsA W (Proc.devRef .tc main_v3) = val_main_v3 (F := F) (W (Proc.devRef .tc main_arg2)) := by
  dsimp only [opsA]
  after_results_simp
  rfl

theorem opsA_v4 (W : Valuation τ sig (Elt F)) :
    after opsA W (Proc.devRef .tc main_v4) = val_main_v4 (F := F) := by
  dsimp only [opsA]
  after_results_simp
  rfl

theorem opsA_v11 (W : Valuation τ sig (Elt F)) :
    after opsA W (Proc.devRef .tc main_v11) = val_main_v11 (F := F) (W (Proc.devRef .tc main_arg0)) (W (Proc.devRef .tc main_arg2)) := by
  dsimp only [opsA]
  after_results_simp
  rfl

theorem opsA_v18 (W : Valuation τ sig (Elt F)) :
    after opsA W (Proc.devRef .tc main_v18) = val_main_v18 (F := F) (W (Proc.devRef .tc main_arg0)) (W (Proc.devRef .tc main_arg2)) := by
  dsimp only [opsA]
  after_results_simp
  rfl

end

end Cert.ReferenceIdeal.RefRun

end
-- ==== Proof.LibNary3.lean ====
import Idealize.ShloMosaic.Lib.StableHlo.Run

noncomputable section

namespace Idealize.ShloMosaic.StableHlo

variable {τ : Topo} {sig : RefSig} {Val : EltTy → Type}
variable {x a b y : Ref sig .tc}

/-- A host operation over three operand references writes its function of their three contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

macro "after_results3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefRunB.lean ====
import proofs.«420294_j24077586661648_2_alg».proof.Proof.ReadP
import proofs.«420294_j24077586661648_2_alg».proof.Proof.LibNary3
import proofs.«420294_j24077586661648_2_alg».proof.Proof.RefRun0

noncomputable section

namespace Cert.ReferenceIdeal.RefRun

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

section
attribute [local irreducible] Host.gather Host.scatterAdd concatenate

theorem opsB_v58 (W : Valuation τ sig (Elt F)) (h3 : W (Proc.devRef .tc main_v3) = val_main_v3 (F := F) (W (Proc.devRef .tc main_arg2))) (h4 : W (Proc.devRef .tc main_v4) = val_main_v4 (F := F))
    (h11 : W (Proc.devRef .tc main_v11) = val_main_v11 (F := F) (W (Proc.devRef .tc main_arg0)) (W (Proc.devRef .tc main_arg2))) (h18 : W (Proc.devRef .tc main_v18) = val_main_v18 (F := F) (W (Proc.devRef .tc main_arg0)) (W (Proc.devRef .tc main_arg2))) :
    after opsB W (Proc.devRef .tc main_v58) = val_main_v58 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  dsimp only [opsB]
  after_results3
  rw [h3, h4, h11, h18]
  rfl

theorem opsB_v66 (W : Valuation τ sig (Elt F)) (h3 : W (Proc.devRef .tc main_v3) = val_main_v3 (F := F) (W (Proc.devRef .tc main_arg2))) (h4 : W (Proc.devRef .tc main_v4) = val_main_v4 (F := F))
    (h11 : W (Proc.devRef .tc main_v11) = val_main_v11 (F := F) (W (Proc.devRef .tc main_arg0)) (W (Proc.devRef .tc main_arg2))) (h18 : W (Proc.devRef .tc main_v18) = val_main_v18 (F := F) (W (Proc.devRef .tc main_arg0)) (W (Proc.devRef .tc main_arg2))) :
    after opsB W (Proc.devRef .tc main_v66) = val_main_v66 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  dsimp only [opsB]
  after_results3
  rw [h3, h4, h11, h18]
  rfl

end

end Cert.ReferenceIdeal.RefRun

end
-- ==== Proof.RefRunC.lean ====
import proofs.«420294_j24077586661648_2_alg».proof.Proof.ReadP
import proofs.«420294_j24077586661648_2_alg».proof.Proof.RefRun0

noncomputable section

namespace Cert.ReferenceIdeal.RefRun

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

section
attribute [local irreducible] Host.gather

theorem opsC_v73 (W : Valuation τ sig (Elt F)) (h3 : W (Proc.devRef .tc main_v3) = val_main_v3 (F := F) (W (Proc.devRef .tc main_arg2))) (h66 : W (Proc.devRef .tc main_v66) = val_main_v66 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10))) :
    after opsC W (Proc.devRef .tc main_v73) = val_main_v73 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  dsimp only [opsC]
  after_results_simp
  rw [h3, h66]
  rfl

theorem opsC_v80 (W : Valuation τ sig (Elt F)) (h1 : W (Proc.devRef .tc main_v1) = val_main_v1 (F := F) (W (Proc.devRef .tc main_arg2))) (h66 : W (Proc.devRef .tc main_v66) = val_main_v66 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10))) :
    after opsC W (Proc.devRef .tc main_v80) = val_main_v80 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  dsimp only [opsC]
  after_results_simp
  rw [h1, h66]
  rfl

end

end Cert.ReferenceIdeal.RefRun

end
-- ==== Proof.RefRunD.lean ====
import proofs.«420294_j24077586661648_2_alg».proof.Proof.ReadP
import proofs.«420294_j24077586661648_2_alg».proof.Proof.LibNary3
import proofs.«420294_j24077586661648_2_alg».proof.Proof.RefRun0

noncomputable section

namespace Cert.ReferenceIdeal.RefRun

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

section
attribute [local irreducible] Host.gather Host.scatterAdd concatenate

theorem opsD_v128 (W : Valuation τ sig (Elt F)) (h3 : W (Proc.devRef .tc main_v3) = val_main_v3 (F := F) (W (Proc.devRef .tc main_arg2))) (h58 : W (Proc.devRef .tc main_v58) = val_main_v58 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)))
    (h66 : W (Proc.devRef .tc main_v66) = val_main_v66 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10))) (h73 : W (Proc.devRef .tc main_v73) = val_main_v73 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10))) (h80 : W (Proc.devRef .tc main_v80) = val_main_v80 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10))) :
    after opsD W (Proc.devRef .tc main_v128) = val_main_v128 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) := by
  dsimp only [opsD]
  after_results3
  rw [h3, h58, h66, h73, h80]
  rfl

end

end Cert.ReferenceIdeal.RefRun

end
-- ==== Proof.RefRunE.lean ====
import proofs.«420294_j24077586661648_2_alg».proof.Proof.ReadP
import proofs.«420294_j24077586661648_2_alg».proof.Proof.RefRun0

noncomputable section

namespace Cert.ReferenceIdeal.RefRun

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

theorem opsE_v144 (W : Valuation τ sig (Elt F)) (h128 : W (Proc.devRef .tc main_v128) = val_main_v128 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18))) :
    after opsE W (Proc.devRef .tc main_v144) = val_main_v144 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) := by
  dsimp only [opsE]
  after_results_simp
  rw [h128]
  rfl

end Cert.ReferenceIdeal.RefRun

end
-- ==== Proof.RefRun.lean ====
import proofs.«420294_j24077586661648_2_alg».proof.Proof.ReadP
import proofs.«420294_j24077586661648_2_alg».proof.Proof.RefRun0
import proofs.«420294_j24077586661648_2_alg».proof.Proof.RefRunA
import proofs.«420294_j24077586661648_2_alg».proof.Proof.RefRunB
import proofs.«420294_j24077586661648_2_alg».proof.Proof.RefRunC
import proofs.«420294_j24077586661648_2_alg».proof.Proof.RefRunD
import proofs.«420294_j24077586661648_2_alg».proof.Proof.RefRunE

noncomputable section

namespace Cert.ReferenceIdeal.RefRun

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

theorem ops_keep (V : Valuation τ sig (Elt F)) (r : Ref sig .tc) (hA : r ∉ opsA_W) (hB : r ∉ opsB_W) (hC : r ∉ opsC_W)
    (hD : r ∉ opsD_W) (hE : r ∉ opsE_W) : after ops V (Proc.devRef .tc r) = V (Proc.devRef .tc r) := by
  rw [after_ops, opsE_keep _ r hE, opsD_keep _ r hD, opsC_keep _ r hC, opsB_keep _ r hB, opsA_keep _ r hA]

theorem ops_v144 (V : Valuation τ sig (Elt F)) :
    after ops V (Proc.devRef .tc main_v144) = val_main_v144 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  rw [after_ops]

  have k1 : ∀ r : Ref sig .tc, r ∉ opsA_W → after opsA V (Proc.devRef .tc r) = V (Proc.devRef .tc r) := opsA_keep V
  have s1_1 := opsA_v1 V
  have s1_3 := opsA_v3 V
  have s1_4 := opsA_v4 V
  have s1_11 := opsA_v11 V
  have s1_18 := opsA_v18 V
  generalize after opsA V = W1 at k1 s1_1 s1_3 s1_4 s1_11 s1_18 ⊢
  have e1_0 : W1 (Proc.devRef .tc main_arg0) = V (Proc.devRef .tc main_arg0) := k1 main_arg0 (by decide)
  have e1_1 : W1 (Proc.devRef .tc main_arg1) = V (Proc.devRef .tc main_arg1) := k1 main_arg1 (by decide)
  have e1_2 : W1 (Proc.devRef .tc main_arg2) = V (Proc.devRef .tc main_arg2) := k1 main_arg2 (by decide)
  have e1_3 : W1 (Proc.devRef .tc main_arg3) = V (Proc.devRef .tc main_arg3) := k1 main_arg3 (by decide)
  have e1_4 : W1 (Proc.devRef .tc main_arg4) = V (Proc.devRef .tc main_arg4) := k1 main_arg4 (by decide)
  have e1_5 : W1 (Proc.devRef .tc main_arg5) = V (Proc.devRef .tc main_arg5) := k1 main_arg5 (by decide)
  have e1_6 : W1 (Proc.devRef .tc main_arg6) = V (Proc.devRef .tc main_arg6) := k1 main_arg6 (by decide)
  have e1_7 : W1 (Proc.devRef .tc main_arg7) = V (Proc.devRef .tc main_arg7) := k1 main_arg7 (by decide)
  have e1_8 : W1 (Proc.devRef .tc main_arg8) = V (Proc.devRef .tc main_arg8) := k1 main_arg8 (by decide)
  have e1_9 : W1 (Proc.devRef .tc main_arg9) = V (Proc.devRef .tc main_arg9) := k1 main_arg9 (by decide)
  have e1_10 : W1 (Proc.devRef .tc main_arg10) = V (Proc.devRef .tc main_arg10) := k1 main_arg10 (by decide)
  have e1_11 : W1 (Proc.devRef .tc main_arg11) = V (Proc.devRef .tc main_arg11) := k1 main_arg11 (by decide)
  have e1_12 : W1 (Proc.devRef .tc main_arg12) = V (Proc.devRef .tc main_arg12) := k1 main_arg12 (by decide)
  have e1_13 : W1 (Proc.devRef .tc main_arg13) = V (Proc.devRef .tc main_arg13) := k1 main_arg13 (by decide)
  have e1_14 : W1 (Proc.devRef .tc main_arg14) = V (Proc.devRef .tc main_arg14) := k1 main_arg14 (by decide)
  have e1_15 : W1 (Proc.devRef .tc main_arg15) = V (Proc.devRef .tc main_arg15) := k1 main_arg15 (by decide)
  have e1_16 : W1 (Proc.devRef .tc main_arg16) = V (Proc.devRef .tc main_arg16) := k1 main_arg16 (by decide)
  have e1_17 : W1 (Proc.devRef .tc main_arg17) = V (Proc.devRef .tc main_arg17) := k1 main_arg17 (by decide)
  have e1_18 : W1 (Proc.devRef .tc main_arg18) = V (Proc.devRef .tc main_arg18) := k1 main_arg18 (by decide)
  have e1_19 : W1 (Proc.devRef .tc main_arg19) = V (Proc.devRef .tc main_arg19) := k1 main_arg19 (by decide)
  have e1_20 : W1 (Proc.devRef .tc main_arg20) = V (Proc.devRef .tc main_arg20) := k1 main_arg20 (by decide)
  have e1_21 : W1 (Proc.devRef .tc main_arg21) = V (Proc.devRef .tc main_arg21) := k1 main_arg21 (by decide)
  have e1_22 : W1 (Proc.devRef .tc main_arg22) = V (Proc.devRef .tc main_arg22) := k1 main_arg22 (by decide)

  have k2 : ∀ r : Ref sig .tc, r ∉ opsB_W → after opsB W1 (Proc.devRef .tc r) = W1 (Proc.devRef .tc r) := opsB_keep W1
  have s2_58 := opsB_v58 W1 (by rw [e1_2]; exact s1_3) s1_4 (by rw [e1_0, e1_2]; exact s1_11) (by rw [e1_0, e1_2]; exact s1_18)
  have s2_66 := opsB_v66 W1 (by rw [e1_2]; exact s1_3) s1_4 (by rw [e1_0, e1_2]; exact s1_11) (by rw [e1_0, e1_2]; exact s1_18)
  simp only [e1_0, e1_1, e1_2, e1_3, e1_4, e1_5, e1_6, e1_7, e1_8, e1_9, e1_10] at s2_58 s2_66
  have s2_1 := (k2 main_v1 (by decide)).trans s1_1
  have s2_3 := (k2 main_v3 (by decide)).trans s1_3
  generalize after opsB W1 = W2 at k2 s2_58 s2_66 s2_1 s2_3 ⊢
  have e2_0 : W2 (Proc.devRef .tc main_arg0) = V (Proc.devRef .tc main_arg0) := (k2 main_arg0 (by decide)).trans e1_0
  have e2_1 : W2 (Proc.devRef .tc main_arg1) = V (Proc.devRef .tc main_arg1) := (k2 main_arg1 (by decide)).trans e1_1
  have e2_2 : W2 (Proc.devRef .tc main_arg2) = V (Proc.devRef .tc main_arg2) := (k2 main_arg2 (by decide)).trans e1_2
  have e2_3 : W2 (Proc.devRef .tc main_arg3) = V (Proc.devRef .tc main_arg3) := (k2 main_arg3 (by decide)).trans e1_3
  have e2_4 : W2 (Proc.devRef .tc main_arg4) = V (Proc.devRef .tc main_arg4) := (k2 main_arg4 (by decide)).trans e1_4
  have e2_5 : W2 (Proc.devRef .tc main_arg5) = V (Proc.devRef .tc main_arg5) := (k2 main_arg5 (by decide)).trans e1_5
  have e2_6 : W2 (Proc.devRef .tc main_arg6) = V (Proc.devRef .tc main_arg6) := (k2 main_arg6 (by decide)).trans e1_6
  have e2_7 : W2 (Proc.devRef .tc main_arg7) = V (Proc.devRef .tc main_arg7) := (k2 main_arg7 (by decide)).trans e1_7
  have e2_8 : W2 (Proc.devRef .tc main_arg8) = V (Proc.devRef .tc main_arg8) := (k2 main_arg8 (by decide)).trans e1_8
  have e2_9 : W2 (Proc.devRef .tc main_arg9) = V (Proc.devRef .tc main_arg9) := (k2 main_arg9 (by decide)).trans e1_9
  have e2_10 : W2 (Proc.devRef .tc main_arg10) = V (Proc.devRef .tc main_arg10) := (k2 main_arg10 (by decide)).trans e1_10
  have e2_11 : W2 (Proc.devRef .tc main_arg11) = V (Proc.devRef .tc main_arg11) := (k2 main_arg11 (by decide)).trans e1_11
  have e2_12 : W2 (Proc.devRef .tc main_arg12) = V (Proc.devRef .tc main_arg12) := (k2 main_arg12 (by decide)).trans e1_12
  have e2_13 : W2 (Proc.devRef .tc main_arg13) = V (Proc.devRef .tc main_arg13) := (k2 main_arg13 (by decide)).trans e1_13
  have e2_14 : W2 (Proc.devRef .tc main_arg14) = V (Proc.devRef .tc main_arg14) := (k2 main_arg14 (by decide)).trans e1_14
  have e2_15 : W2 (Proc.devRef .tc main_arg15) = V (Proc.devRef .tc main_arg15) := (k2 main_arg15 (by decide)).trans e1_15
  have e2_16 : W2 (Proc.devRef .tc main_arg16) = V (Proc.devRef .tc main_arg16) := (k2 main_arg16 (by decide)).trans e1_16
  have e2_17 : W2 (Proc.devRef .tc main_arg17) = V (Proc.devRef .tc main_arg17) := (k2 main_arg17 (by decide)).trans e1_17
  have e2_18 : W2 (Proc.devRef .tc main_arg18) = V (Proc.devRef .tc main_arg18) := (k2 main_arg18 (by decide)).trans e1_18
  have e2_19 : W2 (Proc.devRef .tc main_arg19) = V (Proc.devRef .tc main_arg19) := (k2 main_arg19 (by decide)).trans e1_19
  have e2_20 : W2 (Proc.devRef .tc main_arg20) = V (Proc.devRef .tc main_arg20) := (k2 main_arg20 (by decide)).trans e1_20
  have e2_21 : W2 (Proc.devRef .tc main_arg21) = V (Proc.devRef .tc main_arg21) := (k2 main_arg21 (by decide)).trans e1_21
  have e2_22 : W2 (Proc.devRef .tc main_arg22) = V (Proc.devRef .tc main_arg22) := (k2 main_arg22 (by decide)).trans e1_22

  have k3 : ∀ r : Ref sig .tc, r ∉ opsC_W → after opsC W2 (Proc.devRef .tc r) = W2 (Proc.devRef .tc r) := opsC_keep W2
  have s3_73 := opsC_v73 W2 (by rw [e2_2]; exact s2_3) (by rw [e2_0, e2_1, e2_2, e2_3, e2_4, e2_5, e2_6, e2_7, e2_8, e2_9, e2_10]; exact s2_66)
  have s3_80 := opsC_v80 W2 (by rw [e2_2]; exact s2_1) (by rw [e2_0, e2_1, e2_2, e2_3, e2_4, e2_5, e2_6, e2_7, e2_8, e2_9, e2_10]; exact s2_66)
  simp only [e2_0, e2_1, e2_2, e2_3, e2_4, e2_5, e2_6, e2_7, e2_8, e2_9, e2_10] at s3_73 s3_80
  have s3_3 := (k3 main_v3 (by decide)).trans s2_3
  have s3_58 := (k3 main_v58 (by decide)).trans s2_58
  have s3_66 := (k3 main_v66 (by decide)).trans s2_66
  generalize after opsC W2 = W3 at k3 s3_73 s3_80 s3_3 s3_58 s3_66 ⊢
  have e3_0 : W3 (Proc.devRef .tc main_arg0) = V (Proc.devRef .tc main_arg0) := (k3 main_arg0 (by decide)).trans e2_0
  have e3_1 : W3 (Proc.devRef .tc main_arg1) = V (Proc.devRef .tc main_arg1) := (k3 main_arg1 (by decide)).trans e2_1
  have e3_2 : W3 (Proc.devRef .tc main_arg2) = V (Proc.devRef .tc main_arg2) := (k3 main_arg2 (by decide)).trans e2_2
  have e3_3 : W3 (Proc.devRef .tc main_arg3) = V (Proc.devRef .tc main_arg3) := (k3 main_arg3 (by decide)).trans e2_3
  have e3_4 : W3 (Proc.devRef .tc main_arg4) = V (Proc.devRef .tc main_arg4) := (k3 main_arg4 (by decide)).trans e2_4
  have e3_5 : W3 (Proc.devRef .tc main_arg5) = V (Proc.devRef .tc main_arg5) := (k3 main_arg5 (by decide)).trans e2_5
  have e3_6 : W3 (Proc.devRef .tc main_arg6) = V (Proc.devRef .tc main_arg6) := (k3 main_arg6 (by decide)).trans e2_6
  have e3_7 : W3 (Proc.devRef .tc main_arg7) = V (Proc.devRef .tc main_arg7) := (k3 main_arg7 (by decide)).trans e2_7
  have e3_8 : W3 (Proc.devRef .tc main_arg8) = V (Proc.devRef .tc main_arg8) := (k3 main_arg8 (by decide)).trans e2_8
  have e3_9 : W3 (Proc.devRef .tc main_arg9) = V (Proc.devRef .tc main_arg9) := (k3 main_arg9 (by decide)).trans e2_9
  have e3_10 : W3 (Proc.devRef .tc main_arg10) = V (Proc.devRef .tc main_arg10) := (k3 main_arg10 (by decide)).trans e2_10
  have e3_11 : W3 (Proc.devRef .tc main_arg11) = V (Proc.devRef .tc main_arg11) := (k3 main_arg11 (by decide)).trans e2_11
  have e3_12 : W3 (Proc.devRef .tc main_arg12) = V (Proc.devRef .tc main_arg12) := (k3 main_arg12 (by decide)).trans e2_12
  have e3_13 : W3 (Proc.devRef .tc main_arg13) = V (Proc.devRef .tc main_arg13) := (k3 main_arg13 (by decide)).trans e2_13
  have e3_14 : W3 (Proc.devRef .tc main_arg14) = V (Proc.devRef .tc main_arg14) := (k3 main_arg14 (by decide)).trans e2_14
  have e3_15 : W3 (Proc.devRef .tc main_arg15) = V (Proc.devRef .tc main_arg15) := (k3 main_arg15 (by decide)).trans e2_15
  have e3_16 : W3 (Proc.devRef .tc main_arg16) = V (Proc.devRef .tc main_arg16) := (k3 main_arg16 (by decide)).trans e2_16
  have e3_17 : W3 (Proc.devRef .tc main_arg17) = V (Proc.devRef .tc main_arg17) := (k3 main_arg17 (by decide)).trans e2_17
  have e3_18 : W3 (Proc.devRef .tc main_arg18) = V (Proc.devRef .tc main_arg18) := (k3 main_arg18 (by decide)).trans e2_18
  have e3_19 : W3 (Proc.devRef .tc main_arg19) = V (Proc.devRef .tc main_arg19) := (k3 main_arg19 (by decide)).trans e2_19
  have e3_20 : W3 (Proc.devRef .tc main_arg20) = V (Proc.devRef .tc main_arg20) := (k3 main_arg20 (by decide)).trans e2_20
  have e3_21 : W3 (Proc.devRef .tc main_arg21) = V (Proc.devRef .tc main_arg21) := (k3 main_arg21 (by decide)).trans e2_21
  have e3_22 : W3 (Proc.devRef .tc main_arg22) = V (Proc.devRef .tc main_arg22) := (k3 main_arg22 (by decide)).trans e2_22

  have k4 : ∀ r : Ref sig .tc, r ∉ opsD_W → after opsD W3 (Proc.devRef .tc r) = W3 (Proc.devRef .tc r) := opsD_keep W3
  have s4_128 := opsD_v128 W3 (by rw [e3_2]; exact s3_3) (by rw [e3_0, e3_1, e3_2, e3_3, e3_4, e3_5, e3_6, e3_7, e3_8, e3_9, e3_10]; exact s3_58) (by rw [e3_0, e3_1, e3_2, e3_3, e3_4, e3_5, e3_6, e3_7, e3_8, e3_9, e3_10]; exact s3_66)
    (by rw [e3_0, e3_1, e3_2, e3_3, e3_4, e3_5, e3_6, e3_7, e3_8, e3_9, e3_10]; exact s3_73) (by rw [e3_0, e3_1, e3_2, e3_3, e3_4, e3_5, e3_6, e3_7, e3_8, e3_9, e3_10]; exact s3_80)
  simp only [e3_0, e3_1, e3_2, e3_3, e3_4, e3_5, e3_6, e3_7, e3_8, e3_9, e3_10, e3_11, e3_12, e3_13, e3_14, e3_15, e3_16, e3_17, e3_18] at s4_128
  generalize after opsD W3 = W4 at k4 s4_128 ⊢
  have e4_0 : W4 (Proc.devRef .tc main_arg0) = V (Proc.devRef .tc main_arg0) := (k4 main_arg0 (by decide)).trans e3_0
  have e4_1 : W4 (Proc.devRef .tc main_arg1) = V (Proc.devRef .tc main_arg1) := (k4 main_arg1 (by decide)).trans e3_1
  have e4_2 : W4 (Proc.devRef .tc main_arg2) = V (Proc.devRef .tc main_arg2) := (k4 main_arg2 (by decide)).trans e3_2
  have e4_3 : W4 (Proc.devRef .tc main_arg3) = V (Proc.devRef .tc main_arg3) := (k4 main_arg3 (by decide)).trans e3_3
  have e4_4 : W4 (Proc.devRef .tc main_arg4) = V (Proc.devRef .tc main_arg4) := (k4 main_arg4 (by decide)).trans e3_4
  have e4_5 : W4 (Proc.devRef .tc main_arg5) = V (Proc.devRef .tc main_arg5) := (k4 main_arg5 (by decide)).trans e3_5
  have e4_6 : W4 (Proc.devRef .tc main_arg6) = V (Proc.devRef .tc main_arg6) := (k4 main_arg6 (by decide)).trans e3_6
  have e4_7 : W4 (Proc.devRef .tc main_arg7) = V (Proc.devRef .tc main_arg7) := (k4 main_arg7 (by decide)).trans e3_7
  have e4_8 : W4 (Proc.devRef .tc main_arg8) = V (Proc.devRef .tc main_arg8) := (k4 main_arg8 (by decide)).trans e3_8
  have e4_9 : W4 (Proc.devRef .tc main_arg9) = V (Proc.devRef .tc main_arg9) := (k4 main_arg9 (by decide)).trans e3_9
  have e4_10 : W4 (Proc.devRef .tc main_arg10) = V (Proc.devRef .tc main_arg10) := (k4 main_arg10 (by decide)).trans e3_10
  have e4_11 : W4 (Proc.devRef .tc main_arg11) = V (Proc.devRef .tc main_arg11) := (k4 main_arg11 (by decide)).trans e3_11
  have e4_12 : W4 (Proc.devRef .tc main_arg12) = V (Proc.devRef .tc main_arg12) := (k4 main_arg12 (by decide)).trans e3_12
  have e4_13 : W4 (Proc.devRef .tc main_arg13) = V (Proc.devRef .tc main_arg13) := (k4 main_arg13 (by decide)).trans e3_13
  have e4_14 : W4 (Proc.devRef .tc main_arg14) = V (Proc.devRef .tc main_arg14) := (k4 main_arg14 (by decide)).trans e3_14
  have e4_15 : W4 (Proc.devRef .tc main_arg15) = V (Proc.devRef .tc main_arg15) := (k4 main_arg15 (by decide)).trans e3_15
  have e4_16 : W4 (Proc.devRef .tc main_arg16) = V (Proc.devRef .tc main_arg16) := (k4 main_arg16 (by decide)).trans e3_16
  have e4_17 : W4 (Proc.devRef .tc main_arg17) = V (Proc.devRef .tc main_arg17) := (k4 main_arg17 (by decide)).trans e3_17
  have e4_18 : W4 (Proc.devRef .tc main_arg18) = V (Proc.devRef .tc main_arg18) := (k4 main_arg18 (by decide)).trans e3_18
  have e4_19 : W4 (Proc.devRef .tc main_arg19) = V (Proc.devRef .tc main_arg19) := (k4 main_arg19 (by decide)).trans e3_19
  have e4_20 : W4 (Proc.devRef .tc main_arg20) = V (Proc.devRef .tc main_arg20) := (k4 main_arg20 (by decide)).trans e3_20
  have e4_21 : W4 (Proc.devRef .tc main_arg21) = V (Proc.devRef .tc main_arg21) := (k4 main_arg21 (by decide)).trans e3_21
  have e4_22 : W4 (Proc.devRef .tc main_arg22) = V (Proc.devRef .tc main_arg22) := (k4 main_arg22 (by decide)).trans e3_22

  have s5 := opsE_v144 W4 (by rw [e4_0, e4_1, e4_2, e4_3, e4_4, e4_5, e4_6, e4_7, e4_8, e4_9, e4_10, e4_11, e4_12, e4_13, e4_14, e4_15, e4_16, e4_17, e4_18]; exact s4_128)
  simp only [e4_0, e4_1, e4_2, e4_3, e4_4, e4_5, e4_6, e4_7, e4_8, e4_9, e4_10, e4_11, e4_12, e4_13, e4_14, e4_15, e4_16, e4_17, e4_18, e4_19, e4_20, e4_21, e4_22] at s5
  exact s5

variable (m : (ℓ : Loc nD τ sig) → Buf (Elt F) ℓ) (ρ : Dev nD → PrngReg)

/-- The reference's 175 operations read back in five lists: its result is the last stage of the reading, and its arguments are unchanged. -/
theorem run : θ_run defs (onTc (τ := τ) (main (F := F))) ⟨m, fun _ => 0, ρ⟩ fun r => ∀ c : Dev nD,
      r.2.mem ((c.tc : Thread nD τ).loc main_v144) = val_main_v144 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v144).trans (ops_v144 (launchContents m c)),
      (h c main_arg0).trans (ops_keep (launchContents m c) main_arg0 (by decide) (by decide) (by decide) (by decide) (by decide)),
      (h c main_arg1).trans (ops_keep (launchContents m c) main_arg1 (by decide) (by decide) (by decide) (by decide) (by decide)),
      (h c main_arg2).trans (ops_keep (launchContents m c) main_arg2 (by decide) (by decide) (by decide) (by decide) (by decide)),
      (h c main_arg3).trans (ops_keep (launchContents m c) main_arg3 (by decide) (by decide) (by decide) (by decide) (by decide)),
      (h c main_arg4).trans (ops_keep (launchContents m c) main_arg4 (by decide) (by decide) (by decide) (by decide) (by decide)),
      (h c main_arg5).trans (ops_keep (launchContents m c) main_arg5 (by decide) (by decide) (by decide) (by decide) (by decide)),
      (h c main_arg6).trans (ops_keep (launchContents m c) main_arg6 (by decide) (by decide) (by decide) (by decide) (by decide)),
      (h c main_arg7).trans (ops_keep (launchContents m c) main_arg7 (by decide) (by decide) (by decide) (by decide) (by decide)),
      (h c main_arg8).trans (ops_keep (launchContents m c) main_arg8 (by decide) (by decide) (by decide) (by decide) (by decide)),
      (h c main_arg9).trans (ops_keep (launchContents m c) main_arg9 (by decide) (by decide) (by decide) (by decide) (by decide)),
      (h c main_arg10).trans (ops_keep (launchContents m c) main_arg10 (by decide) (by decide) (by decide) (by decide) (by decide)),
      (h c main_arg11).trans (ops_keep (launchContents m c) main_arg11 (by decide) (by decide) (by decide) (by decide) (by decide)),
      (h c main_arg12).trans (ops_keep (launchContents m c) main_arg12 (by decide) (by decide) (by decide) (by decide) (by decide)),
      (h c main_arg13).trans (ops_keep (launchContents m c) main_arg13 (by decide) (by decide) (by decide) (by decide) (by decide)),
      (h c main_arg14).trans (ops_keep (launchContents m c) main_arg14 (by decide) (by decide) (by decide) (by decide) (by decide)),
      (h c main_arg15).trans (ops_keep (launchContents m c) main_arg15 (by decide) (by decide) (by decide) (by decide) (by decide)),
      (h c main_arg16).trans (ops_keep (launchContents m c) main_arg16 (by decide) (by decide) (by decide) (by decide) (by decide)),
      (h c main_arg17).trans (ops_keep (launchContents m c) main_arg17 (by decide) (by decide) (by decide) (by decide) (by decide)),
      (h c main_arg18).trans (ops_keep (launchContents m c) main_arg18 (by decide) (by decide) (by decide) (by decide) (by decide)),
      (h c main_arg19).trans (ops_keep (launchContents m c) main_arg19 (by decide) (by decide) (by decide) (by decide) (by decide)),
      (h c main_arg20).trans (ops_keep (launchContents m c) main_arg20 (by decide) (by decide) (by decide) (by decide) (by decide)),
      (h c main_arg21).trans (ops_keep (launchContents m c) main_arg21 (by decide) (by decide) (by decide) (by decide) (by decide)),
      (h c main_arg22).trans (ops_keep (launchContents m c) main_arg22 (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.lean ====
import proofs.«420294_j24077586661648_2_alg».proof.Defs
import proofs.«420294_j24077586661648_2_alg».proof.Proof.FrameKI
import proofs.«420294_j24077586661648_2_alg».proof.Proof.Bridge2
import proofs.«420294_j24077586661648_2_alg».proof.Proof.HostSide
import proofs.«420294_j24077586661648_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal Cert.KernelIdeal.Gen Cert.KernelIdeal.Hand Cert.KernelIdeal.HostSide

/-- The reference runs and leaves its arguments unchanged: its run read back, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The two idealized programs end with equal results: the kernel program's result buffer holds the reference's result of the same arguments (`B_res`), the index range that needs coming from the precondition. -/
theorem algebraic : Cert.algebraic_KernelIdeal_ReferenceIdeal := by
  intro m ρ m' ρ' hpre hagree
  refine ⟨fun c => W16 m c (Proc.devRef .tc main_v50), ?_, ?_⟩
  · refine (θ_run Cert.KernelIdeal.defs _ _).mono (fun r h c => ⟨h c _ (mem_uc main_v50 (by decide)), ?_⟩)
      (run_all (F := Ideal) m ρ)
    repeat' apply And.intro
    all_goals exact (h c _ (mem_uc _ (by decide))).trans (unw16 m c _ (by decide))
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13, e14, e15, e16, e17, e18, e19, e20, e21, e22⟩ := hagree c
    rw [e0, e1, e2, e3, e4, e5, e6, e7, e8, e9, e10, e11, e12, e13, e14, e15, e16, e17, e18, e19, e20, e21, e22]
    exact (B_res m c (idx_range_of_pre m hpre c)).symm

theorem claim : Cert.Claim :=
  ⟨Cert.Kernel.Gen.facts, Cert.KernelIdeal.Gen.facts, Cert.ReferenceIdeal.Gen.facts, Cert.Pre_finite_inputs.Gen.facts,
    Cert.Proof.Frames.frame_bits, Cert.Proof.Frames.frame_pi, frame_ri, trivial, algebraic⟩

end Cert.Proof

end
